-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v161)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v161) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v405) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S800000 : Shape := ⟨1, ![800000]⟩
abbrev S50000x128 : Shape := ⟨2, ![50000, 128]⟩
abbrev S3x128x128 : Shape := ⟨3, ![3, 128, 128]⟩
abbrev S3x128 : Shape := ⟨2, ![3, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S16384 : S_.BroadcastsInDim S16384 (![] : Fin 0 → Fin S16384.rank)
  reducesTo_S16384_S_d0 : S16384.ReducesTo [0] S_

variable [Facts]

def fn_part6 {F : FTy → Type} [FloatOps F] (main_arg0 : IVec S16384 32) (main_arg1 : IVec S16384 32) (main_v98 : IVec S_ 1) (main_v101 : IVec S_ 1) : IVec S_ 1 :=
  let main_v102 : IVec S_ 1 := andi main_v98 main_v101
  let main_c_40 : IVec S_ 32 := constantI S_ 32 50000#32
  let main_v103 : IVec S16384 32 := broadcastInDim S16384 ![] bcast_S_S16384 main_c_40
  let main_v104 : IVec S16384 1 := cmpi .slt main_arg0 main_v103
  let main_c_41 : IVec S_ 1 := constantI S_ 1 1#1
  let main_v105 : IVec S_ 1 := (fun x v => Host.reduce IntOp.andi x v reducesTo_S16384_S_d0 h_S_) main_v104 main_c_41
  let main_v106 : IVec S_ 1 := andi main_v102 main_v105
  let main_c_42 : IVec S_ 32 := constantI S_ 32 0#32
  let main_v107 : IVec S16384 32 := broadcastInDim S16384 ![] bcast_S_S16384 main_c_42
  let main_v108 : IVec S16384 1 := cmpi .sge main_arg1 main_v107
  let main_c_43 : IVec S_ 1 := constantI S_ 1 1#1
  let main_v109 : IVec S_ 1 := (fun x v => Host.reduce IntOp.andi x v reducesTo_S16384_S_d0 h_S_) main_v108 main_c_43
  let main_v110 : IVec S_ 1 := andi main_v106 main_v109
  let main_c_44 : IVec S_ 32 := constantI S_ 32 50000#32
  let main_v111 : IVec S16384 32 := broadcastInDim S16384 ![] bcast_S_S16384 main_c_44
  let main_v112 : IVec S16384 1 := cmpi .slt main_arg1 main_v111
  let main_c_45 : IVec S_ 1 := constantI S_ 1 1#1
  let main_v113 : IVec S_ 1 := (fun x v => Host.reduce IntOp.andi x v reducesTo_S16384_S_d0 h_S_) main_v112 main_c_45
  let main_v114 : IVec S_ 1 := andi main_v110 main_v113
  main_v114

def fn_part5 {F : FTy → Type} [FloatOps F] (main_arg0 : IVec S16384 32) (main_arg1 : IVec S16384 32) (main_arg24 : FVec F S128x1 .f32) (main_arg25 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg24
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg25
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S16384 32 := broadcastInDim S16384 ![] bcast_S_S16384 main_c_38
  let main_v100 : IVec S16384 1 := cmpi .sge main_arg0 main_v99
  let main_c_39 : IVec S_ 1 := constantI S_ 1 1#1
  let main_v101 : IVec S_ 1 := (fun x v => Host.reduce IntOp.andi x v reducesTo_S16384_S_d0 h_S_) main_v100 main_c_39
  fn_part6 (F := F) main_arg0 main_arg1 main_v98 main_v101

def fn_part4 {F : FTy → Type} [FloatOps F] (main_arg0 : IVec S16384 32) (main_arg1 : IVec S16384 32) (main_arg20 : FVec F S128x128 .f32) (main_arg21 : FVec F S128 .f32) (main_arg22 : FVec F S128 .f32) (main_arg23 : FVec F S128 .f32) (main_arg24 : FVec F S128x1 .f32) (main_arg25 : FVec F S1 .f32) (main_v63 : IVec S_ 1) (main_v67 : IVec S_ 1) : IVec S_ 1 :=
  let main_v68 : IVec S_ 1 := andi main_v63 main_v67
  let main_v69 : FVec F S128x128 .f32 := Host.absf main_arg20
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg21
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128 .f32 := Host.absf main_arg22
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128 .f32 := Host.absf main_arg23
  let main_cst_32 : FVec F S_ .f32 := constant S_ .f32 0x7F800000#32
  fn_part5 (F := F) main_arg0 main_arg1 main_arg24 main_arg25 main_v83 main_v84 main_cst_32

def fn_part3 {F : FTy → Type} [FloatOps F] (main_arg0 : IVec S16384 32) (main_arg1 : IVec S16384 32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v48 : IVec S_ 1) (main_v49 : FVec F S256x128 .f32) (main_v50 : FVec F S256x128 .f32) : IVec S_ 1 :=
  let main_v51 : IVec S256x128 1 := cmpf .olt main_v49 main_v50
  let main_c_19 : IVec S_ 1 := constantI S_ 1 1#1
  let main_v52 : IVec S_ 1 := (fun x v => Host.reduce IntOp.andi x v reducesTo_S256x128_S_d0_1 h_S_) main_v51 main_c_19
  let main_v53 : IVec S_ 1 := andi main_v48 main_v52
  let main_v54 : FVec F S128 .f32 := Host.absf main_arg17
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg18
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg19
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg0 main_arg1 main_arg20 main_arg21 main_arg22 main_arg23 main_arg24 main_arg25 main_v63 main_v67

def fn_part2 {F : FTy → Type} [FloatOps F] (main_arg0 : IVec S16384 32) (main_arg1 : IVec S16384 32) (main_arg13 : FVec F S3x128 .f32) (main_arg14 : FVec F S3x128 .f32) (main_arg15 : FVec F S3x128 .f32) (main_arg16 : FVec F S256x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v33 : IVec S_ 1) : IVec S_ 1 :=
  let main_v34 : FVec F S3x128 .f32 := Host.absf main_arg13
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg14
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S3x128 .f32 := Host.absf main_arg15
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S256x128 .f32 := Host.absf main_arg16
  let main_cst_18 : FVec F S_ .f32 := constant S_ .f32 0x7F800000#32
  let main_v50 : FVec F S256x128 .f32 := broadcastInDim S256x128 ![] bcast_S_S256x128 main_cst_18
  fn_part3 (F := F) main_arg0 main_arg1 main_arg17 main_arg18 main_arg19 main_arg20 main_arg21 main_arg22 main_arg23 main_arg24 main_arg25 main_v48 main_v49 main_v50

def fn_part1 {F : FTy → Type} [FloatOps F] (main_arg0 : IVec S16384 32) (main_arg1 : IVec S16384 32) (main_arg10 : FVec F S3x128 .f32) (main_arg11 : FVec F S3x128 .f32) (main_arg12 : FVec F S3x128x128 .f32) (main_arg13 : FVec F S3x128 .f32) (main_arg14 : FVec F S3x128 .f32) (main_arg15 : FVec F S3x128 .f32) (main_arg16 : FVec F S256x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128 .f32 := Host.absf main_arg10
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg11
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg12
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg0 main_arg1 main_arg13 main_arg14 main_arg15 main_arg16 main_arg17 main_arg18 main_arg19 main_arg20 main_arg21 main_arg22 main_arg23 main_arg24 main_arg25 main_v33

def fn {F : FTy → Type} [FloatOps F] (main_arg0 : IVec S16384 32) (main_arg1 : IVec S16384 32) (main_arg2 : IVec S800000 32) (main_arg3 : IVec S800000 32) (main_arg4 : IVec S800000 32) (main_arg5 : IVec S800000 32) (main_arg6 : FVec F S50000x128 .f32) (main_arg7 : FVec F S50000x128 .f32) (main_arg8 : FVec F S3x128x128 .f32) (main_arg9 : FVec F S3x128 .f32) (main_arg10 : FVec F S3x128 .f32) (main_arg11 : FVec F S3x128 .f32) (main_arg12 : FVec F S3x128x128 .f32) (main_arg13 : FVec F S3x128 .f32) (main_arg14 : FVec F S3x128 .f32) (main_arg15 : FVec F S3x128 .f32) (main_arg16 : FVec F S256x128 .f32) (main_arg17 : FVec F S128 .f32) (main_arg18 : FVec F S128 .f32) (main_arg19 : FVec F S128 .f32) (main_arg20 : FVec F S128x128 .f32) (main_arg21 : FVec F S128 .f32) (main_arg22 : FVec F S128 .f32) (main_arg23 : FVec F S128 .f32) (main_arg24 : FVec F S128x1 .f32) (main_arg25 : FVec F S1 .f32) : IVec S_ 1 :=
  let main_v0 : FVec F S50000x128 .f32 := Host.absf main_arg6
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg7
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S3x128x128 .f32 := Host.absf main_arg8
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg9
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg1 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S16384 : Shape := ⟨1, ![16384]⟩
abbrev S800000 : Shape := ⟨1, ![800000]⟩
abbrev S50000x128 : Shape := ⟨2, ![50000, 128]⟩
abbrev S3x128x128 : Shape := ⟨3, ![3, 128, 128]⟩
abbrev S3x128 : Shape := ⟨2, ![3, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S1x128 : Shape := ⟨2, ![1, 128]⟩
abbrev S5000x128 : Shape := ⟨2, ![5000, 128]⟩
abbrev S5000x1 : Shape := ⟨2, ![5000, 1]⟩
abbrev S5000 : Shape := ⟨1, ![5000]⟩
abbrev S16384x1 : Shape := ⟨2, ![16384, 1]⟩
abbrev S1x1 : Shape := ⟨2, ![1, 1]⟩
abbrev S16384x128 : Shape := ⟨2, ![16384, 128]⟩
abbrev S16384x256 : Shape := ⟨2, ![16384, 256]⟩
abbrev S2048x256 : Shape := ⟨2, ![2048, 256]⟩
abbrev S2048x1 : Shape := ⟨2, ![2048, 1]⟩
abbrev S2048x128 : Shape := ⟨2, ![2048, 128]⟩
abbrev S2048 : Shape := ⟨1, ![2048]⟩

abbrev nBuf : Space → Nat
  | .hbm => 258
  | .vmem => 86
  | .smem => 0
  | _ => 0

abbrev hbmTy0_0 (i : Nat) : BufTy := match i % 128 with
  | 0 => ⟨S16384, .i32⟩
  | 1 => ⟨S16384, .i32⟩
  | 2 => ⟨S800000, .i32⟩
  | 3 => ⟨S800000, .i32⟩
  | 4 => ⟨S800000, .i32⟩
  | 5 => ⟨S800000, .i32⟩
  | 6 => ⟨S50000x128, .f32⟩
  | 7 => ⟨S50000x128, .f32⟩
  | 8 => ⟨S3x128x128, .f32⟩
  | 9 => ⟨S3x128, .f32⟩
  | 10 => ⟨S3x128, .f32⟩
  | 11 => ⟨S3x128, .f32⟩
  | 12 => ⟨S3x128x128, .f32⟩
  | 13 => ⟨S3x128, .f32⟩
  | 14 => ⟨S3x128, .f32⟩
  | 15 => ⟨S3x128, .f32⟩
  | 16 => ⟨S256x128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128x1, .f32⟩
  | 25 => ⟨S1, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S_, .i32⟩
  | 40 => ⟨S800000, .i32⟩
  | 41 => ⟨S800000, .i1⟩
  | 42 => ⟨S_, .i32⟩
  | 43 => ⟨S800000, .i32⟩
  | 44 => ⟨S800000, .i32⟩
  | 45 => ⟨S800000, .i32⟩
  | 46 => ⟨S800000x1, .i32⟩
  | 47 => ⟨S800000x128, .f32⟩
  | 48 => ⟨S_, .f32⟩
  | 49 => ⟨S50000x128, .f32⟩
  | 50 => ⟨S800000x1, .i32⟩
  | 51 => ⟨S50000x128, .f32⟩
  | 52 => ⟨S1x128x128, .f32⟩
  | 53 => ⟨S128x128, .f32⟩
  | 54 => ⟨S1x128, .f32⟩
  | 55 => ⟨S128, .f32⟩
  | 56 => ⟨S1x128, .f32⟩
  | 57 => ⟨S128, .f32⟩
  | 58 => ⟨S1x128, .f32⟩
  | 59 => ⟨S128, .f32⟩
  | 60 => ⟨S1x128, .f32⟩
  | 61 => ⟨S1x128, .f32⟩
  | 62 => ⟨S1x128, .f32⟩
  | 63 => ⟨S50000x128, .f32⟩
  | 64 => ⟨S_, .i32⟩
  | 65 => ⟨S800000, .i32⟩
  | 66 => ⟨S800000, .i1⟩
  | 67 => ⟨S_, .i32⟩
  | 68 => ⟨S800000, .i32⟩
  | 69 => ⟨S800000, .i32⟩
  | 70 => ⟨S800000, .i32⟩
  | 71 => ⟨S800000x1, .i32⟩
  | 72 => ⟨S800000x128, .f32⟩
  | 73 => ⟨S_, .f32⟩
  | 74 => ⟨S50000x128, .f32⟩
  | 75 => ⟨S800000x1, .i32⟩
  | 76 => ⟨S50000x128, .f32⟩
  | 77 => ⟨S1x128x128, .f32⟩
  | 78 => ⟨S128x128, .f32⟩
  | 79 => ⟨S1x128, .f32⟩
  | 80 => ⟨S128, .f32⟩
  | 81 => ⟨S1x128, .f32⟩
  | 82 => ⟨S128, .f32⟩
  | 83 => ⟨S1x128, .f32⟩
  | 84 => ⟨S128, .f32⟩
  | 85 => ⟨S1x128, .f32⟩
  | 86 => ⟨S1x128, .f32⟩
  | 87 => ⟨S1x128, .f32⟩
  | 88 => ⟨S50000x128, .f32⟩
  | 89 => ⟨S_, .i32⟩
  | 90 => ⟨S800000, .i32⟩
  | 91 => ⟨S800000, .i1⟩
  | 92 => ⟨S_, .i32⟩
  | 93 => ⟨S800000, .i32⟩
  | 94 => ⟨S800000, .i32⟩
  | 95 => ⟨S800000, .i32⟩
  | 96 => ⟨S800000x1, .i32⟩
  | 97 => ⟨S800000x128, .f32⟩
  | 98 => ⟨S_, .f32⟩
  | 99 => ⟨S50000x128, .f32⟩
  | 100 => ⟨S800000x1, .i32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S128, .f32⟩
  | 108 => ⟨S1x128, .f32⟩
  | 109 => ⟨S128, .f32⟩
  | 110 => ⟨S1x128, .f32⟩
  | 111 => ⟨S1x128, .f32⟩
  | 112 => ⟨S1x128, .f32⟩
  | 113 => ⟨S50000x128, .f32⟩
  | 114 => ⟨S_, .f32⟩
  | 115 => ⟨S800000, .f32⟩
  | 116 => ⟨S_, .f32⟩
  | 117 => ⟨S50000, .f32⟩
  | 118 => ⟨S800000x1, .i32⟩
  | 119 => ⟨S50000, .f32⟩
  | 120 => ⟨S_, .f32⟩
  | 121 => ⟨S50000, .f32⟩
  | 122 => ⟨S50000, .f32⟩
  | 123 => ⟨S_, .f32⟩
  | 124 => ⟨S50000, .f32⟩
  | 125 => ⟨S50000, .f32⟩
  | 126 => ⟨S50000x1, .f32⟩
  | 127 => ⟨S_, .i32⟩
  | _ => ⟨S16384, .i32⟩

abbrev hbmTy0_1 (i : Nat) : BufTy := match i % 128 with
  | 0 => ⟨S800000, .i32⟩
  | 1 => ⟨S800000, .i1⟩
  | 2 => ⟨S_, .i32⟩
  | 3 => ⟨S800000, .i32⟩
  | 4 => ⟨S800000, .i32⟩
  | 5 => ⟨S800000, .i32⟩
  | 6 => ⟨S800000x1, .i32⟩
  | 7 => ⟨S800000x128, .f32⟩
  | 8 => ⟨S_, .f32⟩
  | 9 => ⟨S50000x128, .f32⟩
  | 10 => ⟨S800000x1, .i32⟩
  | 11 => ⟨S50000x128, .f32⟩
  | 12 => ⟨S1x128x128, .f32⟩
  | 13 => ⟨S128x128, .f32⟩
  | 14 => ⟨S1x128, .f32⟩
  | 15 => ⟨S128, .f32⟩
  | 16 => ⟨S1x128, .f32⟩
  | 17 => ⟨S128, .f32⟩
  | 18 => ⟨S1x128, .f32⟩
  | 19 => ⟨S128, .f32⟩
  | 20 => ⟨S1x128, .f32⟩
  | 21 => ⟨S1x128, .f32⟩
  | 22 => ⟨S1x128, .f32⟩
  | 23 => ⟨S50000x128, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S_, .f32⟩
  | 34 => ⟨S50000x128, .f32⟩
  | 35 => ⟨S800000x1, .i32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S128, .f32⟩
  | 43 => ⟨S1x128, .f32⟩
  | 44 => ⟨S128, .f32⟩
  | 45 => ⟨S1x128, .f32⟩
  | 46 => ⟨S1x128, .f32⟩
  | 47 => ⟨S1x128, .f32⟩
  | 48 => ⟨S50000x128, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x128, .f32⟩
  | 58 => ⟨S_, .f32⟩
  | 59 => ⟨S50000x128, .f32⟩
  | 60 => ⟨S800000x1, .i32⟩
  | 61 => ⟨S50000x128, .f32⟩
  | 62 => ⟨S1x128x128, .f32⟩
  | 63 => ⟨S128x128, .f32⟩
  | 64 => ⟨S1x128, .f32⟩
  | 65 => ⟨S128, .f32⟩
  | 66 => ⟨S1x128, .f32⟩
  | 67 => ⟨S128, .f32⟩
  | 68 => ⟨S1x128, .f32⟩
  | 69 => ⟨S128, .f32⟩
  | 70 => ⟨S1x128, .f32⟩
  | 71 => ⟨S1x128, .f32⟩
  | 72 => ⟨S1x128, .f32⟩
  | 73 => ⟨S50000x128, .f32⟩
  | 74 => ⟨S_, .i32⟩
  | 75 => ⟨S16384, .i32⟩
  | 76 => ⟨S16384, .i1⟩
  | 77 => ⟨S_, .i32⟩
  | 78 => ⟨S16384, .i32⟩
  | 79 => ⟨S16384, .i32⟩
  | 80 => ⟨S16384, .i32⟩
  | 81 => ⟨S16384x1, .i32⟩
  | 82 => ⟨S1, .i32⟩
  | 83 => ⟨S_, .i32⟩
  | 84 => ⟨S16384x1, .i32⟩
  | 85 => ⟨S16384x1, .i1⟩
  | 86 => ⟨S1x1, .i32⟩
  | 87 => ⟨S16384x1, .i32⟩
  | 88 => ⟨S16384x1, .i1⟩
  | 89 => ⟨S16384x1, .i1⟩
  | 90 => ⟨S_, .i1⟩
  | 91 => ⟨S16384, .i1⟩
  | 92 => ⟨S16384x128, .f32⟩
  | 93 => ⟨S16384x128, .i1⟩
  | 94 => ⟨S_, .f32⟩
  | 95 => ⟨S16384x128, .f32⟩
  | 96 => ⟨S16384x128, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S1, .i32⟩
  | 106 => ⟨S_, .i32⟩
  | 107 => ⟨S16384x1, .i32⟩
  | 108 => ⟨S16384x1, .i1⟩
  | 109 => ⟨S1x1, .i32⟩
  | 110 => ⟨S16384x1, .i32⟩
  | 111 => ⟨S16384x1, .i1⟩
  | 112 => ⟨S16384x1, .i1⟩
  | 113 => ⟨S_, .i1⟩
  | 114 => ⟨S16384, .i1⟩
  | 115 => ⟨S16384x128, .f32⟩
  | 116 => ⟨S16384x128, .i1⟩
  | 117 => ⟨S_, .f32⟩
  | 118 => ⟨S16384x128, .f32⟩
  | 119 => ⟨S16384x128, .f32⟩
  | 120 => ⟨S16384x256, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S1x128, .f32⟩
  | 127 => ⟨S1x1, .f32⟩
  | _ => ⟨S16384, .i32⟩

abbrev hbmTy0_2 (i : Nat) : BufTy := match i % 128 with
  | 0 => ⟨S16384x1, .f32⟩
  | 1 => ⟨S16384, .f32⟩
  | _ => ⟨S16384, .i32⟩

abbrev hbmTy (i : Nat) : BufTy := match i / 128 with
  | 0 => hbmTy0_0 i
  | 1 => hbmTy0_1 i
  | 2 => hbmTy0_2 i
  | _ => ⟨S16384, .i32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x1, .f32⟩
  | .local _ .vmem, ⟨5, _⟩ => ⟨S5000x1, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x1, .f32⟩
  | .local _ .vmem, ⟨17, _⟩ => ⟨S5000x1, .f32⟩
  | .local _ .vmem, ⟨18, _⟩ => ⟨S128x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x1, .f32⟩
  | .local _ .vmem, ⟨29, _⟩ => ⟨S5000x1, .f32⟩
  | .local _ .vmem, ⟨30, _⟩ => ⟨S128x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S5000x1, .f32⟩
  | .local _ .vmem, ⟨41, _⟩ => ⟨S5000x1, .f32⟩
  | .local _ .vmem, ⟨42, _⟩ => ⟨S128x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x1, .f32⟩
  | .local _ .vmem, ⟨53, _⟩ => ⟨S5000x1, .f32⟩
  | .local _ .vmem, ⟨54, _⟩ => ⟨S128x128, .f32⟩
  | .local _ .vmem, ⟨55, _⟩ => ⟨S1x128, .f32⟩
  | .local _ .vmem, ⟨56, _⟩ => ⟨S1x128, .f32⟩
  | .local _ .vmem, ⟨57, _⟩ => ⟨S1x128, .f32⟩
  | .local _ .vmem, ⟨58, _⟩ => ⟨S5000x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S5000x128, .f32⟩
  | .local _ .vmem, ⟨64, _⟩ => ⟨S5000x1, .f32⟩
  | .local _ .vmem, ⟨65, _⟩ => ⟨S5000x1, .f32⟩
  | .local _ .vmem, ⟨66, _⟩ => ⟨S128x128, .f32⟩
  | .local _ .vmem, ⟨67, _⟩ => ⟨S1x128, .f32⟩
  | .local _ .vmem, ⟨68, _⟩ => ⟨S1x128, .f32⟩
  | .local _ .vmem, ⟨69, _⟩ => ⟨S1x128, .f32⟩
  | .local _ .vmem, ⟨70, _⟩ => ⟨S5000x128, .f32⟩
  | .local _ .vmem, ⟨71, _⟩ => ⟨S5000x128, .f32⟩
  | .local _ .vmem, ⟨72, _⟩ => ⟨S2048x256, .f32⟩
  | .local _ .vmem, ⟨73, _⟩ => ⟨S2048x256, .f32⟩
  | .local _ .vmem, ⟨74, _⟩ => ⟨S256x128, .f32⟩
  | .local _ .vmem, ⟨75, _⟩ => ⟨S1x128, .f32⟩
  | .local _ .vmem, ⟨76, _⟩ => ⟨S1x128, .f32⟩
  | .local _ .vmem, ⟨77, _⟩ => ⟨S1x128, .f32⟩
  | .local _ .vmem, ⟨78, _⟩ => ⟨S128x128, .f32⟩
  | .local _ .vmem, ⟨79, _⟩ => ⟨S1x128, .f32⟩
  | .local _ .vmem, ⟨80, _⟩ => ⟨S1x128, .f32⟩
  | .local _ .vmem, ⟨81, _⟩ => ⟨S1x128, .f32⟩
  | .local _ .vmem, ⟨82, _⟩ => ⟨S128x1, .f32⟩
  | .local _ .vmem, ⟨83, _⟩ => ⟨S1x1, .f32⟩
  | .local _ .vmem, ⟨84, _⟩ => ⟨S2048x1, .f32⟩
  | .local _ .vmem, ⟨85, _⟩ => ⟨S2048x1, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | _, _ => false

abbrev semScoped : Fin 0 → Bool
  | ⟨_, h⟩ => absurd h (Nat.not_lt_zero _)

abbrev dmaSemScoped : Fin 86 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | _ => false

abbrev sig : RefSig :=
  ofTc nBuf bufTy 0 86 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_c : Ref sig .tc := ⟨.hbm, 39, rfl⟩
abbrev main_v9 : Ref sig .tc := ⟨.hbm, 40, rfl⟩
abbrev main_v10 : Ref sig .tc := ⟨.hbm, 41, rfl⟩
abbrev main_c_3 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_v15 : Ref sig .tc := ⟨.hbm, 47, rfl⟩
abbrev main_cst_4 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_5 : Ref sig .tc := ⟨.hbm, 64, rfl⟩
abbrev main_v31 : Ref sig .tc := ⟨.hbm, 65, rfl⟩
abbrev main_v32 : Ref sig .tc := ⟨.hbm, 66, rfl⟩
abbrev main_c_6 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_cst_7 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_c_8 : Ref sig .tc := ⟨.hbm, 89, rfl⟩
abbrev main_v53 : Ref sig .tc := ⟨.hbm, 90, rfl⟩
abbrev main_v54 : Ref sig .tc := ⟨.hbm, 91, rfl⟩
abbrev main_c_9 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_cst_10 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_cst_11 : Ref sig .tc := ⟨.hbm, 114, rfl⟩
abbrev main_v75 : Ref sig .tc := ⟨.hbm, 115, rfl⟩
abbrev main_cst_12 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_13 : Ref sig .tc := ⟨.hbm, 120, rfl⟩
abbrev main_v79 : Ref sig .tc := ⟨.hbm, 121, rfl⟩
abbrev main_v80 : Ref sig .tc := ⟨.hbm, 122, rfl⟩
abbrev main_cst_14 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_c_15 : Ref sig .tc := ⟨.hbm, 127, rfl⟩
abbrev main_v84 : Ref sig .tc := ⟨.hbm, 128, rfl⟩
abbrev main_v85 : Ref sig .tc := ⟨.hbm, 129, rfl⟩
abbrev main_c_16 : Ref sig .tc := ⟨.hbm, 130, rfl⟩
abbrev main_v86 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_cst_17 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_c_18 : Ref sig .tc := ⟨.hbm, 152, rfl⟩
abbrev main_v106 : Ref sig .tc := ⟨.hbm, 153, rfl⟩
abbrev main_v107 : Ref sig .tc := ⟨.hbm, 154, rfl⟩
abbrev main_c_19 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_20 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_c_21 : Ref sig .tc := ⟨.hbm, 177, rfl⟩
abbrev main_v128 : Ref sig .tc := ⟨.hbm, 178, rfl⟩
abbrev main_v129 : Ref sig .tc := ⟨.hbm, 179, rfl⟩
abbrev main_c_22 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_cst_23 : Ref sig .tc := ⟨.hbm, 186, rfl⟩
abbrev main_v135 : Ref sig .tc := ⟨.hbm, 187, rfl⟩
abbrev main_v136 : Ref sig .tc := ⟨.hbm, 188, rfl⟩
abbrev main_v137 : Ref sig .tc := ⟨.hbm, 189, rfl⟩
abbrev main_v138 : Ref sig .tc := ⟨.hbm, 190, rfl⟩
abbrev main_v139 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_call0_c : Ref sig .tc := ⟨.hbm, 202, rfl⟩
abbrev main_call0_v0 : Ref sig .tc := ⟨.hbm, 203, rfl⟩
abbrev main_call0_v1 : Ref sig .tc := ⟨.hbm, 204, rfl⟩
abbrev main_call0_c_0 : Ref sig .tc := ⟨.hbm, 205, rfl⟩
abbrev main_call0_v2 : Ref sig .tc := ⟨.hbm, 206, rfl⟩
abbrev main_call0_v3 : Ref sig .tc := ⟨.hbm, 207, rfl⟩
abbrev main_call0_v4 : Ref sig .tc := ⟨.hbm, 208, rfl⟩
abbrev main_call0_v5 : Ref sig .tc := ⟨.hbm, 209, rfl⟩
abbrev main_call0_c_1 : Ref sig .tc := ⟨.hbm, 210, rfl⟩
abbrev main_call0_c_2 : Ref sig .tc := ⟨.hbm, 211, rfl⟩
abbrev main_call0_v6 : Ref sig .tc := ⟨.hbm, 212, rfl⟩
abbrev main_call0_v7 : Ref sig .tc := ⟨.hbm, 213, rfl⟩
abbrev main_call0_v8 : Ref sig .tc := ⟨.hbm, 214, rfl⟩
abbrev main_call0_v9 : Ref sig .tc := ⟨.hbm, 215, rfl⟩
abbrev main_call0_v10 : Ref sig .tc := ⟨.hbm, 216, rfl⟩
abbrev main_call0_v11 : Ref sig .tc := ⟨.hbm, 217, rfl⟩
abbrev main_call0_c_3 : Ref sig .tc := ⟨.hbm, 218, rfl⟩
abbrev main_call0_v12 : Ref sig .tc := ⟨.hbm, 219, rfl⟩
abbrev main_call0_v13 : Ref sig .tc := ⟨.hbm, 220, rfl⟩
abbrev main_call0_v14 : Ref sig .tc := ⟨.hbm, 221, rfl⟩
abbrev main_call0_cst : Ref sig .tc := ⟨.hbm, 222, rfl⟩
abbrev main_call0_v15 : Ref sig .tc := ⟨.hbm, 223, rfl⟩
abbrev main_v150 : Ref sig .tc := ⟨.hbm, 224, rfl⟩
abbrev main_call1_c : Ref sig .tc := ⟨.hbm, 225, rfl⟩
abbrev main_call1_v0 : Ref sig .tc := ⟨.hbm, 226, rfl⟩
abbrev main_call1_v1 : Ref sig .tc := ⟨.hbm, 227, rfl⟩
abbrev main_call1_c_0 : Ref sig .tc := ⟨.hbm, 228, rfl⟩
abbrev main_call1_v2 : Ref sig .tc := ⟨.hbm, 229, rfl⟩
abbrev main_call1_v3 : Ref sig .tc := ⟨.hbm, 230, rfl⟩
abbrev main_call1_v4 : Ref sig .tc := ⟨.hbm, 231, rfl⟩
abbrev main_call1_v5 : Ref sig .tc := ⟨.hbm, 232, rfl⟩
abbrev main_call1_c_1 : Ref sig .tc := ⟨.hbm, 233, rfl⟩
abbrev main_call1_c_2 : Ref sig .tc := ⟨.hbm, 234, rfl⟩
abbrev main_call1_v6 : Ref sig .tc := ⟨.hbm, 235, rfl⟩
abbrev main_call1_v7 : Ref sig .tc := ⟨.hbm, 236, rfl⟩
abbrev main_call1_v8 : Ref sig .tc := ⟨.hbm, 237, rfl⟩
abbrev main_call1_v9 : Ref sig .tc := ⟨.hbm, 238, rfl⟩
abbrev main_call1_v10 : Ref sig .tc := ⟨.hbm, 239, rfl⟩
abbrev main_call1_v11 : Ref sig .tc := ⟨.hbm, 240, rfl⟩
abbrev main_call1_c_3 : Ref sig .tc := ⟨.hbm, 241, rfl⟩
abbrev main_call1_v12 : Ref sig .tc := ⟨.hbm, 242, rfl⟩
abbrev main_call1_v13 : Ref sig .tc := ⟨.hbm, 243, rfl⟩
abbrev main_call1_v14 : Ref sig .tc := ⟨.hbm, 244, rfl⟩
abbrev main_call1_cst : Ref sig .tc := ⟨.hbm, 245, rfl⟩
abbrev main_call1_v15 : Ref sig .tc := ⟨.hbm, 246, rfl⟩
abbrev main_v151 : Ref sig .tc := ⟨.hbm, 247, rfl⟩
abbrev main_v152 : Ref sig .tc := ⟨.hbm, 248, rfl⟩
abbrev main_v153 : Ref sig .tc := ⟨.hbm, 249, rfl⟩
abbrev main_v154 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg2_1 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc3_stg0_0 : Ref sig .tc := ⟨.vmem, 36, rfl⟩
abbrev cc3_stg0_1 : Ref sig .tc := ⟨.vmem, 37, rfl⟩
abbrev cc3_stg1_0 : Ref sig .tc := ⟨.vmem, 38, rfl⟩
abbrev cc3_stg1_1 : Ref sig .tc := ⟨.vmem, 39, rfl⟩
abbrev cc3_stg2_0 : Ref sig .tc := ⟨.vmem, 40, rfl⟩
abbrev cc3_stg2_1 : Ref sig .tc := ⟨.vmem, 41, rfl⟩
abbrev cc3_stg3_0 : Ref sig .tc := ⟨.vmem, 42, rfl⟩
abbrev cc3_stg4_0 : Ref sig .tc := ⟨.vmem, 43, rfl⟩
abbrev cc3_stg5_0 : Ref sig .tc := ⟨.vmem, 44, rfl⟩
abbrev cc3_stg6_0 : Ref sig .tc := ⟨.vmem, 45, rfl⟩
abbrev cc3_stg7_0 : Ref sig .tc := ⟨.vmem, 46, rfl⟩
abbrev cc3_stg7_1 : Ref sig .tc := ⟨.vmem, 47, rfl⟩
abbrev cc4_stg0_0 : Ref sig .tc := ⟨.vmem, 48, rfl⟩
abbrev cc4_stg0_1 : Ref sig .tc := ⟨.vmem, 49, rfl⟩
abbrev cc4_stg1_0 : Ref sig .tc := ⟨.vmem, 50, rfl⟩
abbrev cc4_stg1_1 : Ref sig .tc := ⟨.vmem, 51, rfl⟩
abbrev cc4_stg2_0 : Ref sig .tc := ⟨.vmem, 52, rfl⟩
abbrev cc4_stg2_1 : Ref sig .tc := ⟨.vmem, 53, rfl⟩
abbrev cc4_stg3_0 : Ref sig .tc := ⟨.vmem, 54, rfl⟩
abbrev cc4_stg4_0 : Ref sig .tc := ⟨.vmem, 55, rfl⟩
abbrev cc4_stg5_0 : Ref sig .tc := ⟨.vmem, 56, rfl⟩
abbrev cc4_stg6_0 : Ref sig .tc := ⟨.vmem, 57, rfl⟩
abbrev cc4_stg7_0 : Ref sig .tc := ⟨.vmem, 58, rfl⟩
abbrev cc4_stg7_1 : Ref sig .tc := ⟨.vmem, 59, rfl⟩
abbrev cc5_stg0_0 : Ref sig .tc := ⟨.vmem, 60, rfl⟩
abbrev cc5_stg0_1 : Ref sig .tc := ⟨.vmem, 61, rfl⟩
abbrev cc5_stg1_0 : Ref sig .tc := ⟨.vmem, 62, rfl⟩
abbrev cc5_stg1_1 : Ref sig .tc := ⟨.vmem, 63, rfl⟩
abbrev cc5_stg2_0 : Ref sig .tc := ⟨.vmem, 64, rfl⟩
abbrev cc5_stg2_1 : Ref sig .tc := ⟨.vmem, 65, rfl⟩
abbrev cc5_stg3_0 : Ref sig .tc := ⟨.vmem, 66, rfl⟩
abbrev cc5_stg4_0 : Ref sig .tc := ⟨.vmem, 67, rfl⟩
abbrev cc5_stg5_0 : Ref sig .tc := ⟨.vmem, 68, rfl⟩
abbrev cc5_stg6_0 : Ref sig .tc := ⟨.vmem, 69, rfl⟩
abbrev cc5_stg7_0 : Ref sig .tc := ⟨.vmem, 70, rfl⟩
abbrev cc5_stg7_1 : Ref sig .tc := ⟨.vmem, 71, rfl⟩
abbrev cc6_stg0_0 : Ref sig .tc := ⟨.vmem, 72, rfl⟩
abbrev cc6_stg0_1 : Ref sig .tc := ⟨.vmem, 73, rfl⟩
abbrev cc6_stg1_0 : Ref sig .tc := ⟨.vmem, 74, rfl⟩
abbrev cc6_stg2_0 : Ref sig .tc := ⟨.vmem, 75, rfl⟩
abbrev cc6_stg3_0 : Ref sig .tc := ⟨.vmem, 76, rfl⟩
abbrev cc6_stg4_0 : Ref sig .tc := ⟨.vmem, 77, rfl⟩
abbrev cc6_stg5_0 : Ref sig .tc := ⟨.vmem, 78, rfl⟩
abbrev cc6_stg6_0 : Ref sig .tc := ⟨.vmem, 79, rfl⟩
abbrev cc6_stg7_0 : Ref sig .tc := ⟨.vmem, 80, rfl⟩
abbrev cc6_stg8_0 : Ref sig .tc := ⟨.vmem, 81, rfl⟩
abbrev cc6_stg9_0 : Ref sig .tc := ⟨.vmem, 82, rfl⟩
abbrev cc6_stg10_0 : Ref sig .tc := ⟨.vmem, 83, rfl⟩
abbrev cc6_stg11_0 : Ref sig .tc := ⟨.vmem, 84, rfl⟩
abbrev cc6_stg11_1 : Ref sig .tc := ⟨.vmem, 85, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc3_sem0_0 : DmaSem sig := 36
abbrev cc3_sem0_1 : DmaSem sig := 37
abbrev cc3_sem1_0 : DmaSem sig := 38
abbrev cc3_sem1_1 : DmaSem sig := 39
abbrev cc3_sem2_0 : DmaSem sig := 40
abbrev cc3_sem2_1 : DmaSem sig := 41
abbrev cc3_sem3_0 : DmaSem sig := 42
abbrev cc3_sem4_0 : DmaSem sig := 43
abbrev cc3_sem5_0 : DmaSem sig := 44
abbrev cc3_sem6_0 : DmaSem sig := 45
abbrev cc3_sem7_0 : DmaSem sig := 46
abbrev cc3_sem7_1 : DmaSem sig := 47
abbrev cc4_sem0_0 : DmaSem sig := 48
abbrev cc4_sem0_1 : DmaSem sig := 49
abbrev cc4_sem1_0 : DmaSem sig := 50
abbrev cc4_sem1_1 : DmaSem sig := 51
abbrev cc4_sem2_0 : DmaSem sig := 52
abbrev cc4_sem2_1 : DmaSem sig := 53
abbrev cc4_sem3_0 : DmaSem sig := 54
abbrev cc4_sem4_0 : DmaSem sig := 55
abbrev cc4_sem5_0 : DmaSem sig := 56
abbrev cc4_sem6_0 : DmaSem sig := 57
abbrev cc4_sem7_0 : DmaSem sig := 58
abbrev cc4_sem7_1 : DmaSem sig := 59
abbrev cc5_sem0_0 : DmaSem sig := 60
abbrev cc5_sem0_1 : DmaSem sig := 61
abbrev cc5_sem1_0 : DmaSem sig := 62
abbrev cc5_sem1_1 : DmaSem sig := 63
abbrev cc5_sem2_0 : DmaSem sig := 64
abbrev cc5_sem2_1 : DmaSem sig := 65
abbrev cc5_sem3_0 : DmaSem sig := 66
abbrev cc5_sem4_0 : DmaSem sig := 67
abbrev cc5_sem5_0 : DmaSem sig := 68
abbrev cc5_sem6_0 : DmaSem sig := 69
abbrev cc5_sem7_0 : DmaSem sig := 70
abbrev cc5_sem7_1 : DmaSem sig := 71
abbrev cc6_sem0_0 : DmaSem sig := 72
abbrev cc6_sem0_1 : DmaSem sig := 73
abbrev cc6_sem1_0 : DmaSem sig := 74
abbrev cc6_sem2_0 : DmaSem sig := 75
abbrev cc6_sem3_0 : DmaSem sig := 76
abbrev cc6_sem4_0 : DmaSem sig := 77
abbrev cc6_sem5_0 : DmaSem sig := 78
abbrev cc6_sem6_0 : DmaSem sig := 79
abbrev cc6_sem7_0 : DmaSem sig := 80
abbrev cc6_sem8_0 : DmaSem sig := 81
abbrev cc6_sem9_0 : DmaSem sig := 82
abbrev cc6_sem10_0 : DmaSem sig := 83
abbrev cc6_sem11_0 : DmaSem sig := 84
abbrev cc6_sem11_1 : DmaSem sig := 85

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x128 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![8], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_11 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2048x256 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S256x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x128 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x128 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S128x1 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

abbrev stage6_10 : Fin 1 → Memref sig .tc .vmem S1x1 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false]

abbrev stage6_11 : Fin 2 → Memref sig .tc .vmem S2048x1 .f32 := fun | 0 => Memref.whole cc6_stg11_0 | 1 => Memref.whole cc6_stg11_1 | ⟨_ + 2, h⟩ => absurd h (Nat.not_lt.2 (Nat.le_add_left _ _))
abbrev sem6_11 : Fin 2 → DmaSem sig := fun | 0 => cc6_sem11_0 | 1 => cc6_sem11_1 | ⟨_ + 2, h⟩ => absurd h (Nat.not_lt.2 (Nat.le_add_left _ _))
abbrev reads6_11 : Fin grid6.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S5000 : S5000x128.Reduces [1] S5000
  shapeCasts_S5000_S5000x1 : S5000.ShapeCasts S5000x1
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  reducesTo_S16384x1_S16384_d1 : S16384x1.ReducesTo [1] S16384
  h_S_ : 0 < S_.numel
  bcast_S16384_S16384x128_0 : S16384.BroadcastsInDim S16384x128 (![0] : Fin 1 → Fin S16384x128.rank)
  bcast_S_S16384x128 : S_.BroadcastsInDim S16384x128 (![] : Fin 0 → Fin S16384x128.rank)
  concatenates_S16384x128_S16384x128_S16384x256_d1 : Shape.Concatenates [S16384x128, S16384x128] S16384x256 1
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S256x128_S256x128_0_0 : ∀ a, (![0, 0] : Fin 2 → Nat) a + S256x128.size a ≤ S256x128.size a
  h_S256x128 : 0 < S256x128.numel
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S16384x1_S16384 : S16384x1.ShapeCasts S16384
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  gather_S50000x128_S16384x1_S16384x128_1_0_n_n_0_1_1128_wf : GatherDims.WF S50000x128 S16384x1 S16384x128 [1] [0] [] [0] [] 1 ![1, 128]
  dot_S2048x256_S256x128_S2048x128_1_0_0_1_n_n_wf : DotDims.WF S2048x256 S256x128 S2048x128 [1] [0] [0] [1] [] []
  dot_S2048x128_S128x128_S2048x128_1_0_0_1_n_n_wf : DotDims.WF S2048x128 S128x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S50000x1.size a
  hwx1_2 : ∀ i : grid1.Coords, EltTy.bits .f32 = 32 ∨ (Rect.block (s := S50000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S50000x1.size a
  hwx2_2 : ∀ i : grid2.Coords, EltTy.bits .f32 = 32 ∨ (Rect.block (s := S50000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S50000x1.size a
  hwx3_2 : ∀ i : grid3.Coords, EltTy.bits .f32 = 32 ∨ (Rect.block (s := S50000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x128.size a ≤ S1x128.size a
  hwx3_6 : ∀ i : grid3.Coords, EltTy.bits .f32 = 32 ∨ (Rect.block (s := S1x128) S1x128.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x128.size a ≤ S50000x128.size a
  hwx3_7 : ∀ i : grid3.Coords, EltTy.bits .f32 = 32 ∨ (Rect.block (s := S50000x128) S5000x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S50000x1.size a
  hwx4_2 : ∀ i : grid4.Coords, EltTy.bits .f32 = 32 ∨ (Rect.block (s := S50000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x1.size a ≤ S50000x1.size a
  hwx5_2 : ∀ i : grid5.Coords, EltTy.bits .f32 = 32 ∨ (Rect.block (s := S50000x1) S5000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2048x256.size a ≤ S16384x256.size a
  hwx6_0 : ∀ i : grid6.Coords, EltTy.bits .f32 = 32 ∨ (Rect.block (s := S16384x256) S2048x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x128.size a ≤ S256x128.size a
  hwx6_1 : ∀ i : grid6.Coords, EltTy.bits .f32 = 32 ∨ (Rect.block (s := S256x128) S256x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x128.size a ≤ S128x128.size a
  hwx6_5 : ∀ i : grid6.Coords, EltTy.bits .f32 = 32 ∨ (Rect.block (s := S128x128) S128x128.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x128.size a ≤ S1x128.size a
  hwx6_6 : ∀ i : grid6.Coords, EltTy.bits .f32 = 32 ∨ (Rect.block (s := S1x128) S1x128.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x128.size a ≤ S1x128.size a
  hwx6_7 : ∀ i : grid6.Coords, EltTy.bits .f32 = 32 ∨ (Rect.block (s := S1x128) S1x128.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x128.size a ≤ S1x128.size a
  hwx6_8 : ∀ i : grid6.Coords, EltTy.bits .f32 = 32 ∨ (Rect.block (s := S1x128) S1x128.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S128x1.size a ≤ S128x1.size a
  hwx6_9 : ∀ i : grid6.Coords, EltTy.bits .f32 = 32 ∨ (Rect.block (s := S128x1) S128x1.size (cc6_transform_9 i) (hinb6_9 i)).WholeWords (EltTy.packing .f32)
  hstage6_10 : ∀ j, (stage6_10 j).IsWhole
  nbuf6_10 : grid6.bufCount reads6_10 true = 1
  hreads6_10 : ∀ i i' : grid6.Coords, (∀ a, reads6_10 a = true → i a = i' a) → cc6_transform_10 i = cc6_transform_10 i'
  hinb6_10 : ∀ (i : grid6.Coords) a, (cc6_transform_10 i a + 1) * S1x1.size a ≤ S1x1.size a
  hwx6_10 : ∀ i : grid6.Coords, EltTy.bits .f32 = 32 ∨ (Rect.block (s := S1x1) S1x1.size (cc6_transform_10 i) (hinb6_10 i)).WholeWords (EltTy.packing .f32)
  hstage6_11 : ∀ j, (stage6_11 j).IsWhole
  nbuf6_11 : grid6.bufCount reads6_11 false = 2
  hreads6_11 : ∀ i i' : grid6.Coords, (∀ a, reads6_11 a = true → i a = i' a) → cc6_transform_11 i = cc6_transform_11 i'
  hinb6_11 : ∀ (i : grid6.Coords) a, (cc6_transform_11 i a + 1) * S2048x1.size a ≤ S16384x1.size a
  hwx6_11 : ∀ i : grid6.Coords, EltTy.bits .f32 = 32 ∨ (Rect.block (s := S16384x1) S2048x1.size (cc6_transform_11 i) (hinb6_11 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_v18) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v27) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v28) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v29) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v30) S5000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v50) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v62) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v8) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v71) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v72) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v93) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v83) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v95) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v102) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v103) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v104) S1x128.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v105) S5000x128.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v115) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v105) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v83) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v117) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v124) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v125) S1x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v126) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v127) S5000x128.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v137) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v127) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v83) S5000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v139) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v146) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v147) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v148) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v149) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v152) S2048x256.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg16) S256x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v153) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v154) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v155) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg20) S128x128.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v156) S1x128.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v157) S1x128.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v158) S1x128.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_arg24) S128x1.size cc6_transform_9 reads6_9 false true 1 stage6_9 sem6_9
    hrank6 hreads6_9 hinb6_9 nbuf6_9 (Memref.isWhole_whole _) hwx6_9 hstage6_9

abbrev win6_10 : Pipeline.Window sig grid6 :=
  Pipeline.Window.ofSpec (Memref.whole main_v159) S1x1.size cc6_transform_10 reads6_10 false true 1 stage6_10 sem6_10
    hrank6 hreads6_10 hinb6_10 nbuf6_10 (Memref.isWhole_whole _) hwx6_10 hstage6_10

abbrev win6_11 : Pipeline.Window sig grid6 :=
  Pipeline.Window.ofSpec (Memref.whole main_v160) S2048x1.size cc6_transform_11 reads6_11 true false 2 stage6_11 sem6_11
    hrank6 hreads6_11 hinb6_11 nbuf6_11 (Memref.isWhole_whole _) hwx6_11 hstage6_11

abbrev win6 : Fin 12 → Pipeline.Window sig grid6 := fun | 0 => win6_0 | 1 => win6_1 | 2 => win6_2 | 3 => win6_3 | 4 => win6_4 | 5 => win6_5 | 6 => win6_6 | 7 => win6_7 | 8 => win6_8 | 9 => win6_9 | 10 => win6_10 | 11 => win6_11 | ⟨_ + 12, h⟩ => absurd h (Nat.not_lt.2 (Nat.le_add_left _ _))
abbrev spec6 : Fin 12 → Pipeline.WinSpec sig grid6.rank := fun w => (win6 w).toWinSpec

class Facts : Prop extends Facts₀ where

variable [Facts]
-- ==== ReferenceIdeal.lean ====
abbrev S16384 : Shape := ⟨1, ![16384]⟩
abbrev S800000 : Shape := ⟨1, ![800000]⟩
abbrev S50000x128 : Shape := ⟨2, ![50000, 128]⟩
abbrev S3x128x128 : Shape := ⟨3, ![3, 128, 128]⟩
abbrev S3x128 : Shape := ⟨2, ![3, 128]⟩
abbrev S256x128 : Shape := ⟨2, ![256, 128]⟩
abbrev S128 : Shape := ⟨1, ![128]⟩
abbrev S128x128 : Shape := ⟨2, ![128, 128]⟩
abbrev S128x1 : Shape := ⟨2, ![128, 1]⟩
abbrev S1 : Shape := ⟨1, ![1]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S1x128 : Shape := ⟨2, ![1, 128]⟩
abbrev S16384x1 : Shape := ⟨2, ![16384, 1]⟩
abbrev S16384x128 : Shape := ⟨2, ![16384, 128]⟩
abbrev S16384x256 : Shape := ⟨2, ![16384, 256]⟩
abbrev S1x1 : Shape := ⟨2, ![1, 1]⟩

abbrev nBuf : Space → Nat
  | .hbm => 592
  | .vmem => 0
  | .smem => 0
  | _ => 0

abbrev hbmTy0_0 (i : Nat) : BufTy := match i % 128 with
  | 0 => ⟨S16384, .i32⟩
  | 1 => ⟨S16384, .i32⟩
  | 2 => ⟨S800000, .i32⟩
  | 3 => ⟨S800000, .i32⟩
  | 4 => ⟨S800000, .i32⟩
  | 5 => ⟨S800000, .i32⟩
  | 6 => ⟨S50000x128, .f32⟩
  | 7 => ⟨S50000x128, .f32⟩
  | 8 => ⟨S3x128x128, .f32⟩
  | 9 => ⟨S3x128, .f32⟩
  | 10 => ⟨S3x128, .f32⟩
  | 11 => ⟨S3x128, .f32⟩
  | 12 => ⟨S3x128x128, .f32⟩
  | 13 => ⟨S3x128, .f32⟩
  | 14 => ⟨S3x128, .f32⟩
  | 15 => ⟨S3x128, .f32⟩
  | 16 => ⟨S256x128, .f32⟩
  | 17 => ⟨S128, .f32⟩
  | 18 => ⟨S128, .f32⟩
  | 19 => ⟨S128, .f32⟩
  | 20 => ⟨S128x128, .f32⟩
  | 21 => ⟨S128, .f32⟩
  | 22 => ⟨S128, .f32⟩
  | 23 => ⟨S128, .f32⟩
  | 24 => ⟨S128x1, .f32⟩
  | 25 => ⟨S1, .f32⟩
  | 26 => ⟨S_, .f32⟩
  | 27 => ⟨S800000, .f32⟩
  | 28 => ⟨S_, .f32⟩
  | 29 => ⟨S50000, .f32⟩
  | 30 => ⟨S800000x1, .i32⟩
  | 31 => ⟨S50000, .f32⟩
  | 32 => ⟨S_, .f32⟩
  | 33 => ⟨S50000, .f32⟩
  | 34 => ⟨S50000, .f32⟩
  | 35 => ⟨S_, .f32⟩
  | 36 => ⟨S50000, .f32⟩
  | 37 => ⟨S50000, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x128, .f32⟩
  | 47 => ⟨S_, .f32⟩
  | 48 => ⟨S50000x128, .f32⟩
  | 49 => ⟨S800000x1, .i32⟩
  | 50 => ⟨S50000x128, .f32⟩
  | 51 => ⟨S50000x128, .f32⟩
  | 52 => ⟨S50000x1, .f32⟩
  | 53 => ⟨S50000x128, .f32⟩
  | 54 => ⟨S50000x128, .f32⟩
  | 55 => ⟨S1x128x128, .f32⟩
  | 56 => ⟨S128x128, .f32⟩
  | 57 => ⟨S50000x128, .f32⟩
  | 58 => ⟨S1x128, .f32⟩
  | 59 => ⟨S128, .f32⟩
  | 60 => ⟨S1x128, .f32⟩
  | 61 => ⟨S50000x128, .f32⟩
  | 62 => ⟨S50000x128, .f32⟩
  | 63 => ⟨S1x128, .f32⟩
  | 64 => ⟨S128, .f32⟩
  | 65 => ⟨S1x128, .f32⟩
  | 66 => ⟨S128, .f32⟩
  | 67 => ⟨S_, .f32⟩
  | 68 => ⟨S50000, .f32⟩
  | 69 => ⟨S50000x1, .f32⟩
  | 70 => ⟨S_, .f32⟩
  | 71 => ⟨S50000x1, .f32⟩
  | 72 => ⟨S50000x1, .f32⟩
  | 73 => ⟨S50000x128, .f32⟩
  | 74 => ⟨S50000x128, .f32⟩
  | 75 => ⟨S50000x128, .f32⟩
  | 76 => ⟨S_, .f32⟩
  | 77 => ⟨S50000, .f32⟩
  | 78 => ⟨S50000x1, .f32⟩
  | 79 => ⟨S_, .f32⟩
  | 80 => ⟨S50000x1, .f32⟩
  | 81 => ⟨S50000x1, .f32⟩
  | 82 => ⟨S50000x128, .f32⟩
  | 83 => ⟨S50000x128, .f32⟩
  | 84 => ⟨S_, .f32⟩
  | 85 => ⟨S50000x1, .f32⟩
  | 86 => ⟨S50000x1, .f32⟩
  | 87 => ⟨S50000x1, .f32⟩
  | 88 => ⟨S50000x128, .f32⟩
  | 89 => ⟨S50000x128, .f32⟩
  | 90 => ⟨S1x128, .f32⟩
  | 91 => ⟨S50000x128, .f32⟩
  | 92 => ⟨S50000x128, .f32⟩
  | 93 => ⟨S1x128, .f32⟩
  | 94 => ⟨S50000x128, .f32⟩
  | 95 => ⟨S50000x128, .f32⟩
  | 96 => ⟨S_, .f32⟩
  | 97 => ⟨S50000x128, .f32⟩
  | 98 => ⟨S50000x128, .i1⟩
  | 99 => ⟨S_, .f32⟩
  | 100 => ⟨S50000x128, .f32⟩
  | 101 => ⟨S50000x128, .i1⟩
  | 102 => ⟨S_, .f32⟩
  | 103 => ⟨S_, .f32⟩
  | 104 => ⟨S50000x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S50000x128, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S800000x128, .f32⟩
  | 120 => ⟨S_, .f32⟩
  | 121 => ⟨S50000x128, .f32⟩
  | 122 => ⟨S800000x1, .i32⟩
  | 123 => ⟨S50000x128, .f32⟩
  | 124 => ⟨S50000x128, .f32⟩
  | 125 => ⟨S50000x1, .f32⟩
  | 126 => ⟨S50000x128, .f32⟩
  | 127 => ⟨S50000x128, .f32⟩
  | _ => ⟨S16384, .i32⟩

abbrev hbmTy0_1 (i : Nat) : BufTy := match i % 128 with
  | 0 => ⟨S1x128x128, .f32⟩
  | 1 => ⟨S128x128, .f32⟩
  | 2 => ⟨S50000x128, .f32⟩
  | 3 => ⟨S1x128, .f32⟩
  | 4 => ⟨S128, .f32⟩
  | 5 => ⟨S1x128, .f32⟩
  | 6 => ⟨S50000x128, .f32⟩
  | 7 => ⟨S50000x128, .f32⟩
  | 8 => ⟨S1x128, .f32⟩
  | 9 => ⟨S128, .f32⟩
  | 10 => ⟨S1x128, .f32⟩
  | 11 => ⟨S128, .f32⟩
  | 12 => ⟨S_, .f32⟩
  | 13 => ⟨S50000, .f32⟩
  | 14 => ⟨S50000x1, .f32⟩
  | 15 => ⟨S_, .f32⟩
  | 16 => ⟨S50000x1, .f32⟩
  | 17 => ⟨S50000x1, .f32⟩
  | 18 => ⟨S50000x128, .f32⟩
  | 19 => ⟨S50000x128, .f32⟩
  | 20 => ⟨S50000x128, .f32⟩
  | 21 => ⟨S_, .f32⟩
  | 22 => ⟨S50000, .f32⟩
  | 23 => ⟨S50000x1, .f32⟩
  | 24 => ⟨S_, .f32⟩
  | 25 => ⟨S50000x1, .f32⟩
  | 26 => ⟨S50000x1, .f32⟩
  | 27 => ⟨S50000x128, .f32⟩
  | 28 => ⟨S50000x128, .f32⟩
  | 29 => ⟨S_, .f32⟩
  | 30 => ⟨S50000x1, .f32⟩
  | 31 => ⟨S50000x1, .f32⟩
  | 32 => ⟨S50000x1, .f32⟩
  | 33 => ⟨S50000x128, .f32⟩
  | 34 => ⟨S50000x128, .f32⟩
  | 35 => ⟨S1x128, .f32⟩
  | 36 => ⟨S50000x128, .f32⟩
  | 37 => ⟨S50000x128, .f32⟩
  | 38 => ⟨S1x128, .f32⟩
  | 39 => ⟨S50000x128, .f32⟩
  | 40 => ⟨S50000x128, .f32⟩
  | 41 => ⟨S_, .f32⟩
  | 42 => ⟨S50000x128, .f32⟩
  | 43 => ⟨S50000x128, .i1⟩
  | 44 => ⟨S_, .f32⟩
  | 45 => ⟨S50000x128, .f32⟩
  | 46 => ⟨S50000x128, .i1⟩
  | 47 => ⟨S_, .f32⟩
  | 48 => ⟨S_, .f32⟩
  | 49 => ⟨S50000x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S50000x128, .f32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x128, .f32⟩
  | 65 => ⟨S_, .f32⟩
  | 66 => ⟨S50000x128, .f32⟩
  | 67 => ⟨S800000x1, .i32⟩
  | 68 => ⟨S50000x128, .f32⟩
  | 69 => ⟨S50000x128, .f32⟩
  | 70 => ⟨S50000x1, .f32⟩
  | 71 => ⟨S50000x128, .f32⟩
  | 72 => ⟨S50000x128, .f32⟩
  | 73 => ⟨S1x128x128, .f32⟩
  | 74 => ⟨S128x128, .f32⟩
  | 75 => ⟨S50000x128, .f32⟩
  | 76 => ⟨S1x128, .f32⟩
  | 77 => ⟨S128, .f32⟩
  | 78 => ⟨S1x128, .f32⟩
  | 79 => ⟨S50000x128, .f32⟩
  | 80 => ⟨S50000x128, .f32⟩
  | 81 => ⟨S1x128, .f32⟩
  | 82 => ⟨S128, .f32⟩
  | 83 => ⟨S1x128, .f32⟩
  | 84 => ⟨S128, .f32⟩
  | 85 => ⟨S_, .f32⟩
  | 86 => ⟨S50000, .f32⟩
  | 87 => ⟨S50000x1, .f32⟩
  | 88 => ⟨S_, .f32⟩
  | 89 => ⟨S50000x1, .f32⟩
  | 90 => ⟨S50000x1, .f32⟩
  | 91 => ⟨S50000x128, .f32⟩
  | 92 => ⟨S50000x128, .f32⟩
  | 93 => ⟨S50000x128, .f32⟩
  | 94 => ⟨S_, .f32⟩
  | 95 => ⟨S50000, .f32⟩
  | 96 => ⟨S50000x1, .f32⟩
  | 97 => ⟨S_, .f32⟩
  | 98 => ⟨S50000x1, .f32⟩
  | 99 => ⟨S50000x1, .f32⟩
  | 100 => ⟨S50000x128, .f32⟩
  | 101 => ⟨S50000x128, .f32⟩
  | 102 => ⟨S_, .f32⟩
  | 103 => ⟨S50000x1, .f32⟩
  | 104 => ⟨S50000x1, .f32⟩
  | 105 => ⟨S50000x1, .f32⟩
  | 106 => ⟨S50000x128, .f32⟩
  | 107 => ⟨S50000x128, .f32⟩
  | 108 => ⟨S1x128, .f32⟩
  | 109 => ⟨S50000x128, .f32⟩
  | 110 => ⟨S50000x128, .f32⟩
  | 111 => ⟨S1x128, .f32⟩
  | 112 => ⟨S50000x128, .f32⟩
  | 113 => ⟨S50000x128, .f32⟩
  | 114 => ⟨S_, .f32⟩
  | 115 => ⟨S50000x128, .f32⟩
  | 116 => ⟨S50000x128, .i1⟩
  | 117 => ⟨S_, .f32⟩
  | 118 => ⟨S50000x128, .f32⟩
  | 119 => ⟨S50000x128, .i1⟩
  | 120 => ⟨S_, .f32⟩
  | 121 => ⟨S_, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S16384, .i32⟩

abbrev hbmTy0_2 (i : Nat) : BufTy := match i % 128 with
  | 0 => ⟨S50000x128, .f32⟩
  | 1 => ⟨S_, .i32⟩
  | 2 => ⟨S16384, .i32⟩
  | 3 => ⟨S16384, .i1⟩
  | 4 => ⟨S_, .i32⟩
  | 5 => ⟨S16384, .i32⟩
  | 6 => ⟨S16384, .i32⟩
  | 7 => ⟨S16384, .i32⟩
  | 8 => ⟨S16384x1, .i32⟩
  | 9 => ⟨S16384x128, .f32⟩
  | 10 => ⟨S_, .f32⟩
  | 11 => ⟨S800000, .f32⟩
  | 12 => ⟨S_, .f32⟩
  | 13 => ⟨S50000, .f32⟩
  | 14 => ⟨S800000x1, .i32⟩
  | 15 => ⟨S50000, .f32⟩
  | 16 => ⟨S_, .f32⟩
  | 17 => ⟨S50000, .f32⟩
  | 18 => ⟨S50000, .f32⟩
  | 19 => ⟨S_, .f32⟩
  | 20 => ⟨S50000, .f32⟩
  | 21 => ⟨S50000, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x128, .f32⟩
  | 31 => ⟨S_, .f32⟩
  | 32 => ⟨S50000x128, .f32⟩
  | 33 => ⟨S800000x1, .i32⟩
  | 34 => ⟨S50000x128, .f32⟩
  | 35 => ⟨S50000x128, .f32⟩
  | 36 => ⟨S50000x1, .f32⟩
  | 37 => ⟨S50000x128, .f32⟩
  | 38 => ⟨S50000x128, .f32⟩
  | 39 => ⟨S1x128x128, .f32⟩
  | 40 => ⟨S128x128, .f32⟩
  | 41 => ⟨S50000x128, .f32⟩
  | 42 => ⟨S1x128, .f32⟩
  | 43 => ⟨S128, .f32⟩
  | 44 => ⟨S1x128, .f32⟩
  | 45 => ⟨S50000x128, .f32⟩
  | 46 => ⟨S50000x128, .f32⟩
  | 47 => ⟨S1x128, .f32⟩
  | 48 => ⟨S128, .f32⟩
  | 49 => ⟨S1x128, .f32⟩
  | 50 => ⟨S128, .f32⟩
  | 51 => ⟨S_, .f32⟩
  | 52 => ⟨S50000, .f32⟩
  | 53 => ⟨S50000x1, .f32⟩
  | 54 => ⟨S_, .f32⟩
  | 55 => ⟨S50000x1, .f32⟩
  | 56 => ⟨S50000x1, .f32⟩
  | 57 => ⟨S50000x128, .f32⟩
  | 58 => ⟨S50000x128, .f32⟩
  | 59 => ⟨S50000x128, .f32⟩
  | 60 => ⟨S_, .f32⟩
  | 61 => ⟨S50000, .f32⟩
  | 62 => ⟨S50000x1, .f32⟩
  | 63 => ⟨S_, .f32⟩
  | 64 => ⟨S50000x1, .f32⟩
  | 65 => ⟨S50000x1, .f32⟩
  | 66 => ⟨S50000x128, .f32⟩
  | 67 => ⟨S50000x128, .f32⟩
  | 68 => ⟨S_, .f32⟩
  | 69 => ⟨S50000x1, .f32⟩
  | 70 => ⟨S50000x1, .f32⟩
  | 71 => ⟨S50000x1, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S1x128, .f32⟩
  | 78 => ⟨S50000x128, .f32⟩
  | 79 => ⟨S50000x128, .f32⟩
  | 80 => ⟨S_, .f32⟩
  | 81 => ⟨S50000x128, .f32⟩
  | 82 => ⟨S50000x128, .i1⟩
  | 83 => ⟨S_, .f32⟩
  | 84 => ⟨S50000x128, .f32⟩
  | 85 => ⟨S50000x128, .i1⟩
  | 86 => ⟨S_, .f32⟩
  | 87 => ⟨S_, .f32⟩
  | 88 => ⟨S50000x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x128, .f32⟩
  | 95 => ⟨S_, .i32⟩
  | 96 => ⟨S800000, .i32⟩
  | 97 => ⟨S800000, .i1⟩
  | 98 => ⟨S_, .i32⟩
  | 99 => ⟨S800000, .i32⟩
  | 100 => ⟨S800000, .i32⟩
  | 101 => ⟨S800000, .i32⟩
  | 102 => ⟨S800000x1, .i32⟩
  | 103 => ⟨S800000x128, .f32⟩
  | 104 => ⟨S_, .f32⟩
  | 105 => ⟨S50000x128, .f32⟩
  | 106 => ⟨S800000x1, .i32⟩
  | 107 => ⟨S50000x128, .f32⟩
  | 108 => ⟨S50000x128, .f32⟩
  | 109 => ⟨S50000x1, .f32⟩
  | 110 => ⟨S50000x128, .f32⟩
  | 111 => ⟨S50000x128, .f32⟩
  | 112 => ⟨S1x128x128, .f32⟩
  | 113 => ⟨S128x128, .f32⟩
  | 114 => ⟨S50000x128, .f32⟩
  | 115 => ⟨S1x128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S128, .f32⟩
  | 122 => ⟨S1x128, .f32⟩
  | 123 => ⟨S128, .f32⟩
  | 124 => ⟨S_, .f32⟩
  | 125 => ⟨S50000, .f32⟩
  | 126 => ⟨S50000x1, .f32⟩
  | 127 => ⟨S_, .f32⟩
  | _ => ⟨S16384, .i32⟩

abbrev hbmTy0_3 (i : Nat) : BufTy := match i % 128 with
  | 0 => ⟨S50000x1, .f32⟩
  | 1 => ⟨S50000x1, .f32⟩
  | 2 => ⟨S50000x128, .f32⟩
  | 3 => ⟨S50000x128, .f32⟩
  | 4 => ⟨S50000x128, .f32⟩
  | 5 => ⟨S_, .f32⟩
  | 6 => ⟨S50000, .f32⟩
  | 7 => ⟨S50000x1, .f32⟩
  | 8 => ⟨S_, .f32⟩
  | 9 => ⟨S50000x1, .f32⟩
  | 10 => ⟨S50000x1, .f32⟩
  | 11 => ⟨S50000x128, .f32⟩
  | 12 => ⟨S50000x128, .f32⟩
  | 13 => ⟨S_, .f32⟩
  | 14 => ⟨S50000x1, .f32⟩
  | 15 => ⟨S50000x1, .f32⟩
  | 16 => ⟨S50000x1, .f32⟩
  | 17 => ⟨S50000x128, .f32⟩
  | 18 => ⟨S50000x128, .f32⟩
  | 19 => ⟨S1x128, .f32⟩
  | 20 => ⟨S50000x128, .f32⟩
  | 21 => ⟨S50000x128, .f32⟩
  | 22 => ⟨S1x128, .f32⟩
  | 23 => ⟨S50000x128, .f32⟩
  | 24 => ⟨S50000x128, .f32⟩
  | 25 => ⟨S_, .f32⟩
  | 26 => ⟨S50000x128, .f32⟩
  | 27 => ⟨S50000x128, .i1⟩
  | 28 => ⟨S_, .f32⟩
  | 29 => ⟨S50000x128, .f32⟩
  | 30 => ⟨S50000x128, .i1⟩
  | 31 => ⟨S_, .f32⟩
  | 32 => ⟨S_, .f32⟩
  | 33 => ⟨S50000x128, .f32⟩
  | 34 => ⟨S50000x128, .f32⟩
  | 35 => ⟨S50000x128, .f32⟩
  | 36 => ⟨S_, .f32⟩
  | 37 => ⟨S50000x128, .f32⟩
  | 38 => ⟨S50000x128, .f32⟩
  | 39 => ⟨S50000x128, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x128, .f32⟩
  | 49 => ⟨S_, .f32⟩
  | 50 => ⟨S50000x128, .f32⟩
  | 51 => ⟨S800000x1, .i32⟩
  | 52 => ⟨S50000x128, .f32⟩
  | 53 => ⟨S50000x128, .f32⟩
  | 54 => ⟨S50000x1, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S50000, .f32⟩
  | 71 => ⟨S50000x1, .f32⟩
  | 72 => ⟨S_, .f32⟩
  | 73 => ⟨S50000x1, .f32⟩
  | 74 => ⟨S50000x1, .f32⟩
  | 75 => ⟨S50000x128, .f32⟩
  | 76 => ⟨S50000x128, .f32⟩
  | 77 => ⟨S50000x128, .f32⟩
  | 78 => ⟨S_, .f32⟩
  | 79 => ⟨S50000, .f32⟩
  | 80 => ⟨S50000x1, .f32⟩
  | 81 => ⟨S_, .f32⟩
  | 82 => ⟨S50000x1, .f32⟩
  | 83 => ⟨S50000x1, .f32⟩
  | 84 => ⟨S50000x128, .f32⟩
  | 85 => ⟨S50000x128, .f32⟩
  | 86 => ⟨S_, .f32⟩
  | 87 => ⟨S50000x1, .f32⟩
  | 88 => ⟨S50000x1, .f32⟩
  | 89 => ⟨S50000x1, .f32⟩
  | 90 => ⟨S50000x128, .f32⟩
  | 91 => ⟨S50000x128, .f32⟩
  | 92 => ⟨S1x128, .f32⟩
  | 93 => ⟨S50000x128, .f32⟩
  | 94 => ⟨S50000x128, .f32⟩
  | 95 => ⟨S1x128, .f32⟩
  | 96 => ⟨S50000x128, .f32⟩
  | 97 => ⟨S50000x128, .f32⟩
  | 98 => ⟨S_, .f32⟩
  | 99 => ⟨S50000x128, .f32⟩
  | 100 => ⟨S50000x128, .i1⟩
  | 101 => ⟨S_, .f32⟩
  | 102 => ⟨S50000x128, .f32⟩
  | 103 => ⟨S50000x128, .i1⟩
  | 104 => ⟨S_, .f32⟩
  | 105 => ⟨S_, .f32⟩
  | 106 => ⟨S50000x128, .f32⟩
  | 107 => ⟨S50000x128, .f32⟩
  | 108 => ⟨S50000x128, .f32⟩
  | 109 => ⟨S_, .f32⟩
  | 110 => ⟨S50000x128, .f32⟩
  | 111 => ⟨S50000x128, .f32⟩
  | 112 => ⟨S50000x128, .f32⟩
  | 113 => ⟨S_, .i32⟩
  | 114 => ⟨S16384, .i32⟩
  | 115 => ⟨S16384, .i1⟩
  | 116 => ⟨S_, .i32⟩
  | 117 => ⟨S16384, .i32⟩
  | 118 => ⟨S16384, .i32⟩
  | 119 => ⟨S16384, .i32⟩
  | 120 => ⟨S16384x1, .i32⟩
  | 121 => ⟨S16384x128, .f32⟩
  | 122 => ⟨S16384x256, .f32⟩
  | 123 => ⟨S16384x128, .f32⟩
  | 124 => ⟨S1x128, .f32⟩
  | 125 => ⟨S16384x128, .f32⟩
  | 126 => ⟨S16384x128, .f32⟩
  | 127 => ⟨S_, .f32⟩
  | _ => ⟨S16384, .i32⟩

abbrev hbmTy0_4 (i : Nat) : BufTy := match i % 128 with
  | 0 => ⟨S16384, .f32⟩
  | 1 => ⟨S16384x1, .f32⟩
  | 2 => ⟨S_, .f32⟩
  | 3 => ⟨S16384x1, .f32⟩
  | 4 => ⟨S16384x1, .f32⟩
  | 5 => ⟨S16384x128, .f32⟩
  | 6 => ⟨S16384x128, .f32⟩
  | 7 => ⟨S16384x128, .f32⟩
  | 8 => ⟨S_, .f32⟩
  | 9 => ⟨S16384, .f32⟩
  | 10 => ⟨S16384x1, .f32⟩
  | 11 => ⟨S_, .f32⟩
  | 12 => ⟨S16384x1, .f32⟩
  | 13 => ⟨S16384x1, .f32⟩
  | 14 => ⟨S16384x128, .f32⟩
  | 15 => ⟨S16384x128, .f32⟩
  | 16 => ⟨S_, .f32⟩
  | 17 => ⟨S16384x1, .f32⟩
  | 18 => ⟨S16384x1, .f32⟩
  | 19 => ⟨S16384x1, .f32⟩
  | 20 => ⟨S16384x128, .f32⟩
  | 21 => ⟨S16384x128, .f32⟩
  | 22 => ⟨S1x128, .f32⟩
  | 23 => ⟨S16384x128, .f32⟩
  | 24 => ⟨S16384x128, .f32⟩
  | 25 => ⟨S1x128, .f32⟩
  | 26 => ⟨S16384x128, .f32⟩
  | 27 => ⟨S16384x128, .f32⟩
  | 28 => ⟨S_, .f32⟩
  | 29 => ⟨S16384x128, .f32⟩
  | 30 => ⟨S16384x128, .f32⟩
  | 31 => ⟨S16384x128, .f32⟩
  | 32 => ⟨S1x128, .f32⟩
  | 33 => ⟨S16384x128, .f32⟩
  | 34 => ⟨S16384x128, .f32⟩
  | 35 => ⟨S_, .f32⟩
  | 36 => ⟨S16384, .f32⟩
  | 37 => ⟨S16384x1, .f32⟩
  | 38 => ⟨S_, .f32⟩
  | 39 => ⟨S16384x1, .f32⟩
  | 40 => ⟨S16384x1, .f32⟩
  | 41 => ⟨S16384x128, .f32⟩
  | 42 => ⟨S16384x128, .f32⟩
  | 43 => ⟨S16384x128, .f32⟩
  | 44 => ⟨S_, .f32⟩
  | 45 => ⟨S16384, .f32⟩
  | 46 => ⟨S16384x1, .f32⟩
  | 47 => ⟨S_, .f32⟩
  | 48 => ⟨S16384x1, .f32⟩
  | 49 => ⟨S16384x1, .f32⟩
  | 50 => ⟨S16384x128, .f32⟩
  | 51 => ⟨S16384x128, .f32⟩
  | 52 => ⟨S_, .f32⟩
  | 53 => ⟨S16384x1, .f32⟩
  | 54 => ⟨S16384x1, .f32⟩
  | 55 => ⟨S16384x1, .f32⟩
  | 56 => ⟨S16384x128, .f32⟩
  | 57 => ⟨S16384x128, .f32⟩
  | 58 => ⟨S1x128, .f32⟩
  | 59 => ⟨S16384x128, .f32⟩
  | 60 => ⟨S16384x128, .f32⟩
  | 61 => ⟨S1x128, .f32⟩
  | 62 => ⟨S16384x128, .f32⟩
  | 63 => ⟨S16384x128, .f32⟩
  | 64 => ⟨S_, .f32⟩
  | 65 => ⟨S16384x128, .f32⟩
  | 66 => ⟨S16384x128, .f32⟩
  | 67 => ⟨S16384x1, .f32⟩
  | 68 => ⟨S1x1, .f32⟩
  | 69 => ⟨S16384x1, .f32⟩
  | 70 => ⟨S16384x1, .f32⟩
  | 71 => ⟨S16384x1, .f32⟩
  | 72 => ⟨S16384x1, .f32⟩
  | 73 => ⟨S_, .f32⟩
  | 74 => ⟨S16384x1, .f32⟩
  | 75 => ⟨S16384x1, .f32⟩
  | 76 => ⟨S_, .f32⟩
  | 77 => ⟨S16384x1, .f32⟩
  | 78 => ⟨S16384x1, .f32⟩
  | 79 => ⟨S16384, .f32⟩
  | _ => ⟨S16384, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384, .i32⟩

abbrev bufTy : (tb : Table) → Fin (tcTables nBuf tb) → BufTy
  | .hbm, ⟨i, _⟩ => hbmTy i
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_cst : Ref sig .tc := ⟨.hbm, 26, rfl⟩
abbrev main_v0 : Ref sig .tc := ⟨.hbm, 27, rfl⟩
abbrev main_cst_0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_cst_1 : Ref sig .tc := ⟨.hbm, 32, rfl⟩
abbrev main_v4 : Ref sig .tc := ⟨.hbm, 33, rfl⟩
abbrev main_v5 : Ref sig .tc := ⟨.hbm, 34, rfl⟩
abbrev main_cst_2 : Ref sig .tc := ⟨.hbm, 35, rfl⟩
abbrev main_v6 : Ref sig .tc := ⟨.hbm, 36, rfl⟩
abbrev main_v7 : Ref sig .tc := ⟨.hbm, 37, rfl⟩
abbrev main_c : Ref sig .tc := ⟨.hbm, 38, rfl⟩
abbrev main_v8 : Ref sig .tc := ⟨.hbm, 39, rfl⟩
abbrev main_v9 : Ref sig .tc := ⟨.hbm, 40, rfl⟩
abbrev main_c_3 : Ref sig .tc := ⟨.hbm, 41, rfl⟩
abbrev main_v10 : Ref sig .tc := ⟨.hbm, 42, rfl⟩
abbrev main_v11 : Ref sig .tc := ⟨.hbm, 43, rfl⟩
abbrev main_v12 : Ref sig .tc := ⟨.hbm, 44, rfl⟩
abbrev main_v13 : Ref sig .tc := ⟨.hbm, 45, rfl⟩
abbrev main_v14 : Ref sig .tc := ⟨.hbm, 46, rfl⟩
abbrev main_cst_4 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_v19 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_cst_5 : Ref sig .tc := ⟨.hbm, 67, rfl⟩
abbrev main_v34 : Ref sig .tc := ⟨.hbm, 68, rfl⟩
abbrev main_v35 : Ref sig .tc := ⟨.hbm, 69, rfl⟩
abbrev main_cst_6 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_7 : Ref sig .tc := ⟨.hbm, 76, rfl⟩
abbrev main_v41 : Ref sig .tc := ⟨.hbm, 77, rfl⟩
abbrev main_v42 : Ref sig .tc := ⟨.hbm, 78, rfl⟩
abbrev main_cst_8 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_9 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_call0_cst : Ref sig .tc := ⟨.hbm, 96, rfl⟩
abbrev main_call0_v0 : Ref sig .tc := ⟨.hbm, 97, rfl⟩
abbrev main_call0_v1 : Ref sig .tc := ⟨.hbm, 98, rfl⟩
abbrev main_call0_cst_0 : Ref sig .tc := ⟨.hbm, 99, rfl⟩
abbrev main_call0_v2 : Ref sig .tc := ⟨.hbm, 100, rfl⟩
abbrev main_call0_v3 : Ref sig .tc := ⟨.hbm, 101, rfl⟩
abbrev main_call0_cst_1 : Ref sig .tc := ⟨.hbm, 102, rfl⟩
abbrev main_call0_call0_v0 : Ref sig .tc := ⟨.hbm, 103, rfl⟩
abbrev main_call0_call0_v1 : Ref sig .tc := ⟨.hbm, 104, rfl⟩
abbrev main_call0_v4 : Ref sig .tc := ⟨.hbm, 105, rfl⟩
abbrev main_call0_v5 : Ref sig .tc := ⟨.hbm, 106, rfl⟩
abbrev main_call0_cst_2 : Ref sig .tc := ⟨.hbm, 107, rfl⟩
abbrev main_call0_v6 : Ref sig .tc := ⟨.hbm, 108, rfl⟩
abbrev main_call0_v7 : Ref sig .tc := ⟨.hbm, 109, rfl⟩
abbrev main_v58 : Ref sig .tc := ⟨.hbm, 110, rfl⟩
abbrev main_c_10 : Ref sig .tc := ⟨.hbm, 111, rfl⟩
abbrev main_v59 : Ref sig .tc := ⟨.hbm, 112, rfl⟩
abbrev main_v60 : Ref sig .tc := ⟨.hbm, 113, rfl⟩
abbrev main_c_11 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_cst_12 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_v72 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_cst_13 : Ref sig .tc := ⟨.hbm, 140, rfl⟩
abbrev main_v85 : Ref sig .tc := ⟨.hbm, 141, rfl⟩
abbrev main_v86 : Ref sig .tc := ⟨.hbm, 142, rfl⟩
abbrev main_cst_14 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_cst_15 : Ref sig .tc := ⟨.hbm, 149, rfl⟩
abbrev main_v92 : Ref sig .tc := ⟨.hbm, 150, rfl⟩
abbrev main_v93 : Ref sig .tc := ⟨.hbm, 151, rfl⟩
abbrev main_cst_16 : Ref sig .tc := ⟨.hbm, 152, rfl⟩
abbrev main_v94 : Ref sig .tc := ⟨.hbm, 153, rfl⟩
abbrev main_v95 : Ref sig .tc := ⟨.hbm, 154, rfl⟩
abbrev main_v96 : Ref sig .tc := ⟨.hbm, 155, rfl⟩
abbrev main_v97 : Ref sig .tc := ⟨.hbm, 156, rfl⟩
abbrev main_cst_17 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩
abbrev main_v105 : Ref sig .tc := ⟨.hbm, 165, rfl⟩
abbrev main_v106 : Ref sig .tc := ⟨.hbm, 166, rfl⟩
abbrev main_v107 : Ref sig .tc := ⟨.hbm, 167, rfl⟩
abbrev main_v108 : Ref sig .tc := ⟨.hbm, 168, rfl⟩
abbrev main_call1_cst : Ref sig .tc := ⟨.hbm, 169, rfl⟩
abbrev main_call1_v0 : Ref sig .tc := ⟨.hbm, 170, rfl⟩
abbrev main_call1_v1 : Ref sig .tc := ⟨.hbm, 171, rfl⟩
abbrev main_call1_cst_0 : Ref sig .tc := ⟨.hbm, 172, rfl⟩
abbrev main_call1_v2 : Ref sig .tc := ⟨.hbm, 173, rfl⟩
abbrev main_call1_v3 : Ref sig .tc := ⟨.hbm, 174, rfl⟩
abbrev main_call1_cst_1 : Ref sig .tc := ⟨.hbm, 175, rfl⟩
abbrev main_call1_call0_v0 : Ref sig .tc := ⟨.hbm, 176, rfl⟩
abbrev main_call1_call0_v1 : Ref sig .tc := ⟨.hbm, 177, rfl⟩
abbrev main_call1_v4 : Ref sig .tc := ⟨.hbm, 178, rfl⟩
abbrev main_call1_v5 : Ref sig .tc := ⟨.hbm, 179, rfl⟩
abbrev main_call1_cst_2 : Ref sig .tc := ⟨.hbm, 180, rfl⟩
abbrev main_call1_v6 : Ref sig .tc := ⟨.hbm, 181, rfl⟩
abbrev main_call1_v7 : Ref sig .tc := ⟨.hbm, 182, rfl⟩
abbrev main_v109 : Ref sig .tc := ⟨.hbm, 183, rfl⟩
abbrev main_c_18 : Ref sig .tc := ⟨.hbm, 184, rfl⟩
abbrev main_v110 : Ref sig .tc := ⟨.hbm, 185, rfl⟩
abbrev main_v111 : Ref sig .tc := ⟨.hbm, 186, rfl⟩
abbrev main_c_19 : Ref sig .tc := ⟨.hbm, 187, rfl⟩
abbrev main_v112 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_cst_20 : Ref sig .tc := ⟨.hbm, 193, rfl⟩
abbrev main_v117 : Ref sig .tc := ⟨.hbm, 194, rfl⟩
abbrev main_v118 : Ref sig .tc := ⟨.hbm, 195, rfl⟩
abbrev main_v119 : Ref sig .tc := ⟨.hbm, 196, rfl⟩
abbrev main_v120 : Ref sig .tc := ⟨.hbm, 197, rfl⟩
abbrev main_v121 : Ref sig .tc := ⟨.hbm, 198, rfl⟩
abbrev main_v122 : Ref sig .tc := ⟨.hbm, 199, rfl⟩
abbrev main_v123 : Ref sig .tc := ⟨.hbm, 200, rfl⟩
abbrev main_v124 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_cst_21 : Ref sig .tc := ⟨.hbm, 213, rfl⟩
abbrev main_v136 : Ref sig .tc := ⟨.hbm, 214, rfl⟩
abbrev main_v137 : Ref sig .tc := ⟨.hbm, 215, rfl⟩
abbrev main_cst_22 : Ref sig .tc := ⟨.hbm, 216, rfl⟩
abbrev main_v138 : Ref sig .tc := ⟨.hbm, 217, rfl⟩
abbrev main_v139 : Ref sig .tc := ⟨.hbm, 218, rfl⟩
abbrev main_v140 : Ref sig .tc := ⟨.hbm, 219, rfl⟩
abbrev main_v141 : Ref sig .tc := ⟨.hbm, 220, rfl⟩
abbrev main_v142 : Ref sig .tc := ⟨.hbm, 221, rfl⟩
abbrev main_cst_23 : Ref sig .tc := ⟨.hbm, 222, rfl⟩
abbrev main_v143 : Ref sig .tc := ⟨.hbm, 223, rfl⟩
abbrev main_v144 : Ref sig .tc := ⟨.hbm, 224, rfl⟩
abbrev main_cst_24 : Ref sig .tc := ⟨.hbm, 225, rfl⟩
abbrev main_v145 : Ref sig .tc := ⟨.hbm, 226, rfl⟩
abbrev main_v146 : Ref sig .tc := ⟨.hbm, 227, rfl⟩
abbrev main_v147 : Ref sig .tc := ⟨.hbm, 228, rfl⟩
abbrev main_v148 : Ref sig .tc := ⟨.hbm, 229, rfl⟩
abbrev main_cst_25 : Ref sig .tc := ⟨.hbm, 230, rfl⟩
abbrev main_v149 : Ref sig .tc := ⟨.hbm, 231, rfl⟩
abbrev main_v150 : Ref sig .tc := ⟨.hbm, 232, rfl⟩
abbrev main_v151 : Ref sig .tc := ⟨.hbm, 233, rfl⟩
abbrev main_v152 : Ref sig .tc := ⟨.hbm, 234, rfl⟩
abbrev main_v153 : Ref sig .tc := ⟨.hbm, 235, rfl⟩
abbrev main_v154 : Ref sig .tc := ⟨.hbm, 236, rfl⟩
abbrev main_v155 : Ref sig .tc := ⟨.hbm, 237, rfl⟩
abbrev main_v156 : Ref sig .tc := ⟨.hbm, 238, rfl⟩
abbrev main_v157 : Ref sig .tc := ⟨.hbm, 239, rfl⟩
abbrev main_v158 : Ref sig .tc := ⟨.hbm, 240, rfl⟩
abbrev main_v159 : Ref sig .tc := ⟨.hbm, 241, rfl⟩
abbrev main_call2_cst : Ref sig .tc := ⟨.hbm, 242, rfl⟩
abbrev main_call2_v0 : Ref sig .tc := ⟨.hbm, 243, rfl⟩
abbrev main_call2_v1 : Ref sig .tc := ⟨.hbm, 244, rfl⟩
abbrev main_call2_cst_0 : Ref sig .tc := ⟨.hbm, 245, rfl⟩
abbrev main_call2_v2 : Ref sig .tc := ⟨.hbm, 246, rfl⟩
abbrev main_call2_v3 : Ref sig .tc := ⟨.hbm, 247, rfl⟩
abbrev main_call2_cst_1 : Ref sig .tc := ⟨.hbm, 248, rfl⟩
abbrev main_call2_call0_v0 : Ref sig .tc := ⟨.hbm, 249, rfl⟩
abbrev main_call2_call0_v1 : Ref sig .tc := ⟨.hbm, 250, rfl⟩
abbrev main_call2_v4 : Ref sig .tc := ⟨.hbm, 251, rfl⟩
abbrev main_call2_v5 : Ref sig .tc := ⟨.hbm, 252, rfl⟩
abbrev main_call2_cst_2 : Ref sig .tc := ⟨.hbm, 253, rfl⟩
abbrev main_call2_v6 : Ref sig .tc := ⟨.hbm, 254, rfl⟩
abbrev main_call2_v7 : Ref sig .tc := ⟨.hbm, 255, rfl⟩
abbrev main_v160 : Ref sig .tc := ⟨.hbm, 256, rfl⟩
abbrev main_c_26 : Ref sig .tc := ⟨.hbm, 257, rfl⟩
abbrev main_v161 : Ref sig .tc := ⟨.hbm, 258, rfl⟩
abbrev main_v162 : Ref sig .tc := ⟨.hbm, 259, rfl⟩
abbrev main_c_27 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_cst_28 : Ref sig .tc := ⟨.hbm, 266, rfl⟩
abbrev main_v168 : Ref sig .tc := ⟨.hbm, 267, rfl⟩
abbrev main_cst_29 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_cst_30 : Ref sig .tc := ⟨.hbm, 272, rfl⟩
abbrev main_v172 : Ref sig .tc := ⟨.hbm, 273, rfl⟩
abbrev main_v173 : Ref sig .tc := ⟨.hbm, 274, rfl⟩
abbrev main_cst_31 : Ref sig .tc := ⟨.hbm, 275, rfl⟩
abbrev main_v174 : Ref sig .tc := ⟨.hbm, 276, rfl⟩
abbrev main_v175 : Ref sig .tc := ⟨.hbm, 277, rfl⟩
abbrev main_c_32 : Ref sig .tc := ⟨.hbm, 278, rfl⟩
abbrev main_v176 : Ref sig .tc := ⟨.hbm, 279, rfl⟩
abbrev main_v177 : Ref sig .tc := ⟨.hbm, 280, rfl⟩
abbrev main_c_33 : Ref sig .tc := ⟨.hbm, 281, rfl⟩
abbrev main_v178 : Ref sig .tc := ⟨.hbm, 282, rfl⟩
abbrev main_v179 : Ref sig .tc := ⟨.hbm, 283, rfl⟩
abbrev main_v180 : Ref sig .tc := ⟨.hbm, 284, rfl⟩
abbrev main_v181 : Ref sig .tc := ⟨.hbm, 285, rfl⟩
abbrev main_v182 : Ref sig .tc := ⟨.hbm, 286, rfl⟩
abbrev main_cst_34 : Ref sig .tc := ⟨.hbm, 287, rfl⟩
abbrev main_v183 : Ref sig .tc := ⟨.hbm, 288, rfl⟩
abbrev main_v184 : Ref sig .tc := ⟨.hbm, 289, rfl⟩
abbrev main_v185 : Ref sig .tc := ⟨.hbm, 290, rfl⟩
abbrev main_v186 : Ref sig .tc := ⟨.hbm, 291, rfl⟩
abbrev main_v187 : Ref sig .tc := ⟨.hbm, 292, rfl⟩
abbrev main_v188 : Ref sig .tc := ⟨.hbm, 293, rfl⟩
abbrev main_v189 : Ref sig .tc := ⟨.hbm, 294, rfl⟩
abbrev main_v190 : Ref sig .tc := ⟨.hbm, 295, rfl⟩
abbrev main_v191 : Ref sig .tc := ⟨.hbm, 296, rfl⟩
abbrev main_v192 : Ref sig .tc := ⟨.hbm, 297, rfl⟩
abbrev main_v193 : Ref sig .tc := ⟨.hbm, 298, rfl⟩
abbrev main_v194 : Ref sig .tc := ⟨.hbm, 299, rfl⟩
abbrev main_v195 : Ref sig .tc := ⟨.hbm, 300, rfl⟩
abbrev main_v196 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_cst_35 : Ref sig .tc := ⟨.hbm, 307, rfl⟩
abbrev main_v202 : Ref sig .tc := ⟨.hbm, 308, rfl⟩
abbrev main_v203 : Ref sig .tc := ⟨.hbm, 309, rfl⟩
abbrev main_cst_36 : Ref sig .tc := ⟨.hbm, 310, rfl⟩
abbrev main_v204 : Ref sig .tc := ⟨.hbm, 311, rfl⟩
abbrev main_v205 : Ref sig .tc := ⟨.hbm, 312, rfl⟩
abbrev main_v206 : Ref sig .tc := ⟨.hbm, 313, rfl⟩
abbrev main_v207 : Ref sig .tc := ⟨.hbm, 314, rfl⟩
abbrev main_v208 : Ref sig .tc := ⟨.hbm, 315, rfl⟩
abbrev main_cst_37 : Ref sig .tc := ⟨.hbm, 316, rfl⟩
abbrev main_v209 : Ref sig .tc := ⟨.hbm, 317, rfl⟩
abbrev main_v210 : Ref sig .tc := ⟨.hbm, 318, rfl⟩
abbrev main_cst_38 : Ref sig .tc := ⟨.hbm, 319, rfl⟩
abbrev main_v211 : Ref sig .tc := ⟨.hbm, 320, rfl⟩
abbrev main_v212 : Ref sig .tc := ⟨.hbm, 321, rfl⟩
abbrev main_v213 : Ref sig .tc := ⟨.hbm, 322, rfl⟩
abbrev main_v214 : Ref sig .tc := ⟨.hbm, 323, rfl⟩
abbrev main_cst_39 : Ref sig .tc := ⟨.hbm, 324, rfl⟩
abbrev main_v215 : Ref sig .tc := ⟨.hbm, 325, rfl⟩
abbrev main_v216 : Ref sig .tc := ⟨.hbm, 326, rfl⟩
abbrev main_v217 : Ref sig .tc := ⟨.hbm, 327, rfl⟩
abbrev main_v218 : Ref sig .tc := ⟨.hbm, 328, rfl⟩
abbrev main_v219 : Ref sig .tc := ⟨.hbm, 329, rfl⟩
abbrev main_v220 : Ref sig .tc := ⟨.hbm, 330, rfl⟩
abbrev main_v221 : Ref sig .tc := ⟨.hbm, 331, rfl⟩
abbrev main_v222 : Ref sig .tc := ⟨.hbm, 332, rfl⟩
abbrev main_v223 : Ref sig .tc := ⟨.hbm, 333, rfl⟩
abbrev main_v224 : Ref sig .tc := ⟨.hbm, 334, rfl⟩
abbrev main_v225 : Ref sig .tc := ⟨.hbm, 335, rfl⟩
abbrev main_call3_cst : Ref sig .tc := ⟨.hbm, 336, rfl⟩
abbrev main_call3_v0 : Ref sig .tc := ⟨.hbm, 337, rfl⟩
abbrev main_call3_v1 : Ref sig .tc := ⟨.hbm, 338, rfl⟩
abbrev main_call3_cst_0 : Ref sig .tc := ⟨.hbm, 339, rfl⟩
abbrev main_call3_v2 : Ref sig .tc := ⟨.hbm, 340, rfl⟩
abbrev main_call3_v3 : Ref sig .tc := ⟨.hbm, 341, rfl⟩
abbrev main_call3_cst_1 : Ref sig .tc := ⟨.hbm, 342, rfl⟩
abbrev main_call3_call0_v0 : Ref sig .tc := ⟨.hbm, 343, rfl⟩
abbrev main_call3_call0_v1 : Ref sig .tc := ⟨.hbm, 344, rfl⟩
abbrev main_call3_v4 : Ref sig .tc := ⟨.hbm, 345, rfl⟩
abbrev main_call3_v5 : Ref sig .tc := ⟨.hbm, 346, rfl⟩
abbrev main_call3_cst_2 : Ref sig .tc := ⟨.hbm, 347, rfl⟩
abbrev main_call3_v6 : Ref sig .tc := ⟨.hbm, 348, rfl⟩
abbrev main_call3_v7 : Ref sig .tc := ⟨.hbm, 349, rfl⟩
abbrev main_v226 : Ref sig .tc := ⟨.hbm, 350, rfl⟩
abbrev main_c_40 : Ref sig .tc := ⟨.hbm, 351, rfl⟩
abbrev main_v227 : Ref sig .tc := ⟨.hbm, 352, rfl⟩
abbrev main_v228 : Ref sig .tc := ⟨.hbm, 353, rfl⟩
abbrev main_c_41 : Ref sig .tc := ⟨.hbm, 354, rfl⟩
abbrev main_v229 : Ref sig .tc := ⟨.hbm, 355, rfl⟩
abbrev main_v230 : Ref sig .tc := ⟨.hbm, 356, rfl⟩
abbrev main_v231 : Ref sig .tc := ⟨.hbm, 357, rfl⟩
abbrev main_v232 : Ref sig .tc := ⟨.hbm, 358, rfl⟩
abbrev main_v233 : Ref sig .tc := ⟨.hbm, 359, rfl⟩
abbrev main_cst_42 : Ref sig .tc := ⟨.hbm, 360, rfl⟩
abbrev main_v234 : Ref sig .tc := ⟨.hbm, 361, rfl⟩
abbrev main_v235 : Ref sig .tc := ⟨.hbm, 362, rfl⟩
abbrev main_v236 : Ref sig .tc := ⟨.hbm, 363, rfl⟩
abbrev main_v237 : Ref sig .tc := ⟨.hbm, 364, rfl⟩
abbrev main_v238 : Ref sig .tc := ⟨.hbm, 365, rfl⟩
abbrev main_v239 : Ref sig .tc := ⟨.hbm, 366, rfl⟩
abbrev main_v240 : Ref sig .tc := ⟨.hbm, 367, rfl⟩
abbrev main_v241 : Ref sig .tc := ⟨.hbm, 368, rfl⟩
abbrev main_v242 : Ref sig .tc := ⟨.hbm, 369, rfl⟩
abbrev main_v243 : Ref sig .tc := ⟨.hbm, 370, rfl⟩
abbrev main_v244 : Ref sig .tc := ⟨.hbm, 371, rfl⟩
abbrev main_v245 : Ref sig .tc := ⟨.hbm, 372, rfl⟩
abbrev main_v246 : Ref sig .tc := ⟨.hbm, 373, rfl⟩
abbrev main_v247 : Ref sig .tc := ⟨.hbm, 374, rfl⟩
abbrev main_v248 : Ref sig .tc := ⟨.hbm, 375, rfl⟩
abbrev main_v249 : Ref sig .tc := ⟨.hbm, 376, rfl⟩
abbrev main_v250 : Ref sig .tc := ⟨.hbm, 377, rfl⟩
abbrev main_v251 : Ref sig .tc := ⟨.hbm, 378, rfl⟩
abbrev main_v252 : Ref sig .tc := ⟨.hbm, 379, rfl⟩
abbrev main_cst_43 : Ref sig .tc := ⟨.hbm, 380, rfl⟩
abbrev main_v253 : Ref sig .tc := ⟨.hbm, 381, rfl⟩
abbrev main_v254 : Ref sig .tc := ⟨.hbm, 382, rfl⟩
abbrev main_cst_44 : Ref sig .tc := ⟨.hbm, 383, rfl⟩
abbrev main_v255 : Ref sig .tc := ⟨.hbm, 384, rfl⟩
abbrev main_v256 : Ref sig .tc := ⟨.hbm, 385, rfl⟩
abbrev main_v257 : Ref sig .tc := ⟨.hbm, 386, rfl⟩
abbrev main_v258 : Ref sig .tc := ⟨.hbm, 387, rfl⟩
abbrev main_v259 : Ref sig .tc := ⟨.hbm, 388, rfl⟩
abbrev main_cst_45 : Ref sig .tc := ⟨.hbm, 389, rfl⟩
abbrev main_v260 : Ref sig .tc := ⟨.hbm, 390, rfl⟩
abbrev main_v261 : Ref sig .tc := ⟨.hbm, 391, rfl⟩
abbrev main_cst_46 : Ref sig .tc := ⟨.hbm, 392, rfl⟩
abbrev main_v262 : Ref sig .tc := ⟨.hbm, 393, rfl⟩
abbrev main_v263 : Ref sig .tc := ⟨.hbm, 394, rfl⟩
abbrev main_v264 : Ref sig .tc := ⟨.hbm, 395, rfl⟩
abbrev main_v265 : Ref sig .tc := ⟨.hbm, 396, rfl⟩
abbrev main_cst_47 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_v270 : Ref sig .tc := ⟨.hbm, 402, rfl⟩
abbrev main_v271 : Ref sig .tc := ⟨.hbm, 403, rfl⟩
abbrev main_v272 : Ref sig .tc := ⟨.hbm, 404, rfl⟩
abbrev main_v273 : Ref sig .tc := ⟨.hbm, 405, rfl⟩
abbrev main_v274 : Ref sig .tc := ⟨.hbm, 406, rfl⟩
abbrev main_v275 : Ref sig .tc := ⟨.hbm, 407, rfl⟩
abbrev main_v276 : Ref sig .tc := ⟨.hbm, 408, rfl⟩
abbrev main_call4_cst : Ref sig .tc := ⟨.hbm, 409, rfl⟩
abbrev main_call4_v0 : Ref sig .tc := ⟨.hbm, 410, rfl⟩
abbrev main_call4_v1 : Ref sig .tc := ⟨.hbm, 411, rfl⟩
abbrev main_call4_cst_0 : Ref sig .tc := ⟨.hbm, 412, rfl⟩
abbrev main_call4_v2 : Ref sig .tc := ⟨.hbm, 413, rfl⟩
abbrev main_call4_v3 : Ref sig .tc := ⟨.hbm, 414, rfl⟩
abbrev main_call4_cst_1 : Ref sig .tc := ⟨.hbm, 415, rfl⟩
abbrev main_call4_call0_v0 : Ref sig .tc := ⟨.hbm, 416, rfl⟩
abbrev main_call4_call0_v1 : Ref sig .tc := ⟨.hbm, 417, rfl⟩
abbrev main_call4_v4 : Ref sig .tc := ⟨.hbm, 418, rfl⟩
abbrev main_call4_v5 : Ref sig .tc := ⟨.hbm, 419, rfl⟩
abbrev main_call4_cst_2 : Ref sig .tc := ⟨.hbm, 420, rfl⟩
abbrev main_call4_v6 : Ref sig .tc := ⟨.hbm, 421, rfl⟩
abbrev main_call4_v7 : Ref sig .tc := ⟨.hbm, 422, rfl⟩
abbrev main_v277 : Ref sig .tc := ⟨.hbm, 423, rfl⟩
abbrev main_c_48 : Ref sig .tc := ⟨.hbm, 424, rfl⟩
abbrev main_v278 : Ref sig .tc := ⟨.hbm, 425, rfl⟩
abbrev main_v279 : Ref sig .tc := ⟨.hbm, 426, rfl⟩
abbrev main_c_49 : Ref sig .tc := ⟨.hbm, 427, rfl⟩
abbrev main_v280 : Ref sig .tc := ⟨.hbm, 428, rfl⟩
abbrev main_v281 : Ref sig .tc := ⟨.hbm, 429, rfl⟩
abbrev main_v282 : Ref sig .tc := ⟨.hbm, 430, rfl⟩
abbrev main_v283 : Ref sig .tc := ⟨.hbm, 431, rfl⟩
abbrev main_v284 : Ref sig .tc := ⟨.hbm, 432, rfl⟩
abbrev main_cst_50 : Ref sig .tc := ⟨.hbm, 433, rfl⟩
abbrev main_v285 : Ref sig .tc := ⟨.hbm, 434, rfl⟩
abbrev main_v286 : Ref sig .tc := ⟨.hbm, 435, rfl⟩
abbrev main_v287 : Ref sig .tc := ⟨.hbm, 436, rfl⟩
abbrev main_v288 : Ref sig .tc := ⟨.hbm, 437, rfl⟩
abbrev main_v289 : Ref sig .tc := ⟨.hbm, 438, rfl⟩
abbrev main_v290 : Ref sig .tc := ⟨.hbm, 439, rfl⟩
abbrev main_v291 : Ref sig .tc := ⟨.hbm, 440, rfl⟩
abbrev main_v292 : Ref sig .tc := ⟨.hbm, 441, rfl⟩
abbrev main_v293 : Ref sig .tc := ⟨.hbm, 442, rfl⟩
abbrev main_v294 : Ref sig .tc := ⟨.hbm, 443, rfl⟩
abbrev main_v295 : Ref sig .tc := ⟨.hbm, 444, rfl⟩
abbrev main_v296 : Ref sig .tc := ⟨.hbm, 445, rfl⟩
abbrev main_v297 : Ref sig .tc := ⟨.hbm, 446, rfl⟩
abbrev main_v298 : Ref sig .tc := ⟨.hbm, 447, rfl⟩
abbrev main_v299 : Ref sig .tc := ⟨.hbm, 448, rfl⟩
abbrev main_v300 : Ref sig .tc := ⟨.hbm, 449, rfl⟩
abbrev main_v301 : Ref sig .tc := ⟨.hbm, 450, rfl⟩
abbrev main_v302 : Ref sig .tc := ⟨.hbm, 451, rfl⟩
abbrev main_v303 : Ref sig .tc := ⟨.hbm, 452, rfl⟩
abbrev main_cst_51 : Ref sig .tc := ⟨.hbm, 453, rfl⟩
abbrev main_v304 : Ref sig .tc := ⟨.hbm, 454, rfl⟩
abbrev main_v305 : Ref sig .tc := ⟨.hbm, 455, rfl⟩
abbrev main_cst_52 : Ref sig .tc := ⟨.hbm, 456, rfl⟩
abbrev main_v306 : Ref sig .tc := ⟨.hbm, 457, rfl⟩
abbrev main_v307 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_cst_53 : Ref sig .tc := ⟨.hbm, 462, rfl⟩
abbrev main_v311 : Ref sig .tc := ⟨.hbm, 463, rfl⟩
abbrev main_v312 : Ref sig .tc := ⟨.hbm, 464, rfl⟩
abbrev main_cst_54 : Ref sig .tc := ⟨.hbm, 465, rfl⟩
abbrev main_v313 : Ref sig .tc := ⟨.hbm, 466, rfl⟩
abbrev main_v314 : Ref sig .tc := ⟨.hbm, 467, rfl⟩
abbrev main_v315 : Ref sig .tc := ⟨.hbm, 468, rfl⟩
abbrev main_v316 : Ref sig .tc := ⟨.hbm, 469, rfl⟩
abbrev main_cst_55 : Ref sig .tc := ⟨.hbm, 470, rfl⟩
abbrev main_v317 : Ref sig .tc := ⟨.hbm, 471, rfl⟩
abbrev main_v318 : Ref sig .tc := ⟨.hbm, 472, rfl⟩
abbrev main_v319 : Ref sig .tc := ⟨.hbm, 473, rfl⟩
abbrev main_v320 : Ref sig .tc := ⟨.hbm, 474, rfl⟩
abbrev main_v321 : Ref sig .tc := ⟨.hbm, 475, rfl⟩
abbrev main_v322 : Ref sig .tc := ⟨.hbm, 476, rfl⟩
abbrev main_v323 : Ref sig .tc := ⟨.hbm, 477, rfl⟩
abbrev main_v324 : Ref sig .tc := ⟨.hbm, 478, rfl⟩
abbrev main_v325 : Ref sig .tc := ⟨.hbm, 479, rfl⟩
abbrev main_v326 : Ref sig .tc := ⟨.hbm, 480, rfl⟩
abbrev main_v327 : Ref sig .tc := ⟨.hbm, 481, rfl⟩
abbrev main_call5_cst : Ref sig .tc := ⟨.hbm, 482, rfl⟩
abbrev main_call5_v0 : Ref sig .tc := ⟨.hbm, 483, rfl⟩
abbrev main_call5_v1 : Ref sig .tc := ⟨.hbm, 484, rfl⟩
abbrev main_call5_cst_0 : Ref sig .tc := ⟨.hbm, 485, rfl⟩
abbrev main_call5_v2 : Ref sig .tc := ⟨.hbm, 486, rfl⟩
abbrev main_call5_v3 : Ref sig .tc := ⟨.hbm, 487, rfl⟩
abbrev main_call5_cst_1 : Ref sig .tc := ⟨.hbm, 488, rfl⟩
abbrev main_call5_call0_v0 : Ref sig .tc := ⟨.hbm, 489, rfl⟩
abbrev main_call5_call0_v1 : Ref sig .tc := ⟨.hbm, 490, rfl⟩
abbrev main_call5_v4 : Ref sig .tc := ⟨.hbm, 491, rfl⟩
abbrev main_call5_v5 : Ref sig .tc := ⟨.hbm, 492, rfl⟩
abbrev main_call5_cst_2 : Ref sig .tc := ⟨.hbm, 493, rfl⟩
abbrev main_call5_v6 : Ref sig .tc := ⟨.hbm, 494, rfl⟩
abbrev main_call5_v7 : Ref sig .tc := ⟨.hbm, 495, rfl⟩
abbrev main_v328 : Ref sig .tc := ⟨.hbm, 496, rfl⟩
abbrev main_c_56 : Ref sig .tc := ⟨.hbm, 497, rfl⟩
abbrev main_v329 : Ref sig .tc := ⟨.hbm, 498, rfl⟩
abbrev main_v330 : Ref sig .tc := ⟨.hbm, 499, rfl⟩
abbrev main_c_57 : Ref sig .tc := ⟨.hbm, 500, rfl⟩
abbrev main_v331 : Ref sig .tc := ⟨.hbm, 501, rfl⟩
abbrev main_v332 : Ref sig .tc := ⟨.hbm, 502, rfl⟩
abbrev main_v333 : Ref sig .tc := ⟨.hbm, 503, rfl⟩
abbrev main_v334 : Ref sig .tc := ⟨.hbm, 504, rfl⟩
abbrev main_v335 : Ref sig .tc := ⟨.hbm, 505, rfl⟩
abbrev main_v336 : Ref sig .tc := ⟨.hbm, 506, rfl⟩
abbrev main_v337 : Ref sig .tc := ⟨.hbm, 507, rfl⟩
abbrev main_v338 : Ref sig .tc := ⟨.hbm, 508, rfl⟩
abbrev main_v339 : Ref sig .tc := ⟨.hbm, 509, rfl⟩
abbrev main_v340 : Ref sig .tc := ⟨.hbm, 510, rfl⟩
abbrev main_cst_58 : Ref sig .tc := ⟨.hbm, 511, rfl⟩
abbrev main_v341 : Ref sig .tc := ⟨.hbm, 512, rfl⟩
abbrev main_v342 : Ref sig .tc := ⟨.hbm, 513, rfl⟩
abbrev main_cst_59 : Ref sig .tc := ⟨.hbm, 514, rfl⟩
abbrev main_v343 : Ref sig .tc := ⟨.hbm, 515, rfl⟩
abbrev main_v344 : Ref sig .tc := ⟨.hbm, 516, rfl⟩
abbrev main_v345 : Ref sig .tc := ⟨.hbm, 517, rfl⟩
abbrev main_v346 : Ref sig .tc := ⟨.hbm, 518, rfl⟩
abbrev main_v347 : Ref sig .tc := ⟨.hbm, 519, rfl⟩
abbrev main_cst_60 : Ref sig .tc := ⟨.hbm, 520, rfl⟩
abbrev main_v348 : Ref sig .tc := ⟨.hbm, 521, rfl⟩
abbrev main_v349 : Ref sig .tc := ⟨.hbm, 522, rfl⟩
abbrev main_cst_61 : Ref sig .tc := ⟨.hbm, 523, rfl⟩
abbrev main_v350 : Ref sig .tc := ⟨.hbm, 524, rfl⟩
abbrev main_v351 : Ref sig .tc := ⟨.hbm, 525, rfl⟩
abbrev main_v352 : Ref sig .tc := ⟨.hbm, 526, rfl⟩
abbrev main_v353 : Ref sig .tc := ⟨.hbm, 527, rfl⟩
abbrev main_cst_62 : Ref sig .tc := ⟨.hbm, 528, rfl⟩
abbrev main_v354 : Ref sig .tc := ⟨.hbm, 529, rfl⟩
abbrev main_v355 : Ref sig .tc := ⟨.hbm, 530, rfl⟩
abbrev main_v356 : Ref sig .tc := ⟨.hbm, 531, rfl⟩
abbrev main_v357 : Ref sig .tc := ⟨.hbm, 532, rfl⟩
abbrev main_v358 : Ref sig .tc := ⟨.hbm, 533, rfl⟩
abbrev main_v359 : Ref sig .tc := ⟨.hbm, 534, rfl⟩
abbrev main_v360 : Ref sig .tc := ⟨.hbm, 535, rfl⟩
abbrev main_v361 : Ref sig .tc := ⟨.hbm, 536, rfl⟩
abbrev main_v362 : Ref sig .tc := ⟨.hbm, 537, rfl⟩
abbrev main_v363 : Ref sig .tc := ⟨.hbm, 538, rfl⟩
abbrev main_v364 : Ref sig .tc := ⟨.hbm, 539, rfl⟩
abbrev main_call6_cst : Ref sig .tc := ⟨.hbm, 540, rfl⟩
abbrev main_call6_v0 : Ref sig .tc := ⟨.hbm, 541, rfl⟩
abbrev main_v365 : Ref sig .tc := ⟨.hbm, 542, rfl⟩
abbrev main_v366 : Ref sig .tc := ⟨.hbm, 543, rfl⟩
abbrev main_v367 : Ref sig .tc := ⟨.hbm, 544, rfl⟩
abbrev main_v368 : Ref sig .tc := ⟨.hbm, 545, rfl⟩
abbrev main_v369 : Ref sig .tc := ⟨.hbm, 546, rfl⟩
abbrev main_cst_63 : Ref sig .tc := ⟨.hbm, 547, rfl⟩
abbrev main_v370 : Ref sig .tc := ⟨.hbm, 548, rfl⟩
abbrev main_v371 : Ref sig .tc := ⟨.hbm, 549, rfl⟩
abbrev main_cst_64 : Ref sig .tc := ⟨.hbm, 550, rfl⟩
abbrev main_v372 : Ref sig .tc := ⟨.hbm, 551, rfl⟩
abbrev main_v373 : Ref sig .tc := ⟨.hbm, 552, rfl⟩
abbrev main_v374 : Ref sig .tc := ⟨.hbm, 553, rfl⟩
abbrev main_v375 : Ref sig .tc := ⟨.hbm, 554, rfl⟩
abbrev main_v376 : Ref sig .tc := ⟨.hbm, 555, rfl⟩
abbrev main_cst_65 : Ref sig .tc := ⟨.hbm, 556, rfl⟩
abbrev main_v377 : Ref sig .tc := ⟨.hbm, 557, rfl⟩
abbrev main_v378 : Ref sig .tc := ⟨.hbm, 558, rfl⟩
abbrev main_cst_66 : Ref sig .tc := ⟨.hbm, 559, rfl⟩
abbrev main_v379 : Ref sig .tc := ⟨.hbm, 560, rfl⟩
abbrev main_v380 : Ref sig .tc := ⟨.hbm, 561, rfl⟩
abbrev main_v381 : Ref sig .tc := ⟨.hbm, 562, rfl⟩
abbrev main_v382 : Ref sig .tc := ⟨.hbm, 563, rfl⟩
abbrev main_cst_67 : Ref sig .tc := ⟨.hbm, 564, rfl⟩
abbrev main_v383 : Ref sig .tc := ⟨.hbm, 565, rfl⟩
abbrev main_v384 : Ref sig .tc := ⟨.hbm, 566, rfl⟩
abbrev main_v385 : Ref sig .tc := ⟨.hbm, 567, rfl⟩
abbrev main_v386 : Ref sig .tc := ⟨.hbm, 568, rfl⟩
abbrev main_v387 : Ref sig .tc := ⟨.hbm, 569, rfl⟩
abbrev main_v388 : Ref sig .tc := ⟨.hbm, 570, rfl⟩
abbrev main_v389 : Ref sig .tc := ⟨.hbm, 571, rfl⟩
abbrev main_v390 : Ref sig .tc := ⟨.hbm, 572, rfl⟩
abbrev main_v391 : Ref sig .tc := ⟨.hbm, 573, rfl⟩
abbrev main_v392 : Ref sig .tc := ⟨.hbm, 574, rfl⟩
abbrev main_v393 : Ref sig .tc := ⟨.hbm, 575, rfl⟩
abbrev main_call7_cst : Ref sig .tc := ⟨.hbm, 576, rfl⟩
abbrev main_call7_v0 : Ref sig .tc := ⟨.hbm, 577, rfl⟩
abbrev main_v394 : Ref sig .tc := ⟨.hbm, 578, rfl⟩
abbrev main_v395 : Ref sig .tc := ⟨.hbm, 579, rfl⟩
abbrev main_v396 : Ref sig .tc := ⟨.hbm, 580, rfl⟩
abbrev main_v397 : Ref sig .tc := ⟨.hbm, 581, rfl⟩
abbrev main_v398 : Ref sig .tc := ⟨.hbm, 582, rfl⟩
abbrev main_v399 : Ref sig .tc := ⟨.hbm, 583, rfl⟩
abbrev main_v400 : Ref sig .tc := ⟨.hbm, 584, rfl⟩
abbrev main_cst_68 : Ref sig .tc := ⟨.hbm, 585, rfl⟩
abbrev main_v401 : Ref sig .tc := ⟨.hbm, 586, rfl⟩
abbrev main_v402 : Ref sig .tc := ⟨.hbm, 587, rfl⟩
abbrev main_cst_69 : Ref sig .tc := ⟨.hbm, 588, rfl⟩
abbrev main_v403 : Ref sig .tc := ⟨.hbm, 589, rfl⟩
abbrev main_v404 : Ref sig .tc := ⟨.hbm, 590, rfl⟩
abbrev main_v405 : Ref sig .tc := ⟨.hbm, 591, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S16384 : S_.BroadcastsInDim S16384 (![] : Fin 0 → Fin S16384.rank)
  bcast_S16384_S16384x1_0 : S16384.BroadcastsInDim S16384x1 (![0] : Fin 1 → Fin S16384x1.rank)
  concatenates_S16384x128_S16384x128_S16384x256_d1 : Shape.Concatenates [S16384x128, S16384x128] S16384x256 1
  bcast_S1x128_S16384x128_0_1 : S1x128.BroadcastsInDim S16384x128 (![0, 1] : Fin 2 → Fin S16384x128.rank)
  reducesTo_S16384x128_S16384_d1 : S16384x128.ReducesTo [1] S16384
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  bcast_S_S16384x128 : S_.BroadcastsInDim S16384x128 (![] : Fin 0 → Fin S16384x128.rank)
  bcast_S1_S1x1_1 : S1.BroadcastsInDim S1x1 (![1] : Fin 1 → Fin S1x1.rank)
  bcast_S1x1_S16384x1_0_1 : S1x1.BroadcastsInDim S16384x1 (![0, 1] : Fin 2 → Fin S16384x1.rank)
  shapeCasts_S16384x1_S16384 : S16384x1.ShapeCasts S16384
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  gather_S50000x128_S16384x1_S16384x128_1_0_n_n_0_1_1128_wf : GatherDims.WF S50000x128 S16384x1 S16384x128 [1] [0] [] [0] [] 1 ![1, 128]
  dot_S16384x256_S256x128_S16384x128_1_0_0_1_n_n_wf : DotDims.WF S16384x256 S256x128 S16384x128 [1] [0] [0] [1] [] []
  dot_S16384x128_S128x128_S16384x128_1_0_0_1_n_n_wf : DotDims.WF S16384x128 S128x128 S16384x128 [1] [0] [0] [1] [] []
  dot_S16384x128_S128x1_S16384x1_1_0_0_1_n_n_wf : DotDims.WF S16384x128 S128x1 S16384x1 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S16384x1_S16384x128_1_0_n_n_0_1_1128 : GatherDims S50000x128 S16384x1 S16384x128 where
  offsetDims := [1]
  collapsedSliceDims := [0]
  operandBatchingDims := []
  startIndicesBatchingDims := []
  startIndexMap := [0]
  indexVectorDim := 1
  sliceSizes := ![1, 128]
  wf := gather_S50000x128_S16384x1_S16384x128_1_0_n_n_0_1_1128_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x1_S16384x1_1_0_0_1_n_n : DotDims S16384x128 S128x1 S16384x1 where
  lhsContracting := [1]
  rhsContracting := [0]
  lhsNonContracting := [0]
  rhsNonContracting := [1]
  lhsBatch := []
  rhsBatch := []
  wf := dot_S16384x128_S128x1_S16384x1_1_0_0_1_n_n_wf

class Facts : Prop extends Facts₀ where

variable [Facts]
-- ==== Proof.KKeep.lean ====
import proofs.«425409_j25305947308735_1_alg».proof.Proof.Gen.KernelIdeal.Frame

noncomputable section

namespace Cert.Hand.K

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

abbrev wr0 : List (Ref sig .tc) :=
  [main_cst, main_v0, main_cst_0, main_v1, main_v2, main_v3, main_cst_1, main_v4, main_v5, main_cst_2, main_v6, main_v7, main_v8,
   main_c, main_v9, main_v10, main_c_3, main_v11, main_v12, main_v13, main_v14, main_v15, main_cst_4, main_v16, main_v17, main_v18,
   main_v19, main_v20, main_v21, main_v22, main_v23, main_v24, main_v25, main_v26, main_v27, main_v28, main_v29]
abbrev wr1 : List (Ref sig .tc) :=
  [main_c_5, main_v31, main_v32, main_c_6, main_v33, main_v34, main_v35, main_v36, main_v37, main_cst_7, main_v38, main_v39, main_v40,
   main_v41, main_v42, main_v43, main_v44, main_v45, main_v46, main_v47, main_v48, main_v49, main_v50, main_v51]
abbrev wr2 : List (Ref sig .tc) :=
  [main_c_8, main_v53, main_v54, main_c_9, main_v55, main_v56, main_v57, main_v58, main_v59, main_cst_10, main_v60, main_v61, main_v62,
   main_v63, main_v64, main_v65, main_v66, main_v67, main_v68, main_v69, main_v70, main_v71, main_v72, main_v73]
abbrev wr3 : List (Ref sig .tc) :=
  [main_cst_11, main_v75, main_cst_12, main_v76, main_v77, main_v78, main_cst_13, main_v79, main_v80, main_cst_14, main_v81, main_v82, main_v83,
   main_c_15, main_v84, main_v85, main_c_16, main_v86, main_v87, main_v88, main_v89, main_v90, main_cst_17, main_v91, main_v92, main_v93,
   main_v94, main_v95, main_v96, main_v97, main_v98, main_v99, main_v100, main_v101, main_v102, main_v103, main_v104]
abbrev wr4 : List (Ref sig .tc) :=
  [main_c_18, main_v106, main_v107, main_c_19, main_v108, main_v109, main_v110, main_v111, main_v112, main_cst_20, main_v113, main_v114, main_v115,
   main_v116, main_v117, main_v118, main_v119, main_v120, main_v121, main_v122, main_v123, main_v124, main_v125, main_v126]
abbrev wr5 : List (Ref sig .tc) :=
  [main_c_21, main_v128, main_v129, main_c_22, main_v130, main_v131, main_v132, main_v133, main_v134, main_cst_23, main_v135, main_v136, main_v137,
   main_v138, main_v139, main_v140, main_v141, main_v142, main_v143, main_v144, main_v145, main_v146, main_v147, main_v148]

/-- Operations that each write one reference, the references being those of the list W in order, write inside W. -/
theorem forall_writes_sub {Val : EltTy → Type} (ops : List (HloOp τ sig Val)) (W : List (Ref sig .tc))
    (h : ops.map (·.writes) = W.map fun r => {Proc.devRef (τ := τ) .tc r}) :
    ops.Forall fun op => op.writes ⊆ (W.map (Proc.devRef (τ := τ) .tc)).toFinset :=
  List.forall_iff_forall_mem.mpr fun op hop => by
    obtain ⟨r, hr, e⟩ := List.mem_map.mp (h ▸ List.mem_map_of_mem hop)
    exact e ▸ Finset.singleton_subset_iff.mpr (List.mem_toFinset.mpr (List.mem_map_of_mem hr))

theorem wr0_sub : (hostOps0 : List (HloOp τ sig (Elt F))).Forall fun op => op.writes ⊆ (wr0.map (Proc.devRef (τ := τ) .tc)).toFinset :=
  forall_writes_sub _ _ rfl
theorem wr1_sub : (hostOps1 : List (HloOp τ sig (Elt F))).Forall fun op => op.writes ⊆ (wr1.map (Proc.devRef (τ := τ) .tc)).toFinset :=
  forall_writes_sub _ _ rfl
theorem wr2_sub : (hostOps2 : List (HloOp τ sig (Elt F))).Forall fun op => op.writes ⊆ (wr2.map (Proc.devRef (τ := τ) .tc)).toFinset :=
  forall_writes_sub _ _ rfl
theorem wr3_sub : (hostOps3 : List (HloOp τ sig (Elt F))).Forall fun op => op.writes ⊆ (wr3.map (Proc.devRef (τ := τ) .tc)).toFinset :=
  forall_writes_sub _ _ rfl
theorem wr4_sub : (hostOps4 : List (HloOp τ sig (Elt F))).Forall fun op => op.writes ⊆ (wr4.map (Proc.devRef (τ := τ) .tc)).toFinset :=
  forall_writes_sub _ _ rfl
theorem wr5_sub : (hostOps5 : List (HloOp τ sig (Elt F))).Forall fun op => op.writes ⊆ (wr5.map (Proc.devRef (τ := τ) .tc)).toFinset :=
  forall_writes_sub _ _ rfl

variable (c : Dev nD) (r : Ref sig .tc)

/-- Stretch k does not write r, and r is no operand array of region k. -/
abbrev Off0 : Prop := r ∉ wr0 ∧ ∀ w, Pipeline.arrRef spec0 w ≠ r
abbrev Off1 : Prop := r ∉ wr1 ∧ ∀ w, Pipeline.arrRef spec1 w ≠ r
abbrev Off2 : Prop := r ∉ wr2 ∧ ∀ w, Pipeline.arrRef spec2 w ≠ r
abbrev Off3 : Prop := r ∉ wr3 ∧ ∀ w, Pipeline.arrRef spec3 w ≠ r
abbrev Off4 : Prop := r ∉ wr4 ∧ ∀ w, Pipeline.arrRef spec4 w ≠ r
abbrev Off5 : Prop := r ∉ wr5 ∧ ∀ w, Pipeline.arrRef spec5 w ≠ r

/-- Then r holds after region k what it held before stretch k. -/
theorem step0 (h : Off0 r) : W2 m ρ c (Proc.devRef .tc r) = W0 m ρ c (Proc.devRef .tc r) :=
  (W2_of_ne m ρ c r h.2).trans (StableHlo.after_of_writes_sub hostOps0 _ wr0_sub h.1)
theorem step1 (h : Off1 r) : W4 m ρ c (Proc.devRef .tc r) = W2 m ρ c (Proc.devRef .tc r) :=
  (W4_of_ne m ρ c r h.2).trans (StableHlo.after_of_writes_sub hostOps1 _ wr1_sub h.1)
theorem step2 (h : Off2 r) : W6 m ρ c (Proc.devRef .tc r) = W4 m ρ c (Proc.devRef .tc r) :=
  (W6_of_ne m ρ c r h.2).trans (StableHlo.after_of_writes_sub hostOps2 _ wr2_sub h.1)
theorem step3 (h : Off3 r) : W8 m ρ c (Proc.devRef .tc r) = W6 m ρ c (Proc.devRef .tc r) :=
  (W8_of_ne m ρ c r h.2).trans (StableHlo.after_of_writes_sub hostOps3 _ wr3_sub h.1)
theorem step4 (h : Off4 r) : W10 m ρ c (Proc.devRef .tc r) = W8 m ρ c (Proc.devRef .tc r) :=
  (W10_of_ne m ρ c r h.2).trans (StableHlo.after_of_writes_sub hostOps4 _ wr4_sub h.1)
theorem step5 (h : Off5 r) : W12 m ρ c (Proc.devRef .tc r) = W10 m ρ c (Proc.devRef .tc r) :=
  (W12_of_ne m ρ c r h.2).trans (StableHlo.after_of_writes_sub hostOps5 _ wr5_sub h.1)

/-- So a buffer none of the first k stretches and regions touches still holds its launch contents. -/
theorem keepW2 (h : Off0 r) : W2 m ρ c (Proc.devRef .tc r) = m ((c : Thread nD τ).loc r) := step0 m ρ c r h
theorem keepW4 (h : Off0 r ∧ Off1 r) : W4 m ρ c (Proc.devRef .tc r) = m ((c : Thread nD τ).loc r) :=
  (step1 m ρ c r h.2).trans (keepW2 m ρ c r h.1)
theorem keepW6 (h : (Off0 r ∧ Off1 r) ∧ Off2 r) : W6 m ρ c (Proc.devRef .tc r) = m ((c : Thread nD τ).loc r) :=
  (step2 m ρ c r h.2).trans (keepW4 m ρ c r h.1)
theorem keepW8 (h : ((Off0 r ∧ Off1 r) ∧ Off2 r) ∧ Off3 r) : W8 m ρ c (Proc.devRef .tc r) = m ((c : Thread nD τ).loc r) :=
  (step3 m ρ c r h.2).trans (keepW6 m ρ c r h.1)
theorem keepW10 (h : (((Off0 r ∧ Off1 r) ∧ Off2 r) ∧ Off3 r) ∧ Off4 r) : W10 m ρ c (Proc.devRef .tc r) = m ((c : Thread nD τ).loc r) :=
  (step4 m ρ c r h.2).trans (keepW8 m ρ c r h.1)
theorem keepW12 (h : ((((Off0 r ∧ Off1 r) ∧ Off2 r) ∧ Off3 r) ∧ Off4 r) ∧ Off5 r) : W12 m ρ c (Proc.devRef .tc r) = m ((c : Thread nD τ).loc r) :=
  (step5 m ρ c r h.2).trans (keepW10 m ρ c r h.1)

end Cert.Hand.K

end
-- ==== Proof.Spec.lean ====
import proofs.«425409_j25305947308735_1_alg».proof.ReferenceIdeal
import Idealize.ShloMosaic.Lib.ValueIdx
import Idealize.ShloMosaic.PureOps.Ideal

noncomputable section

namespace Cert.Hand.Spec

open Idealize.ShloMosaic Idealize.ShloMosaic.ValueIdx Cert.ReferenceIdeal
open scoped BigOperators

def c128 : EReal := Ideal.ofBits .f32 0x43000000#32

def ceps : EReal := Ideal.ofBits .f32 0x3727C5AC#32

def unix2 {a b : Nat} (f : Fin a → Fin b → EReal) : (⟨2, ![a, b]⟩ : Shape).Idx → EReal :=
  fun i => f ⟨(i 0).val, (i 0).isLt⟩ ⟨(i 1).val, (i 1).isLt⟩

theorem unix2_ix2 {a b : Nat} (f : Fin a → Fin b → EReal) (r : Fin a) (j : Fin b) : unix2 f (ix2 r j) = f r j := rfl

def rowMean (y : Fin 128 → EReal) : EReal := Ideal.div (∑ k, y k) c128

def rowVar (y : Fin 128 → EReal) : EReal := Ideal.div (∑ k, (y k - rowMean y) * (y k - rowMean y)) c128

def lnRow (y g be : Fin 128 → EReal) : Fin 128 → EReal :=
  fun j => (y j - rowMean y) * Ideal.rsqrt (rowVar y + ceps) * g j + be j

def elu (x : EReal) : EReal := if 0 < x then x else Ideal.exp x - 1

def denseRow {K : Nat} (x : Fin K → EReal) (W : Fin K → Fin 128 → EReal) (b : Fin 128 → EReal) : Fin 128 → EReal :=
  fun j => (∑ k, x k * W k j) + b j

def nodeRow (n f : Fin 128 → EReal) (d : EReal) (W : Fin 128 → Fin 128 → EReal) (b g be : Fin 128 → EReal) : Fin 128 → EReal :=
  fun j => elu (lnRow (denseRow (fun k => (n k + f k) * d) W b) g be j)

def mlpRow (x : Fin 256 → EReal) (W1 : Fin 256 → Fin 128 → EReal) (b1 g1 be1 : Fin 128 → EReal)
    (W2 : Fin 128 → Fin 128 → EReal) (b2 g2 be2 : Fin 128 → EReal) (W3 : Fin 128 → EReal) (b3 : EReal) : EReal :=
  Ideal.logistic ((∑ k, (max (lnRow (denseRow (fun k' => max (lnRow (denseRow x W1 b1) g1 be1 k') 0) W2 b2) g2 be2 k) 0) * W3 k) + b3)

variable [hRef : Cert.ReferenceIdeal.Facts]
open Cert.ReferenceIdeal.Facts₀ Cert.ReferenceIdeal.Facts

def wrapE (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

def neighOf (feats : FVec Ideal S50000x128 .f32) (src dst : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 feats (wrapE src))

def invOf (dst : IVec S800000 32) : FVec Ideal S50000 .f32 :=
  Host.divf (broadcastInDim S50000 ![] bcast_S_S50000 (constant (F := Ideal) S_ .f32 0x3F800000#32))
    (addf (Host.scatterAdd scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

def rowsOf (feats : FVec Ideal S50000x128 .f32) (idx : IVec S16384 32) : FVec Ideal S16384x128 .f32 :=
  Host.gather gather_S50000x128_S16384x1_S16384x128_1_0_n_n_0_1_1128 feats
    (broadcastInDim S16384x1 ![0] bcast_S16384_S16384x1_0
      (select (cmpi .slt idx (broadcastInDim S16384 ![] bcast_S_S16384 (constantI S_ 32 0#32)))
        (addi idx (broadcastInDim S16384 ![] bcast_S_S16384 (constantI S_ 32 50000#32))) idx))

def layerC (feats : FVec Ideal S50000x128 .f32) (src dst : IVec S800000 32) (W : FVec Ideal S3x128x128 .f32)
    (b g be : FVec Ideal S3x128 .f32) (l : Fin 3) : Fin 50000 → Fin 128 → EReal :=
  fun r => nodeRow (fun k => neighOf feats src dst (ix2 r k)) (fun k => feats (ix2 r k)) (invOf dst (ix1 r))
    (fun k j => W (ix3 l k j)) (fun j => b (ix2 l j)) (fun j => g (ix2 l j)) (fun j => be (ix2 l j))

def layerA (feats : FVec Ideal S50000x128 .f32) (src dst : IVec S800000 32) (W : FVec Ideal S3x128x128 .f32)
    (b g be : FVec Ideal S3x128 .f32) (l : Fin 3) : FVec Ideal S50000x128 .f32 :=
  unix2 (layerC feats src dst W b g be l)

def stack (emb : FVec Ideal S50000x128 .f32) (src dst : IVec S800000 32) (W : FVec Ideal S3x128x128 .f32)
    (b g be : FVec Ideal S3x128 .f32) : FVec Ideal S50000x128 .f32 :=
  layerA (layerA (layerA emb src dst W b g be 0) src dst W b g be 1) src dst W b g be 2

def headIn (U S : FVec Ideal S50000x128 .f32) (uidx iidx : IVec S16384 32) (n : Fin 16384) : Fin 256 → EReal :=
  fun k => if h : k.val < 128 then rowsOf U uidx (ix2 n ⟨k.val, h⟩)
    else rowsOf S iidx (ix2 n ⟨k.val - 128, by have := k.isLt; omega⟩)

def headC (U S : FVec Ideal S50000x128 .f32) (uidx iidx : IVec S16384 32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) (n : Fin 16384) : EReal :=
  mlpRow (headIn U S uidx iidx n) (fun k j => W1 (ix2 k j)) (fun j => b1 (ix1 j)) (fun j => g1 (ix1 j)) (fun j => be1 (ix1 j))
    (fun k j => W2 (ix2 k j)) (fun j => b2 (ix1 j)) (fun j => g2 (ix1 j)) (fun j => be2 (ix1 j))
    (fun k => W3 (ix2 k 0)) (b3 (ix1 0))

def resultC (uidx iidx : IVec S16384 32) (usrc udst ssrc sdst : IVec S800000 32)
    (uemb semb : FVec Ideal S50000x128 .f32) (Wu : FVec Ideal S3x128x128 .f32) (bu gu beu : FVec Ideal S3x128 .f32)
    (Ws : FVec Ideal S3x128x128 .f32) (bs gs bes : FVec Ideal S3x128 .f32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) (n : Fin 16384) : EReal :=
  headC (stack uemb usrc udst Wu bu gu beu) (stack semb ssrc sdst Ws bs gs bes) uidx iidx W1 b1 g1 be1 W2 b2 g2 be2 W3 b3 n

def unix1 {a : Nat} (f : Fin a → EReal) : (⟨1, ![a]⟩ : Shape).Idx → EReal := fun i => f ⟨(i 0).val, (i 0).isLt⟩

theorem unix1_ix1 {a : Nat} (f : Fin a → EReal) (n : Fin a) : unix1 f (ix1 n) = f n := rfl

def resultA (uidx iidx : IVec S16384 32) (usrc udst ssrc sdst : IVec S800000 32)
    (uemb semb : FVec Ideal S50000x128 .f32) (Wu : FVec Ideal S3x128x128 .f32) (bu gu beu : FVec Ideal S3x128 .f32)
    (Ws : FVec Ideal S3x128x128 .f32) (bs gs bes : FVec Ideal S3x128 .f32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) : FVec Ideal S16384 .f32 :=
  unix1 (resultC uidx iidx usrc udst ssrc sdst uemb semb Wu bu gu beu Ws bs gs bes W1 b1 g1 be1 W2 b2 g2 be2 W3 b3)

omit hRef in

def IdxOk (idx : IVec S16384 32) : Prop := ∀ n : Fin 16384, 0 ≤ (idx (ix1 n)).toInt ∧ (idx (ix1 n)).toInt < 50000

end Cert.Hand.Spec

end
-- ==== Proof.KNodeLayer.lean ====
import proofs.«425409_j25305947308735_1_alg».proof.Proof.Spec

noncomputable section

namespace Cert.Hand.K

open Idealize.ShloMosaic Idealize.ShloMosaic.ValueIdx Cert.ReferenceIdeal

variable [Cert.ReferenceIdeal.Facts]

theorem node_layer (n f : FVec Ideal S50000x128 .f32) (d : FVec Ideal ⟨2, ![50000, 1]⟩ .f32) (Wl : FVec Ideal ⟨2, ![128, 128]⟩ .f32)
    (bl gl bel : FVec Ideal ⟨2, ![1, 128]⟩ .f32)
    (feats : FVec Ideal S50000x128 .f32) (src dst : IVec S800000 32) (W : FVec Ideal S3x128x128 .f32) (b g be : FVec Ideal S3x128 .f32)
    (l : Fin 3) (hn : n = Spec.neighOf feats src dst) (hf : f = feats) (hd : ∀ r : Fin 50000, d (ix2 r 0) = Spec.invOf dst (ix1 r))
    (hW : ∀ k j : Fin 128, Wl (ix2 k j) = W (ix3 l k j)) (hb : ∀ j : Fin 128, bl (ix2 0 j) = b (ix2 l j))
    (hg : ∀ j : Fin 128, gl (ix2 0 j) = g (ix2 l j)) (hbe : ∀ j : Fin 128, bel (ix2 0 j) = be (ix2 l j)) :
    Spec.unix2 (fun r : Fin 50000 => Spec.nodeRow (fun k => n (ix2 r k)) (fun k => f (ix2 r k)) (d (ix2 r 0)) (fun k j => Wl (ix2 k j))
      (fun j => bl (ix2 0 j)) (fun j => gl (ix2 0 j)) (fun j => bel (ix2 0 j)))
      = Spec.layerA feats src dst W b g be l := by
  subst hn hf
  unfold Spec.layerA Spec.layerC
  refine congrArg Spec.unix2 (funext fun r => ?_)
  simp only [hd, hW, hb, hg, hbe]

end Cert.Hand.K

end
-- ==== Proof.KLayout.lean ====
import Idealize.ShloMosaic.Lib.ValueLayout

namespace Cert.Hand.K

open Idealize.ShloMosaic Idealize.ShloMosaic.ValueIdx

variable {α : Type}

theorem row_read {n : ℕ} (x : (⟨2, ![3, n]⟩ : Shape).Idx → α) (l : Fin 3)
    (hs : (⟨2, ![3, n]⟩ : Shape).Slices ![l.val, 0] ⟨2, ![1, n]⟩) (h1 : (⟨2, ![1, n]⟩ : Shape).ShapeCasts ⟨1, ![n]⟩)
    (h2 : (⟨1, ![n]⟩ : Shape).ShapeCasts ⟨2, ![1, n]⟩) (u : Fin 1) (j : Fin n) :
    shapeCast ⟨2, ![1, n]⟩ (shapeCast ⟨1, ![n]⟩ (extractStridedSlice ⟨2, ![1, n]⟩ ![l.val, 0] x hs) h1) h2 (ix2 u j)
      = x (ix2 l j) := by
  rw [shapeCast_a_1a_apply, shapeCast_1a_a_apply]
  exact extractStridedSlice_apply _ x hs _ _ (by intro a; fin_cases a <;> simp [ix2])

theorem mat_read {a b : ℕ} (x : (⟨3, ![3, a, b]⟩ : Shape).Idx → α) (l : Fin 3)
    (hs : (⟨3, ![3, a, b]⟩ : Shape).Slices ![l.val, 0, 0] ⟨3, ![1, a, b]⟩)
    (h1 : (⟨3, ![1, a, b]⟩ : Shape).ShapeCasts ⟨2, ![a, b]⟩) (k : Fin a) (j : Fin b) :
    shapeCast ⟨2, ![a, b]⟩ (extractStridedSlice ⟨3, ![1, a, b]⟩ ![l.val, 0, 0] x hs) h1 (ix2 k j) = x (ix3 l k j) := by
  rw [shapeCast_1ab_ab_apply]
  exact extractStridedSlice_apply _ x hs _ _ (by intro a; fin_cases a <;> simp [ix3])

theorem col_read {n : ℕ} (x : (⟨1, ![n]⟩ : Shape).Idx → α) (h : (⟨1, ![n]⟩ : Shape).ShapeCasts ⟨2, ![n, 1]⟩)
    (r : Fin n) (u : Fin 1) : shapeCast ⟨2, ![n, 1]⟩ x h (ix2 r u) = x (ix1 r) :=
  shapeCast_apply x h _ _ (by
    rw [Shape.rowMajor_val_one, Shape.rowMajor_val_two]
    show r.val = r.val * 1 + u.val
    omega)

end Cert.Hand.K
-- ==== Proof.KStretch0.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s0_neigh : V1 m ρ c main_v18 = Spec.neighOf (W0 m ρ c (Proc.devRef .tc main_arg6)) (W0 m ρ c (Proc.devRef .tc main_arg2))
    (W0 m ρ c (Proc.devRef .tc main_arg3)) := by
  show StableHlo.after hostOps0 (W0 m ρ c) (Proc.devRef .tc main_v18) = _
  after_results_simp
  rfl

theorem s0_feats : V1 m ρ c main_arg6 = W0 m ρ c (Proc.devRef .tc main_arg6) := by
  show StableHlo.after hostOps0 (W0 m ρ c) (Proc.devRef .tc main_arg6) = _
  after_results_simp

theorem s0_inv (r : Fin 50000) : V1 m ρ c main_v8 (ix2 r 0)
    = Spec.invOf (W0 m ρ c (Proc.devRef .tc main_arg3)) (ix1 r) := by
  show StableHlo.after hostOps0 (W0 m ρ c) (Proc.devRef .tc main_v8) (ix2 r 0) = _
  after_results_simp
  exact col_read _ _ r 0

theorem s0_W (k j : Fin 128) : V1 m ρ c main_v20 (ix2 k j)
    = W0 m ρ c (Proc.devRef .tc main_arg8) (ix3 0 k j) := by
  show StableHlo.after hostOps0 (W0 m ρ c) (Proc.devRef .tc main_v20) (ix2 k j) = _
  after_results_simp
  exact mat_read _ 0 _ _ k j

theorem s0_b (j : Fin 128) : V1 m ρ c main_v27 (ix2 0 j)
    = W0 m ρ c (Proc.devRef .tc main_arg9) (ix2 0 j) := by
  show StableHlo.after hostOps0 (W0 m ρ c) (Proc.devRef .tc main_v27) (ix2 0 j) = _
  after_results_simp
  exact row_read _ 0 _ _ _ 0 j
theorem s0_g (j : Fin 128) : V1 m ρ c main_v28 (ix2 0 j)
    = W0 m ρ c (Proc.devRef .tc main_arg10) (ix2 0 j) := by
  show StableHlo.after hostOps0 (W0 m ρ c) (Proc.devRef .tc main_v28) (ix2 0 j) = _
  after_results_simp
  exact row_read _ 0 _ _ _ 0 j
theorem s0_be (j : Fin 128) : V1 m ρ c main_v29 (ix2 0 j)
    = W0 m ρ c (Proc.devRef .tc main_arg11) (ix2 0 j) := by
  show StableHlo.after hostOps0 (W0 m ρ c) (Proc.devRef .tc main_v29) (ix2 0 j) = _
  after_results_simp
  exact row_read _ 0 _ _ _ 0 j

end Cert.Hand.K

end
-- ==== Proof.KStretch1.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s1_neigh : V3 m ρ c main_v40 = Spec.neighOf (W2 m ρ c (Proc.devRef .tc main_v30)) (W2 m ρ c (Proc.devRef .tc main_arg2))
    (W2 m ρ c (Proc.devRef .tc main_arg3)) := by
  show StableHlo.after hostOps1 (W2 m ρ c) (Proc.devRef .tc main_v40) = _
  after_results_simp
  rfl

theorem s1_feats : V3 m ρ c main_v30 = W2 m ρ c (Proc.devRef .tc main_v30) := by
  show StableHlo.after hostOps1 (W2 m ρ c) (Proc.devRef .tc main_v30) = _
  after_results_simp

theorem s1_inv : V3 m ρ c main_v8 = W2 m ρ c (Proc.devRef .tc main_v8) := by
  show StableHlo.after hostOps1 (W2 m ρ c) (Proc.devRef .tc main_v8) = _
  after_results_simp

theorem s1_W (k j : Fin 128) : V3 m ρ c main_v42 (ix2 k j)
    = W2 m ρ c (Proc.devRef .tc main_arg8) (ix3 1 k j) := by
  show StableHlo.after hostOps1 (W2 m ρ c) (Proc.devRef .tc main_v42) (ix2 k j) = _
  after_results_simp
  exact mat_read _ 1 _ _ k j

theorem s1_b (j : Fin 128) : V3 m ρ c main_v49 (ix2 0 j)
    = W2 m ρ c (Proc.devRef .tc main_arg9) (ix2 1 j) := by
  show StableHlo.after hostOps1 (W2 m ρ c) (Proc.devRef .tc main_v49) (ix2 0 j) = _
  after_results_simp
  exact row_read _ 1 _ _ _ 0 j
theorem s1_g (j : Fin 128) : V3 m ρ c main_v50 (ix2 0 j)
    = W2 m ρ c (Proc.devRef .tc main_arg10) (ix2 1 j) := by
  show StableHlo.after hostOps1 (W2 m ρ c) (Proc.devRef .tc main_v50) (ix2 0 j) = _
  after_results_simp
  exact row_read _ 1 _ _ _ 0 j
theorem s1_be (j : Fin 128) : V3 m ρ c main_v51 (ix2 0 j)
    = W2 m ρ c (Proc.devRef .tc main_arg11) (ix2 1 j) := by
  show StableHlo.after hostOps1 (W2 m ρ c) (Proc.devRef .tc main_v51) (ix2 0 j) = _
  after_results_simp
  exact row_read _ 1 _ _ _ 0 j

end Cert.Hand.K

end
-- ==== Proof.KStretch2.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s2_neigh : V5 m ρ c main_v62 = Spec.neighOf (W4 m ρ c (Proc.devRef .tc main_v52)) (W4 m ρ c (Proc.devRef .tc main_arg2))
    (W4 m ρ c (Proc.devRef .tc main_arg3)) := by
  show StableHlo.after hostOps2 (W4 m ρ c) (Proc.devRef .tc main_v62) = _
  after_results_simp
  rfl

theorem s2_feats : V5 m ρ c main_v52 = W4 m ρ c (Proc.devRef .tc main_v52) := by
  show StableHlo.after hostOps2 (W4 m ρ c) (Proc.devRef .tc main_v52) = _
  after_results_simp

theorem s2_inv : V5 m ρ c main_v8 = W4 m ρ c (Proc.devRef .tc main_v8) := by
  show StableHlo.after hostOps2 (W4 m ρ c) (Proc.devRef .tc main_v8) = _
  after_results_simp

theorem s2_W (k j : Fin 128) : V5 m ρ c main_v64 (ix2 k j)
    = W4 m ρ c (Proc.devRef .tc main_arg8) (ix3 2 k j) := by
  show StableHlo.after hostOps2 (W4 m ρ c) (Proc.devRef .tc main_v64) (ix2 k j) = _
  after_results_simp
  exact mat_read _ 2 _ _ k j

theorem s2_b (j : Fin 128) : V5 m ρ c main_v71 (ix2 0 j)
    = W4 m ρ c (Proc.devRef .tc main_arg9) (ix2 2 j) := by
  show StableHlo.after hostOps2 (W4 m ρ c) (Proc.devRef .tc main_v71) (ix2 0 j) = _
  after_results_simp
  exact row_read _ 2 _ _ _ 0 j
theorem s2_g (j : Fin 128) : V5 m ρ c main_v72 (ix2 0 j)
    = W4 m ρ c (Proc.devRef .tc main_arg10) (ix2 2 j) := by
  show StableHlo.after hostOps2 (W4 m ρ c) (Proc.devRef .tc main_v72) (ix2 0 j) = _
  after_results_simp
  exact row_read _ 2 _ _ _ 0 j
theorem s2_be (j : Fin 128) : V5 m ρ c main_v73 (ix2 0 j)
    = W4 m ρ c (Proc.devRef .tc main_arg11) (ix2 2 j) := by
  show StableHlo.after hostOps2 (W4 m ρ c) (Proc.devRef .tc main_v73) (ix2 0 j) = _
  after_results_simp
  exact row_read _ 2 _ _ _ 0 j

end Cert.Hand.K

end
-- ==== Proof.KNodePay.lean ====
import proofs.«425409_j25305947308735_1_alg».proof.Proof.Gen.KernelIdeal.Frame
import proofs.«425409_j25305947308735_1_alg».proof.Proof.Spec
import Idealize.ShloMosaic.Lib.ValueLayout
import Idealize.ShloMosaic.PureOps.Ideal.Laws
import Idealize.ShloMosaic.Lib.StackMember

noncomputable section

namespace Cert.Hand.K.Node

open Idealize.ShloMosaic Idealize.ShloMosaic.ValueIdx Cert.KernelIdeal Cert.KernelIdeal.Gen

/-- A vector cast to a column reads, at row p, the vector's entry p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    rw [Shape.rowMajor_val_two, Shape.rowMajor_val_one]
    show p.val = p.val * 1 + u.val
    omega)

/-- A column broadcast along the rows reads, at (p, c), the column's entry p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum along the row of a block of 5000 rows reads, at p, the sum of row p. -/
theorem rowSum5000 (src : FVec Ideal S5000x128 .f32) (hφ : FTy.f32 = FTy.f32 ∨ FTy.f32 = FTy.bf16)
    (hacc : (0x00000000#32 : BitVec 32) = 0x00000000#32) (p : Fin 5000) :
    multiReduction .add [1] S5000 src 0x00000000#32 Gen.reduces_S5000x128_S5000 hφ hacc (ix1 p) = ∑ k : Fin 128, src (ix2 p k) :=
  (Ideal.multiReduction_add_single src _ _ hφ hacc (ix1 p)).trans
    (Finset.sum_congr rfl fun k _ => congrArg src (Shape.idx_ext₂ rfl rfl))

/-- The product of a block of rows with the square matrix, from zero, reads at (p, q) the sum over k of the products. -/
theorem matmul_zero_apply (A : FVec Ideal S5000x128 .bf16) (B : FVec Ideal S128x128 .bf16) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) :=
  (congrFun (matmul_zero_eq_dotGeneral _ none A B) _).trans (StackMember.dotGeneral_plain_apply none A B p q)

theorem rsqrt_apply {s : Shape} {φ : FTy} (x : FVec Ideal s φ) (i : s.Idx) : rsqrt x i = Ideal.rsqrt (x i) := rfl
theorem exp_apply {s : Shape} {φ : FTy} (x : FVec Ideal s φ) (i : s.Idx) : exp x i = Ideal.exp (x i) := rfl

/-- Selecting between an entry and its exponential minus one by the sign of the entry is the exponential linear unit. -/
theorem elu_select (a : Ideal .f32) :
    Scalar.select (FloatOps.cmpf .ogt a (FloatOps.ofBits .f32 0x00000000#32)) a
      (Ideal.exp a - FloatOps.ofBits (F := Ideal) .f32 0x3F800000#32) = Spec.elu a := by
  have h1 : Ideal.ofBits .f32 0x3F800000#32 = 1 := IdealRules.sign_bit.ideal_onePat .f32
  show Scalar.select (Ideal.cmp .ogt a (Ideal.ofBits .f32 0x00000000#32)) a (Ideal.exp a - Ideal.ofBits .f32 0x3F800000#32) = _
  rw [Ideal.ofBits_zero_f32, h1]
  unfold Spec.elu Scalar.select Ideal.cmp
  by_cases h : 0 < a <;> simp [h]

theorem off00 : (![0, 0] : Fin 2 → Nat) = fun _ => 0 := funext fun a => by fin_cases a <;> rfl

/-- The block the body leaves, at row p and column q, is the specification's row formula on row p of the operand blocks. -/
theorem out_apply (x0 x1 : Vec Ideal S5000x128 .f32) (x2 : Vec Ideal S5000x1 .f32) (x3 : Vec Ideal S128x128 .f32)
    (x4 x5 x6 : Vec Ideal S1x128 .f32) (p : Fin 5000) (q : Fin 128) :
    out0_7 x0 x1 x2 x3 x4 x5 x6 (ix2 p q)
      = Spec.nodeRow (fun k => x0 (ix2 p k)) (fun k => x1 (ix2 p k)) (x2 (ix2 p 0)) (fun k j => x3 (ix2 k j))
          (fun j => x4 (ix2 0 j)) (fun j => x5 (ix2 0 j)) (fun j => x6 (ix2 0 j)) q := by
  unfold out0_7
  rw [View.canon_unit_zero off00]
  simp only [View.ld_unit_zero (S := S5000x128) off00, View.ld_unit_zero (S := S5000x1) off00,
    View.ld_unit_zero (S := S128x128) off00, View.ld_unit_zero (S := S1x128) off00]
  unfold k0_pay1 k0_pay2
  repeat (first
    | rw [rowSum5000]
    | simp only [shapeCast_self, mulf_apply, addf_apply, subf_apply, divf_apply, truncf_apply, broadcast_apply,
        rsqrt_apply, exp_apply, select_apply, cmpf_apply, broadcastTo_a1_ab_apply, broadcastTo_1b_ab_apply,
        shapeCast_a_a1_apply, matmul_zero_apply])
  refine (elu_select _).trans ?_
  unfold Spec.nodeRow
  refine congrArg Spec.elu ?_
  simp only [Spec.lnRow, Spec.rowVar, Spec.rowMean, Spec.denseRow, Spec.c128, Spec.ceps] <;> rfl

/-- Regions 1, 2, 4 and 5 cast the feature block to its own shape and then run the body of region 0; region 3 runs it as it is. -/
theorem out1_7_eq : @out1_7 Ideal _ = out0_7 := by
  funext x0 x1 x2 x3 x4 x5 x6
  unfold out1_7 out0_7 k1_pay2 k0_pay2
  simp only [shapeCast_self]
  rfl
theorem out2_7_eq : @out2_7 Ideal _ = out0_7 := out1_7_eq
theorem out3_7_eq : @out3_7 Ideal _ = out0_7 := rfl
theorem out4_7_eq : @out4_7 Ideal _ = out0_7 := out1_7_eq
theorem out5_7_eq : @out5_7 Ideal _ = out0_7 := out1_7_eq

/-- The array whose row r is the node update of row r of the operand arrays. -/
abbrev G (A0 A1 : Vec Ideal S50000x128 .f32) (A2 : Vec Ideal S50000x1 .f32) (A3 : Vec Ideal S128x128 .f32)
    (A4 A5 A6 : Vec Ideal S1x128 .f32) : Vec Ideal S50000x128 .f32 :=
  Spec.unix2 fun r => Spec.nodeRow (fun k => A0 (ix2 r k)) (fun k => A1 (ix2 r k)) (A2 (ix2 r 0))
    (fun k j => A3 (ix2 k j)) (fun j => A4 (ix2 0 j)) (fun j => A5 (ix2 0 j)) (fun j => A6 (ix2 0 j))

/-- The map e sends entry (x, y) of a block of n0 by n1 entries to entry (I 0 * n0 + x, I 1 * n1 + y) of its array. -/
abbrev Places {n0 n1 N0 N1 : ℕ} (e : (⟨2, ![n0, n1]⟩ : Shape).Idx → (⟨2, ![N0, N1]⟩ : Shape).Idx) (I : Fin 2 → ℕ) : Prop :=
  ∀ x y, (e (ix2 x y) 0).val = I 0 * n0 + 1 * x.val ∧ (e (ix2 x y) 1).val = I 1 * n1 + 1 * y.val

theorem Places.eq {n0 n1 N0 N1 : ℕ} {e : (⟨2, ![n0, n1]⟩ : Shape).Idx → (⟨2, ![N0, N1]⟩ : Shape).Idx} {I : Fin 2 → ℕ}
    (h : Places e I) {x : Fin n0} {y : Fin n1} {X : Fin N0} {Y : Fin N1} (hx : I 0 * n0 + 1 * x.val = X.val)
    (hy : I 1 * n1 + 1 * y.val = Y.val) : e (ix2 x y) = ix2 X Y :=
  Shape.idx_ext₂ ((h x y).1.trans hx) ((h x y).2.trans hy)

/-- At point T the result and the three long operands are at block T along the rows; the matrix and the three rows stay. -/
abbrev IdxAt (T : ℕ) (I0 I1 I2 I3 I4 I5 I6 I7 : Fin 2 → ℕ) : Prop :=
  (I7 0 = T ∧ I7 1 = 0) ∧ I0 0 = T ∧ I0 1 = 0 ∧ I1 0 = T ∧ I1 1 = 0 ∧ I2 0 = T ∧ I2 1 = 0 ∧ I3 0 = 0 ∧ I3 1 = 0
    ∧ I4 0 = 0 ∧ I4 1 = 0 ∧ I5 0 = 0 ∧ I5 1 = 0 ∧ I6 0 = 0 ∧ I6 1 = 0

/-- Row p of every block at point T is row 5000 T + p of its array, so the body's result there is that row of G. -/
theorem row {A0 A1 : Vec Ideal S50000x128 .f32} {A2 : Vec Ideal S50000x1 .f32} {A3 : Vec Ideal S128x128 .f32}
    {A4 A5 A6 : Vec Ideal S1x128 .f32} {T : ℕ} {I0 I1 I2 I3 I4 I5 I6 I7 : Fin 2 → ℕ}
    (hI : IdxAt T I0 I1 I2 I3 I4 I5 I6 I7)
    {e0 e1 e7 : S5000x128.Idx → S50000x128.Idx} {e2 : S5000x1.Idx → S50000x1.Idx} {e3 : S128x128.Idx → S128x128.Idx}
    {e4 e5 e6 : S1x128.Idx → S1x128.Idx} (h0 : Places e0 I0) (h1 : Places e1 I1) (h2 : Places e2 I2) (h3 : Places e3 I3)
    (h4 : Places e4 I4) (h5 : Places e5 I5) (h6 : Places e6 I6) (h7 : Places e7 I7) (j : S5000x128.Idx) :
    out0_7 (fun j => A0 (e0 j)) (fun j => A1 (e1 j)) (fun j => A2 (e2 j)) (fun j => A3 (e3 j)) (fun j => A4 (e4 j))
      (fun j => A5 (e5 j)) (fun j => A6 (e6 j)) j = G A0 A1 A2 A3 A4 A5 A6 (e7 j) := by
  obtain ⟨⟨g0, g1⟩, a0, a1, b0, b1, c0, c1, d0, d1, f0, f1, m0, m1, n0, n1⟩ := hI
  obtain ⟨p, q, rfl⟩ : ∃ p q, j = ix2 p q := ⟨j 0, j 1, eq_ix2 j⟩
  obtain ⟨r0, r1⟩ := h7 p q
  have hq : q = e7 (ix2 p q) 1 := Fin.ext (by omega)
  have E0 k : e0 (ix2 p k) = ix2 (e7 (ix2 p q) 0) k := h0.eq (by omega) (by omega)
  have E1 k : e1 (ix2 p k) = ix2 (e7 (ix2 p q) 0) k := h1.eq (by omega) (by omega)
  have E2 : e2 (ix2 p 0) = ix2 (e7 (ix2 p q) 0) 0 := h2.eq (by omega) (by omega)
  have E3 k j : e3 (ix2 k j) = ix2 k j := h3.eq (by omega) (by omega)
  have E4 j : e4 (ix2 0 j) = ix2 0 j := h4.eq (by omega) (by omega)
  have E5 j : e5 (ix2 0 j) = ix2 0 j := h5.eq (by omega) (by omega)
  have E6 j : e6 (ix2 0 j) = ix2 0 j := h6.eq (by omega) (by omega)
  rw [out_apply]
  simp only [E0, E1, E2, E3, E4, E5, E6]
  exact congrArg _ hq

/-- Row r of the result array is row r % 5000 of the block of point r / 5000. -/
theorem cover {N : ℕ} (hN : N = 10) {I : Fin N → Fin 2 → ℕ} {e : Fin N → S5000x128.Idx → S50000x128.Idx}
    (hI : ∀ t, I t 0 = t.val ∧ I t 1 = 0) (he : ∀ t, Places (e t) (I t)) (i : S50000x128.Idx) : ∃ t y, e t y = i := by
  obtain ⟨a, b, rfl⟩ : ∃ a b, i = ix2 a b := ⟨i 0, i 1, eq_ix2 i⟩
  have ha := a.isLt
  obtain ⟨t, ht⟩ : ∃ t : Fin N, t.val = a.val / 5000 := ⟨⟨a.val / 5000, by omega⟩, rfl⟩
  obtain ⟨u0, u1⟩ := hI t
  exact ⟨t, ix2 ⟨a.val % 5000, by omega⟩ b, (he t).eq (by show I t 0 * 5000 + 1 * (a.val % 5000) = a.val; omega) (by omega)⟩

end Cert.Hand.K.Node

end
-- ==== Proof.KRegion0.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R0

/-- Row r is the node update of row r of the operand arrays as the region finds them. -/
abbrev G (c : Dev nD) : Vec Ideal S50000x128 .f32 :=
  Node.G (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5))
    (V c (Pipeline.arrRef spec0 6))

theorem idx_facts : ∀ t : Fin cfg0.N, Node.IdxAt t.val (win0_0.index t) (win0_1.index t) (win0_2.index t)
    (win0_3.index t) (win0_4.index t) (win0_5.index t) (win0_6.index t) (win0_7.index t) :=
  (by decide +kernel : ∀ t : Fin grid0.N, _)

end R0

/-- Each point's result is its block of G, and the ten blocks cover the result array. -/
theorem final0 (c : Dev nD) : (dat0 V c).arrAt 7 cfg0.N = R0.G V c :=
  (dat0 V c).arrAt_eq_of_cover 7 (R0.G V c)
    (fun t _ => by
      show (cfg0.win 7).cut (grid0.coords t) ((dat0 V c).after 7 t) = _
      rw [after0_7]
      exact funext (Node.row (R0.idx_facts t) (e0 := ((cfg0.win 0).blk t).view.emb) (e1 := ((cfg0.win 1).blk t).view.emb)
        (e2 := ((cfg0.win 2).blk t).view.emb) (e3 := ((cfg0.win 3).blk t).view.emb) (e4 := ((cfg0.win 4).blk t).view.emb)
        (e5 := ((cfg0.win 5).blk t).view.emb) (e6 := ((cfg0.win 6).blk t).view.emb) (e7 := ((cfg0.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_0 (fun t => (R0.idx_facts t).1) (e := fun t => ((cfg0.win 7).blk t).view.emb)
        (fun _ _ _ => ⟨rfl, rfl⟩) i
      exact ⟨t, flush0_7 t, View.emb_mem_set _ y⟩

end Cert.Hand.K

end
-- ==== Proof.KRegion1.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R1

/-- Row r is the node update of row r of the operand arrays as the region finds them. -/
abbrev G (c : Dev nD) : Vec Ideal S50000x128 .f32 :=
  Node.G (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6))

theorem idx_facts : ∀ t : Fin cfg1.N, Node.IdxAt t.val (win1_0.index t) (win1_1.index t) (win1_2.index t)
    (win1_3.index t) (win1_4.index t) (win1_5.index t) (win1_6.index t) (win1_7.index t) :=
  (by decide +kernel : ∀ t : Fin grid1.N, _)

end R1

/-- Each point's result is its block of G, and the ten blocks cover the result array. -/
theorem final1 (c : Dev nD) : (dat1 V c).arrAt 7 cfg1.N = R1.G V c :=
  (dat1 V c).arrAt_eq_of_cover 7 (R1.G V c)
    (fun t _ => by
      show (cfg1.win 7).cut (grid1.coords t) ((dat1 V c).after 7 t) = _
      rw [after1_7, Node.out1_7_eq]
      exact funext (Node.row (R1.idx_facts t) (e0 := ((cfg1.win 0).blk t).view.emb) (e1 := ((cfg1.win 1).blk t).view.emb)
        (e2 := ((cfg1.win 2).blk t).view.emb) (e3 := ((cfg1.win 3).blk t).view.emb) (e4 := ((cfg1.win 4).blk t).view.emb)
        (e5 := ((cfg1.win 5).blk t).view.emb) (e6 := ((cfg1.win 6).blk t).view.emb) (e7 := ((cfg1.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_1 (fun t => (R1.idx_facts t).1) (e := fun t => ((cfg1.win 7).blk t).view.emb)
        (fun _ _ _ => ⟨rfl, rfl⟩) i
      exact ⟨t, flush1_7 t, View.emb_mem_set _ y⟩

end Cert.Hand.K

end
-- ==== Proof.KRegion2.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R2

/-- Row r is the node update of row r of the operand arrays as the region finds them. -/
abbrev G (c : Dev nD) : Vec Ideal S50000x128 .f32 :=
  Node.G (V c (Pipeline.arrRef spec2 0)) (V c (Pipeline.arrRef spec2 1)) (V c (Pipeline.arrRef spec2 2))
    (V c (Pipeline.arrRef spec2 3)) (V c (Pipeline.arrRef spec2 4)) (V c (Pipeline.arrRef spec2 5))
    (V c (Pipeline.arrRef spec2 6))

theorem idx_facts : ∀ t : Fin cfg2.N, Node.IdxAt t.val (win2_0.index t) (win2_1.index t) (win2_2.index t)
    (win2_3.index t) (win2_4.index t) (win2_5.index t) (win2_6.index t) (win2_7.index t) :=
  (by decide +kernel : ∀ t : Fin grid2.N, _)

end R2

/-- Each point's result is its block of G, and the ten blocks cover the result array. -/
theorem final2 (c : Dev nD) : (dat2 V c).arrAt 7 cfg2.N = R2.G V c :=
  (dat2 V c).arrAt_eq_of_cover 7 (R2.G V c)
    (fun t _ => by
      show (cfg2.win 7).cut (grid2.coords t) ((dat2 V c).after 7 t) = _
      rw [after2_7, Node.out2_7_eq]
      exact funext (Node.row (R2.idx_facts t) (e0 := ((cfg2.win 0).blk t).view.emb) (e1 := ((cfg2.win 1).blk t).view.emb)
        (e2 := ((cfg2.win 2).blk t).view.emb) (e3 := ((cfg2.win 3).blk t).view.emb) (e4 := ((cfg2.win 4).blk t).view.emb)
        (e5 := ((cfg2.win 5).blk t).view.emb) (e6 := ((cfg2.win 6).blk t).view.emb) (e7 := ((cfg2.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_2 (fun t => (R2.idx_facts t).1) (e := fun t => ((cfg2.win 7).blk t).view.emb)
        (fun _ _ _ => ⟨rfl, rfl⟩) i
      exact ⟨t, flush2_7 t, View.emb_mem_set _ y⟩

end Cert.Hand.K

end
-- ==== Proof.KUser.lean ====
import proofs.«425409_j25305947308735_1_alg».proof.Proof.KKeep
import proofs.«425409_j25305947308735_1_alg».proof.Proof.KNodeLayer
import proofs.«425409_j25305947308735_1_alg».proof.Proof.KStretch0
import proofs.«425409_j25305947308735_1_alg».proof.Proof.KStretch1
import proofs.«425409_j25305947308735_1_alg».proof.Proof.KStretch2
import proofs.«425409_j25305947308735_1_alg».proof.Proof.KRegion0
import proofs.«425409_j25305947308735_1_alg».proof.Proof.KRegion1
import proofs.«425409_j25305947308735_1_alg».proof.Proof.KRegion2

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem v8_W2 : W2 m ρ c (Proc.devRef .tc main_v8) = V1 m ρ c main_v8 :=
  (W2_arr m ρ c 2).trans (((dat0 (V1 m ρ) c).arrAt_in 2 rfl _).trans (A_eq0 (V1 m ρ) c 2))
theorem v8_W4 : W4 m ρ c (Proc.devRef .tc main_v8) = V1 m ρ c main_v8 :=
  (W4_arr m ρ c 2).trans (((dat1 (V3 m ρ) c).arrAt_in 2 rfl _).trans ((A_eq1 (V3 m ρ) c 2).trans
    ((StableHlo.after_of_writes_sub hostOps1 _ wr1_sub (by decide)).trans (v8_W2 m ρ c))))

theorem user0 : V2 m ρ c main_v30 = Spec.layerA (m ((c : Thread nD τ).loc main_arg6)) (m ((c : Thread nD τ).loc main_arg2))
    (m ((c : Thread nD τ).loc main_arg3)) (m ((c : Thread nD τ).loc main_arg8)) (m ((c : Thread nD τ).loc main_arg9))
    (m ((c : Thread nD τ).loc main_arg10)) (m ((c : Thread nD τ).loc main_arg11)) 0 := by
  refine (W2_arr m ρ c 7).trans ((final0 (V1 m ρ) c).trans ?_)
  exact node_layer (V1 m ρ c main_v18) (V1 m ρ c main_arg6) (V1 m ρ c main_v8) (V1 m ρ c main_v20) (V1 m ρ c main_v27)
    (V1 m ρ c main_v28) (V1 m ρ c main_v29) _ _ _ _ _ _ _ 0
    (s0_neigh m ρ c) (s0_feats m ρ c) (s0_inv m ρ c) (s0_W m ρ c) (s0_b m ρ c) (s0_g m ρ c) (s0_be m ρ c)

theorem user1 : V4 m ρ c main_v52 = Spec.layerA (V2 m ρ c main_v30) (m ((c : Thread nD τ).loc main_arg2))
    (m ((c : Thread nD τ).loc main_arg3)) (m ((c : Thread nD τ).loc main_arg8)) (m ((c : Thread nD τ).loc main_arg9))
    (m ((c : Thread nD τ).loc main_arg10)) (m ((c : Thread nD τ).loc main_arg11)) 1 := by
  refine (W4_arr m ρ c 7).trans ((final1 (V3 m ρ) c).trans ?_)
  refine node_layer (V3 m ρ c main_v40) (V3 m ρ c main_v30) (V3 m ρ c main_v8) (V3 m ρ c main_v42) (V3 m ρ c main_v49)
    (V3 m ρ c main_v50) (V3 m ρ c main_v51) _ _ _ _ _ _ _ 1 ?_ (s1_feats m ρ c) ?_ ?_ ?_ ?_ ?_
  · rw [s1_neigh, keepW2 m ρ c main_arg2 (by decide), keepW2 m ρ c main_arg3 (by decide)]
  · exact fun r => (congrFun ((s1_inv m ρ c).trans (v8_W2 m ρ c)) _).trans (s0_inv m ρ c r)
  · exact fun k j => (s1_W m ρ c k j).trans (congrFun (keepW2 m ρ c main_arg8 (by decide)) _)
  · exact fun j => (s1_b m ρ c j).trans (congrFun (keepW2 m ρ c main_arg9 (by decide)) _)
  · exact fun j => (s1_g m ρ c j).trans (congrFun (keepW2 m ρ c main_arg10 (by decide)) _)
  · exact fun j => (s1_be m ρ c j).trans (congrFun (keepW2 m ρ c main_arg11 (by decide)) _)

theorem user2 : V6 m ρ c main_v74 = Spec.layerA (V4 m ρ c main_v52) (m ((c : Thread nD τ).loc main_arg2))
    (m ((c : Thread nD τ).loc main_arg3)) (m ((c : Thread nD τ).loc main_arg8)) (m ((c : Thread nD τ).loc main_arg9))
    (m ((c : Thread nD τ).loc main_arg10)) (m ((c : Thread nD τ).loc main_arg11)) 2 := by
  refine (W6_arr m ρ c 7).trans ((final2 (V5 m ρ) c).trans ?_)
  refine node_layer (V5 m ρ c main_v62) (V5 m ρ c main_v52) (V5 m ρ c main_v8) (V5 m ρ c main_v64) (V5 m ρ c main_v71)
    (V5 m ρ c main_v72) (V5 m ρ c main_v73) _ _ _ _ _ _ _ 2 ?_ (s2_feats m ρ c) ?_ ?_ ?_ ?_ ?_
  · rw [s2_neigh, keepW4 m ρ c main_arg2 (by decide), keepW4 m ρ c main_arg3 (by decide)]
  · exact fun r => (congrFun ((s2_inv m ρ c).trans (v8_W4 m ρ c)) _).trans (s0_inv m ρ c r)
  · exact fun k j => (s2_W m ρ c k j).trans (congrFun (keepW4 m ρ c main_arg8 (by decide)) _)
  · exact fun j => (s2_b m ρ c j).trans (congrFun (keepW4 m ρ c main_arg9 (by decide)) _)
  · exact fun j => (s2_g m ρ c j).trans (congrFun (keepW4 m ρ c main_arg10 (by decide)) _)
  · exact fun j => (s2_be m ρ c j).trans (congrFun (keepW4 m ρ c main_arg11 (by decide)) _)

theorem user_stack : V6 m ρ c main_v74 = Spec.stack (m ((c : Thread nD τ).loc main_arg6)) (m ((c : Thread nD τ).loc main_arg2))
    (m ((c : Thread nD τ).loc main_arg3)) (m ((c : Thread nD τ).loc main_arg8)) (m ((c : Thread nD τ).loc main_arg9))
    (m ((c : Thread nD τ).loc main_arg10)) (m ((c : Thread nD τ).loc main_arg11)) := by
  rw [user2, user1, user0]
  rfl

end Cert.Hand.K

end
-- ==== Proof.KStretch3.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s3_neigh : V7 m ρ c main_v93 = Spec.neighOf (W6 m ρ c (Proc.devRef .tc main_arg7)) (W6 m ρ c (Proc.devRef .tc main_arg4))
    (W6 m ρ c (Proc.devRef .tc main_arg5)) := by
  show StableHlo.after hostOps3 (W6 m ρ c) (Proc.devRef .tc main_v93) = _
  after_results_simp
  rfl

theorem s3_feats : V7 m ρ c main_arg7 = W6 m ρ c (Proc.devRef .tc main_arg7) := by
  show StableHlo.after hostOps3 (W6 m ρ c) (Proc.devRef .tc main_arg7) = _
  after_results_simp

theorem s3_inv (r : Fin 50000) : V7 m ρ c main_v83 (ix2 r 0)
    = Spec.invOf (W6 m ρ c (Proc.devRef .tc main_arg5)) (ix1 r) := by
  show StableHlo.after hostOps3 (W6 m ρ c) (Proc.devRef .tc main_v83) (ix2 r 0) = _
  after_results_simp
  exact col_read _ _ r 0

theorem s3_W (k j : Fin 128) : V7 m ρ c main_v95 (ix2 k j)
    = W6 m ρ c (Proc.devRef .tc main_arg12) (ix3 0 k j) := by
  show StableHlo.after hostOps3 (W6 m ρ c) (Proc.devRef .tc main_v95) (ix2 k j) = _
  after_results_simp
  exact mat_read _ 0 _ _ k j

theorem s3_b (j : Fin 128) : V7 m ρ c main_v102 (ix2 0 j)
    = W6 m ρ c (Proc.devRef .tc main_arg13) (ix2 0 j) := by
  show StableHlo.after hostOps3 (W6 m ρ c) (Proc.devRef .tc main_v102) (ix2 0 j) = _
  after_results_simp
  exact row_read _ 0 _ _ _ 0 j
theorem s3_g (j : Fin 128) : V7 m ρ c main_v103 (ix2 0 j)
    = W6 m ρ c (Proc.devRef .tc main_arg14) (ix2 0 j) := by
  show StableHlo.after hostOps3 (W6 m ρ c) (Proc.devRef .tc main_v103) (ix2 0 j) = _
  after_results_simp
  exact row_read _ 0 _ _ _ 0 j
theorem s3_be (j : Fin 128) : V7 m ρ c main_v104 (ix2 0 j)
    = W6 m ρ c (Proc.devRef .tc main_arg15) (ix2 0 j) := by
  show StableHlo.after hostOps3 (W6 m ρ c) (Proc.devRef .tc main_v104) (ix2 0 j) = _
  after_results_simp
  exact row_read _ 0 _ _ _ 0 j

end Cert.Hand.K

end
-- ==== Proof.KStretch4.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s4_neigh : V9 m ρ c main_v115 = Spec.neighOf (W8 m ρ c (Proc.devRef .tc main_v105)) (W8 m ρ c (Proc.devRef .tc main_arg4))
    (W8 m ρ c (Proc.devRef .tc main_arg5)) := by
  show StableHlo.after hostOps4 (W8 m ρ c) (Proc.devRef .tc main_v115) = _
  after_results_simp
  rfl

theorem s4_feats : V9 m ρ c main_v105 = W8 m ρ c (Proc.devRef .tc main_v105) := by
  show StableHlo.after hostOps4 (W8 m ρ c) (Proc.devRef .tc main_v105) = _
  after_results_simp

theorem s4_inv : V9 m ρ c main_v83 = W8 m ρ c (Proc.devRef .tc main_v83) := by
  show StableHlo.after hostOps4 (W8 m ρ c) (Proc.devRef .tc main_v83) = _
  after_results_simp

theorem s4_W (k j : Fin 128) : V9 m ρ c main_v117 (ix2 k j)
    = W8 m ρ c (Proc.devRef .tc main_arg12) (ix3 1 k j) := by
  show StableHlo.after hostOps4 (W8 m ρ c) (Proc.devRef .tc main_v117) (ix2 k j) = _
  after_results_simp
  exact mat_read _ 1 _ _ k j

theorem s4_b (j : Fin 128) : V9 m ρ c main_v124 (ix2 0 j)
    = W8 m ρ c (Proc.devRef .tc main_arg13) (ix2 1 j) := by
  show StableHlo.after hostOps4 (W8 m ρ c) (Proc.devRef .tc main_v124) (ix2 0 j) = _
  after_results_simp
  exact row_read _ 1 _ _ _ 0 j
theorem s4_g (j : Fin 128) : V9 m ρ c main_v125 (ix2 0 j)
    = W8 m ρ c (Proc.devRef .tc main_arg14) (ix2 1 j) := by
  show StableHlo.after hostOps4 (W8 m ρ c) (Proc.devRef .tc main_v125) (ix2 0 j) = _
  after_results_simp
  exact row_read _ 1 _ _ _ 0 j
theorem s4_be (j : Fin 128) : V9 m ρ c main_v126 (ix2 0 j)
    = W8 m ρ c (Proc.devRef .tc main_arg15) (ix2 1 j) := by
  show StableHlo.after hostOps4 (W8 m ρ c) (Proc.devRef .tc main_v126) (ix2 0 j) = _
  after_results_simp
  exact row_read _ 1 _ _ _ 0 j

end Cert.Hand.K

end
-- ==== Proof.KStretch5.lean ====
import proofs.«425409_j25305947308735_1_alg».proof.Proof.Spec
import proofs.«425409_j25305947308735_1_alg».proof.Proof.KLayout
import proofs.«425409_j25305947308735_1_alg».proof.Proof.Gen.KernelIdeal.Frame

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem s5_neigh : V11 m ρ c main_v137 = Spec.neighOf (W10 m ρ c (Proc.devRef .tc main_v127)) (W10 m ρ c (Proc.devRef .tc main_arg4))
    (W10 m ρ c (Proc.devRef .tc main_arg5)) := by
  show StableHlo.after hostOps5 (W10 m ρ c) (Proc.devRef .tc main_v137) = _
  after_results_simp
  rfl

theorem s5_feats : V11 m ρ c main_v127 = W10 m ρ c (Proc.devRef .tc main_v127) := by
  show StableHlo.after hostOps5 (W10 m ρ c) (Proc.devRef .tc main_v127) = _
  after_results_simp

theorem s5_inv : V11 m ρ c main_v83 = W10 m ρ c (Proc.devRef .tc main_v83) := by
  show StableHlo.after hostOps5 (W10 m ρ c) (Proc.devRef .tc main_v83) = _
  after_results_simp

theorem s5_W (k j : Fin 128) : V11 m ρ c main_v139 (ix2 k j)
    = W10 m ρ c (Proc.devRef .tc main_arg12) (ix3 2 k j) := by
  show StableHlo.after hostOps5 (W10 m ρ c) (Proc.devRef .tc main_v139) (ix2 k j) = _
  after_results_simp
  exact mat_read _ 2 _ _ k j

theorem s5_b (j : Fin 128) : V11 m ρ c main_v146 (ix2 0 j)
    = W10 m ρ c (Proc.devRef .tc main_arg13) (ix2 2 j) := by
  show StableHlo.after hostOps5 (W10 m ρ c) (Proc.devRef .tc main_v146) (ix2 0 j) = _
  after_results_simp
  exact row_read _ 2 _ _ _ 0 j
theorem s5_g (j : Fin 128) : V11 m ρ c main_v147 (ix2 0 j)
    = W10 m ρ c (Proc.devRef .tc main_arg14) (ix2 2 j) := by
  show StableHlo.after hostOps5 (W10 m ρ c) (Proc.devRef .tc main_v147) (ix2 0 j) = _
  after_results_simp
  exact row_read _ 2 _ _ _ 0 j
theorem s5_be (j : Fin 128) : V11 m ρ c main_v148 (ix2 0 j)
    = W10 m ρ c (Proc.devRef .tc main_arg15) (ix2 2 j) := by
  show StableHlo.after hostOps5 (W10 m ρ c) (Proc.devRef .tc main_v148) (ix2 0 j) = _
  after_results_simp
  exact row_read _ 2 _ _ _ 0 j

end Cert.Hand.K

end
-- ==== Proof.KRegion3.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R3

/-- Row r is the node update of row r of the operand arrays as the region finds them. -/
abbrev G (c : Dev nD) : Vec Ideal S50000x128 .f32 :=
  Node.G (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    (V c (Pipeline.arrRef spec3 6))

theorem idx_facts : ∀ t : Fin cfg3.N, Node.IdxAt t.val (win3_0.index t) (win3_1.index t) (win3_2.index t)
    (win3_3.index t) (win3_4.index t) (win3_5.index t) (win3_6.index t) (win3_7.index t) :=
  (by decide +kernel : ∀ t : Fin grid3.N, _)

end R3

/-- Each point's result is its block of G, and the ten blocks cover the result array. -/
theorem final3 (c : Dev nD) : (dat3 V c).arrAt 7 cfg3.N = R3.G V c :=
  (dat3 V c).arrAt_eq_of_cover 7 (R3.G V c)
    (fun t _ => by
      show (cfg3.win 7).cut (grid3.coords t) ((dat3 V c).after 7 t) = _
      rw [after3_7, Node.out3_7_eq]
      exact funext (Node.row (R3.idx_facts t) (e0 := ((cfg3.win 0).blk t).view.emb) (e1 := ((cfg3.win 1).blk t).view.emb)
        (e2 := ((cfg3.win 2).blk t).view.emb) (e3 := ((cfg3.win 3).blk t).view.emb) (e4 := ((cfg3.win 4).blk t).view.emb)
        (e5 := ((cfg3.win 5).blk t).view.emb) (e6 := ((cfg3.win 6).blk t).view.emb) (e7 := ((cfg3.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_3 (fun t => (R3.idx_facts t).1) (e := fun t => ((cfg3.win 7).blk t).view.emb)
        (fun _ _ _ => ⟨rfl, rfl⟩) i
      exact ⟨t, flush3_7 t, View.emb_mem_set _ y⟩

end Cert.Hand.K

end
-- ==== Proof.KRegion4.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R4

/-- Row r is the node update of row r of the operand arrays as the region finds them. -/
abbrev G (c : Dev nD) : Vec Ideal S50000x128 .f32 :=
  Node.G (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5))
    (V c (Pipeline.arrRef spec4 6))

theorem idx_facts : ∀ t : Fin cfg4.N, Node.IdxAt t.val (win4_0.index t) (win4_1.index t) (win4_2.index t)
    (win4_3.index t) (win4_4.index t) (win4_5.index t) (win4_6.index t) (win4_7.index t) :=
  (by decide +kernel : ∀ t : Fin grid4.N, _)

end R4

/-- Each point's result is its block of G, and the ten blocks cover the result array. -/
theorem final4 (c : Dev nD) : (dat4 V c).arrAt 7 cfg4.N = R4.G V c :=
  (dat4 V c).arrAt_eq_of_cover 7 (R4.G V c)
    (fun t _ => by
      show (cfg4.win 7).cut (grid4.coords t) ((dat4 V c).after 7 t) = _
      rw [after4_7, Node.out4_7_eq]
      exact funext (Node.row (R4.idx_facts t) (e0 := ((cfg4.win 0).blk t).view.emb) (e1 := ((cfg4.win 1).blk t).view.emb)
        (e2 := ((cfg4.win 2).blk t).view.emb) (e3 := ((cfg4.win 3).blk t).view.emb) (e4 := ((cfg4.win 4).blk t).view.emb)
        (e5 := ((cfg4.win 5).blk t).view.emb) (e6 := ((cfg4.win 6).blk t).view.emb) (e7 := ((cfg4.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_4 (fun t => (R4.idx_facts t).1) (e := fun t => ((cfg4.win 7).blk t).view.emb)
        (fun _ _ _ => ⟨rfl, rfl⟩) i
      exact ⟨t, flush4_7 t, View.emb_mem_set _ y⟩

end Cert.Hand.K

end
-- ==== Proof.KRegion5.lean ====
import proofs.«425409_j25305947308735_1_alg».proof.Proof.KNodePay

noncomputable section

namespace Cert.Hand.K

open Idealize.ShloMosaic Idealize.ShloMosaic.TcCoe Cert.KernelIdeal Cert.KernelIdeal.Gen

variable (V : (c : Dev nD) → (b : Ref sig .tc) → Buf (Elt Ideal) ((c : Thread nD τ).loc b))

namespace R5

/-- Row r is the node update of row r of the operand arrays as the region finds them. -/
abbrev G (c : Dev nD) : Vec Ideal S50000x128 .f32 :=
  Node.G (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    (V c (Pipeline.arrRef spec5 6))

theorem idx_facts : ∀ t : Fin cfg5.N, Node.IdxAt t.val (win5_0.index t) (win5_1.index t) (win5_2.index t)
    (win5_3.index t) (win5_4.index t) (win5_5.index t) (win5_6.index t) (win5_7.index t) :=
  (by decide +kernel : ∀ t : Fin grid5.N, _)

end R5

/-- Each point's result is its block of G, and the ten blocks cover the result array. -/
theorem final5 (c : Dev nD) : (dat5 V c).arrAt 7 cfg5.N = R5.G V c :=
  (dat5 V c).arrAt_eq_of_cover 7 (R5.G V c)
    (fun t _ => by
      show (cfg5.win 7).cut (grid5.coords t) ((dat5 V c).after 7 t) = _
      rw [after5_7, Node.out5_7_eq]
      exact funext (Node.row (R5.idx_facts t) (e0 := ((cfg5.win 0).blk t).view.emb) (e1 := ((cfg5.win 1).blk t).view.emb)
        (e2 := ((cfg5.win 2).blk t).view.emb) (e3 := ((cfg5.win 3).blk t).view.emb) (e4 := ((cfg5.win 4).blk t).view.emb)
        (e5 := ((cfg5.win 5).blk t).view.emb) (e6 := ((cfg5.win 6).blk t).view.emb) (e7 := ((cfg5.win 7).blk t).view.emb)
        (fun _ _ => ⟨rfl, rfl⟩) (fun _ _ => ⟨rfl, rfl⟩) (fun _ _ => ⟨rfl, rfl⟩) (fun _ _ => ⟨rfl, rfl⟩) (fun _ _ => ⟨rfl, rfl⟩)
        (fun _ _ => ⟨rfl, rfl⟩) (fun _ _ => ⟨rfl, rfl⟩) (fun _ _ => ⟨rfl, rfl⟩)))
    fun i => by
      obtain ⟨t, y, rfl⟩ := Node.cover N_5 (fun t => (R5.idx_facts t).1) (e := fun t => ((cfg5.win 7).blk t).view.emb)
        (fun _ _ _ => ⟨rfl, rfl⟩) i
      exact ⟨t, flush5_7 t, View.emb_mem_set _ y⟩

end Cert.Hand.K

end
-- ==== Proof.KService.lean ====
import proofs.«425409_j25305947308735_1_alg».proof.Proof.KKeep
import proofs.«425409_j25305947308735_1_alg».proof.Proof.KNodeLayer
import proofs.«425409_j25305947308735_1_alg».proof.Proof.KStretch3
import proofs.«425409_j25305947308735_1_alg».proof.Proof.KStretch4
import proofs.«425409_j25305947308735_1_alg».proof.Proof.KStretch5
import proofs.«425409_j25305947308735_1_alg».proof.Proof.KRegion3
import proofs.«425409_j25305947308735_1_alg».proof.Proof.KRegion4
import proofs.«425409_j25305947308735_1_alg».proof.Proof.KRegion5

noncomputable section

namespace Cert.Hand.K

open Idealize.ShloMosaic Idealize.ShloMosaic.TcCoe Idealize.ShloMosaic.ValueIdx
open Cert.KernelIdeal Cert.KernelIdeal.Gen

variable [Cert.ReferenceIdeal.Facts]
variable (m : (ℓ : Loc nD τ sig) → Buf (Elt Ideal) ℓ) (ρ : Dev nD → PrngReg) (c : Dev nD)

theorem v83_W8 : W8 m ρ c (Proc.devRef .tc main_v83) = V7 m ρ c main_v83 :=
  (W8_arr m ρ c 2).trans (((dat3 (V7 m ρ) c).arrAt_in 2 rfl _).trans (A_eq3 (V7 m ρ) c 2))
theorem v83_W10 : W10 m ρ c (Proc.devRef .tc main_v83) = V7 m ρ c main_v83 :=
  (W10_arr m ρ c 2).trans (((dat4 (V9 m ρ) c).arrAt_in 2 rfl _).trans ((A_eq4 (V9 m ρ) c 2).trans
    ((StableHlo.after_of_writes_sub hostOps4 _ wr4_sub (by decide)).trans (v83_W8 m ρ c))))

theorem inv3 (r : Fin 50000) : V7 m ρ c main_v83 (ix2 r 0) = Spec.invOf (m ((c : Thread nD τ).loc main_arg5)) (ix1 r) :=
  (s3_inv m ρ c r).trans (congrFun (congrArg Spec.invOf (keepW6 m ρ c main_arg5 (by decide))) _)

theorem service0 : V8 m ρ c main_v105 = Spec.layerA (m ((c : Thread nD τ).loc main_arg7)) (m ((c : Thread nD τ).loc main_arg4))
    (m ((c : Thread nD τ).loc main_arg5)) (m ((c : Thread nD τ).loc main_arg12)) (m ((c : Thread nD τ).loc main_arg13))
    (m ((c : Thread nD τ).loc main_arg14)) (m ((c : Thread nD τ).loc main_arg15)) 0 := by
  refine (W8_arr m ρ c 7).trans ((final3 (V7 m ρ) c).trans ?_)
  refine node_layer (V7 m ρ c main_v93) (V7 m ρ c main_arg7) (V7 m ρ c main_v83) (V7 m ρ c main_v95) (V7 m ρ c main_v102)
    (V7 m ρ c main_v103) (V7 m ρ c main_v104) _ _ _ _ _ _ _ 0 ?_ ((s3_feats m ρ c).trans (keepW6 m ρ c main_arg7 (by decide))) (inv3 m ρ c) ?_ ?_ ?_ ?_
  · rw [s3_neigh, keepW6 m ρ c main_arg7 (by decide), keepW6 m ρ c main_arg4 (by decide), keepW6 m ρ c main_arg5 (by decide)]
  · exact fun k j => (s3_W m ρ c k j).trans (congrFun (keepW6 m ρ c main_arg12 (by decide)) _)
  · exact fun j => (s3_b m ρ c j).trans (congrFun (keepW6 m ρ c main_arg13 (by decide)) _)
  · exact fun j => (s3_g m ρ c j).trans (congrFun (keepW6 m ρ c main_arg14 (by decide)) _)
  · exact fun j => (s3_be m ρ c j).trans (congrFun (keepW6 m ρ c main_arg15 (by decide)) _)

theorem service1 : V10 m ρ c main_v127 = Spec.layerA (V8 m ρ c main_v105) (m ((c : Thread nD τ).loc main_arg4))
    (m ((c : Thread nD τ).loc main_arg5)) (m ((c : Thread nD τ).loc main_arg12)) (m ((c : Thread nD τ).loc main_arg13))
    (m ((c : Thread nD τ).loc main_arg14)) (m ((c : Thread nD τ).loc main_arg15)) 1 := by
  refine (W10_arr m ρ c 7).trans ((final4 (V9 m ρ) c).trans ?_)
  refine node_layer (V9 m ρ c main_v115) (V9 m ρ c main_v105) (V9 m ρ c main_v83) (V9 m ρ c main_v117) (V9 m ρ c main_v124)
    (V9 m ρ c main_v125) (V9 m ρ c main_v126) _ _ _ _ _ _ _ 1 ?_ (s4_feats m ρ c) ?_ ?_ ?_ ?_ ?_
  · rw [s4_neigh, keepW8 m ρ c main_arg4 (by decide), keepW8 m ρ c main_arg5 (by decide)]
  · exact fun r => (congrFun ((s4_inv m ρ c).trans (v83_W8 m ρ c)) _).trans (inv3 m ρ c r)
  · exact fun k j => (s4_W m ρ c k j).trans (congrFun (keepW8 m ρ c main_arg12 (by decide)) _)
  · exact fun j => (s4_b m ρ c j).trans (congrFun (keepW8 m ρ c main_arg13 (by decide)) _)
  · exact fun j => (s4_g m ρ c j).trans (congrFun (keepW8 m ρ c main_arg14 (by decide)) _)
  · exact fun j => (s4_be m ρ c j).trans (congrFun (keepW8 m ρ c main_arg15 (by decide)) _)

theorem service2 : V12 m ρ c main_v149 = Spec.layerA (V10 m ρ c main_v127) (m ((c : Thread nD τ).loc main_arg4))
    (m ((c : Thread nD τ).loc main_arg5)) (m ((c : Thread nD τ).loc main_arg12)) (m ((c : Thread nD τ).loc main_arg13))
    (m ((c : Thread nD τ).loc main_arg14)) (m ((c : Thread nD τ).loc main_arg15)) 2 := by
  refine (W12_arr m ρ c 7).trans ((final5 (V11 m ρ) c).trans ?_)
  refine node_layer (V11 m ρ c main_v137) (V11 m ρ c main_v127) (V11 m ρ c main_v83) (V11 m ρ c main_v139) (V11 m ρ c main_v146)
    (V11 m ρ c main_v147) (V11 m ρ c main_v148) _ _ _ _ _ _ _ 2 ?_ (s5_feats m ρ c) ?_ ?_ ?_ ?_ ?_
  · rw [s5_neigh, keepW10 m ρ c main_arg4 (by decide), keepW10 m ρ c main_arg5 (by decide)]
  · exact fun r => (congrFun ((s5_inv m ρ c).trans (v83_W10 m ρ c)) _).trans (inv3 m ρ c r)
  · exact fun k j => (s5_W m ρ c k j).trans (congrFun (keepW10 m ρ c main_arg12 (by decide)) _)
  · exact fun j => (s5_b m ρ c j).trans (congrFun (keepW10 m ρ c main_arg13 (by decide)) _)
  · exact fun j => (s5_g m ρ c j).trans (congrFun (keepW10 m ρ c main_arg14 (by decide)) _)
  · exact fun j => (s5_be m ρ c j).trans (congrFun (keepW10 m ρ c main_arg15 (by decide)) _)

theorem service_stack : V12 m ρ c main_v149 = Spec.stack (m ((c : Thread nD τ).loc main_arg7)) (m ((c : Thread nD τ).loc main_arg4))
    (m ((c : Thread nD τ).loc main_arg5)) (m ((c : Thread nD τ).loc main_arg12)) (m ((c : Thread nD τ).loc main_arg13))
    (m ((c : Thread nD τ).loc main_arg14)) (m ((c : Thread nD τ).loc main_arg15)) := by
  rw [service2, service1, service0]
  rfl

end Cert.Hand.K

end
-- ==== Proof.KHeadTake.lean ====
import proofs.«425409_j25305947308735_1_alg».proof.KernelIdeal
import proofs.«425409_j25305947308735_1_alg».proof.Proof.Spec
import Idealize.ShloMosaic.Lib.ValueIdx
import Idealize.ShloMosaic.Lib.ValueLayout
import Idealize.ShloMosaic.Lib.StableHlo.Predicate
import Idealize.ShloMosaic.PureOps.Reduce
import Idealize.ShloMosaic.PureOps.Ideal

noncomputable section

namespace Cert.Hand.K

open Idealize.ShloMosaic Idealize.ShloMosaic.ValueIdx
open Cert.KernelIdeal

-- A conjunction of set bits, started at a set bit, is a set bit.
theorem foldl_andi_one {ι : Type} (f : ι → BitVec 1) (hf : ∀ i, f i = 1#1) :
    ∀ l : List ι, l.foldl (fun r n => IntOp.andi r (f n)) 1#1 = 1#1
  | [] => rfl
  | a :: l => by
    rw [List.foldl_cons, hf a]
    exact foldl_andi_one f hf l

theorem reduce_andi_one {s t u : Shape} {axes : List (Fin s.rank)} (x : s.Idx → BitVec 1) (init : u.Idx → BitVec 1)
    (h : s.ReducesTo axes t) (hu : 0 < u.numel) (hx : ∀ i, x i = 1#1) (hi : ∀ k, init k = 1#1) (j : t.Idx) :
    Host.reduce IntOp.andi x init h hu j = 1#1 := by
  rw [Host.reduce_eq_foldl, hi]
  exact foldl_andi_one x hx _

-- A word whose signed value lies in [0, 49999] passes both range tests.
theorem inrange_bits (w : BitVec 32) (h0 : 0 ≤ w.toInt) (h1 : w.toInt ≤ 49999) :
    IntOp.andi (IntOp.cmpi .sge w 0#32) (IntOp.cmpi .sle w 49999#32) = 1#1 := by
  have e0 : (0#32 : BitVec 32).toInt = 0 := by decide
  have e1 : (49999#32 : BitVec 32).toInt = 49999 := by decide
  have a : IntOp.cmpi .sge w 0#32 = 1#1 := by
    simp only [IntOp.cmpi, BitVec.sle, e0, StableHlo.Predicate.ofBool_eq_one_iff, decide_eq_true_eq]
    exact h0
  have b : IntOp.cmpi .sle w 49999#32 = 1#1 := by
    simp only [IntOp.cmpi, BitVec.sle, e1, StableHlo.Predicate.ofBool_eq_one_iff, decide_eq_true_eq]
    exact h1
  rw [a, b]; rfl

-- A word with a non-negative signed value is not wrapped.
theorem wrap_word (w : BitVec 32) (h0 : 0 ≤ w.toInt) :
    Scalar.select (IntOp.cmpi .slt w 0#32) (IntOp.addi w 50000#32) w = w := by
  have e0 : (0#32 : BitVec 32).toInt = 0 := by decide
  have a : IntOp.cmpi .slt w 0#32 = 0#1 := by
    apply eq_zero_of_ne_one
    simp only [IntOp.cmpi, BitVec.slt, e0, StableHlo.Predicate.ofBool_eq_one_iff, decide_eq_true_eq]
    omega
  rw [a, select_zero]

section Take

variable [hK : Cert.KernelIdeal.Facts] [hR : Cert.ReferenceIdeal.Facts]
open Cert.KernelIdeal.Facts₀ Cert.KernelIdeal.Facts

def wrapV (idx : IVec S16384 32) : IVec S16384 32 :=
  select (cmpi .slt idx (broadcastInDim S16384 ![] bcast_S_S16384 (constantI S_ 32 0#32)))
    (addi idx (broadcastInDim S16384 ![] bcast_S_S16384 (constantI S_ 32 50000#32))) idx

def wrapK (idx : IVec S16384 32) : IVec S16384x1 32 :=
  broadcastInDim S16384x1 ![0] bcast_S16384_S16384x1_0 (wrapV idx)

def maskK (idx : IVec S16384 32) : IVec S16384 1 :=
  Host.reduce IntOp.andi
    (andi (cmpi .sge (wrapK idx) (broadcastInDim S16384x1 ![] bcast_S_S16384x1 (constantI S_ 32 0#32)))
      (cmpi .sle (wrapK idx) (broadcastInDim S16384x1 ![0, 1] bcast_S1x1_S16384x1_0_1
        (broadcastInDim S1x1 ![1] bcast_S1_S1x1_1 (constantI S1 32 49999#32)))))
    (constantI S_ 1 1#1) reducesTo_S16384x1_S16384_d1 h_S_

-- The guarded lookup of rows of a node table by a batch column: the gathered row where the index is in range, not-a-number elsewhere.
def takeK (U : FVec Ideal S50000x128 .f32) (idx : IVec S16384 32) : FVec Ideal S16384x128 .f32 :=
  select (broadcastInDim S16384x128 ![0] bcast_S16384_S16384x128_0 (maskK idx))
    (Host.gather gather_S50000x128_S16384x1_S16384x128_1_0_n_n_0_1_1128 U (wrapK idx))
    (broadcastInDim S16384x128 ![] bcast_S_S16384x128 (constant (F := Ideal) S_ .f32 0x7FC00000#32))

theorem wrapV_apply (idx : IVec S16384 32) (h : Spec.IdxOk idx) (j : S16384.Idx) : wrapV idx j = idx j := by
  obtain ⟨n, rfl⟩ : ∃ n : Fin 16384, j = ix1 n := ⟨j 0, eq_ix1 j⟩
  exact wrap_word _ (h n).1

theorem maskK_one (idx : IVec S16384 32) (h : Spec.IdxOk idx) (j : S16384.Idx) : maskK idx j = 1#1 := by
  refine reduce_andi_one _ _ _ _ (fun i => ?_) (fun _ => rfl) j
  show IntOp.andi (IntOp.cmpi .sge (wrapK idx i) _) (IntOp.cmpi .sle (wrapK idx i) _) = 1#1
  have hw : ∀ j, 0 ≤ (wrapV idx j).toInt ∧ (wrapV idx j).toInt ≤ 49999 := fun j => by
    obtain ⟨n, rfl⟩ : ∃ n : Fin 16384, j = ix1 n := ⟨j 0, eq_ix1 j⟩
    rw [wrapV_apply idx h]
    have := h n
    omega
  exact inrange_bits _ (hw _).1 (hw _).2

-- With every entry of the column a node number the guarded lookup is the plain gather of rows.
theorem takeK_eq (U : FVec Ideal S50000x128 .f32) (idx : IVec S16384 32) (h : Spec.IdxOk idx) :
    takeK U idx = Spec.rowsOf U idx := by
  funext i
  have hm : broadcastInDim S16384x128 ![0] bcast_S16384_S16384x128_0 (maskK idx) i = 1#1 := maskK_one idx h _
  unfold takeK
  rw [select_apply, hm, select_one]
  rfl

theorem concat_at (A B : FVec Ideal S16384x128 .f32) (n : Fin 16384) (k : Fin 256) :
    concatenate S16384x256 1 [⟨S16384x128, A⟩, ⟨S16384x128, B⟩] concatenates_S16384x128_S16384x128_S16384x256_d1 (ix2 n k)
      = if h : k.val < 128 then A (ix2 n ⟨k.val, h⟩) else B (ix2 n ⟨k.val - 128, by have := k.isLt; omega⟩) := by
  by_cases h : k.val < 128
  · rw [dif_pos h]
    exact concatenate_pair_apply_left _ A B _ (ix2 n k) rfl (ix2 n ⟨k.val, h⟩)
      (fun b => by match b with | ⟨0, _⟩ => rfl | ⟨1, _⟩ => rfl)
  · rw [dif_neg h]
    refine concatenate_pair_apply_right _ A B _ (ix2 n k) rfl rfl (ix2 n ⟨k.val - 128, by have := k.isLt; omega⟩)
      (fun b hb => by
        match b with
        | ⟨0, _⟩ => rfl
        | ⟨1, _⟩ => exact absurd rfl hb) ?_
    show (k.val - 128) + 128 = k.val
    omega

-- The two lookups side by side, read at (n, k), are the head's input row n at k.
theorem headIn_of_take (U S : FVec Ideal S50000x128 .f32) (uidx iidx : IVec S16384 32)
    (hu : Spec.IdxOk uidx) (hi : Spec.IdxOk iidx) (n : Fin 16384) (k : Fin 256) :
    concatenate S16384x256 1 [⟨S16384x128, takeK U uidx⟩, ⟨S16384x128, takeK S iidx⟩]
        concatenates_S16384x128_S16384x128_S16384x256_d1 (ix2 n k)
      = Spec.headIn U S uidx iidx n k := by
  rw [concat_at, takeK_eq U uidx hu, takeK_eq S iidx hi]
  rfl

end Take

end Cert.Hand.K

end
-- ==== Proof.KHeadHost.lean ====
import proofs.«425409_j25305947308735_1_alg».proof.Proof.Gen.KernelIdeal.Frame
import proofs.«425409_j25305947308735_1_alg».proof.Proof.KHeadTake
import Idealize.ShloMosaic.Lib.StableHlo.Run
import Idealize.ShloMosaic.Lib.ValueLayout

noncomputable section

namespace Cert.Hand.K

open Idealize.ShloMosaic Idealize.ShloMosaic.ValueIdx Idealize.ShloMosaic.StableHlo
open Cert.KernelIdeal Cert.KernelIdeal.Gen

-- A stretch whose operations write exactly the buffers of a list leaves every other buffer as it was.
theorem after_keep {Val : EltTy → Type} {ops : List (HloOp τ sig Val)} {W : List (Ref sig .tc)}
    (h : ops.map HloOp.writes = W.map fun r => {Proc.devRef .tc r}) (X : Valuation τ sig Val) {r : Ref sig .tc} (hr : r ∉ W) :
    StableHlo.after ops X (Proc.devRef .tc r) = X (Proc.devRef .tc r) :=
  StableHlo.after_of_forall_not_mem ops X fun op hop hb => by
    obtain ⟨y, hy, e⟩ := List.mem_map.mp (h ▸ List.mem_map_of_mem (f := HloOp.writes) hop)
    rw [← e] at hb
    exact hr (Proc.devRef_injective _ (Finset.mem_singleton.mp hb) ▸ hy)

-- A vector reshaped to a one-row matrix reads, at (0, j), the vector at j.
theorem row_of {α : Type} {a : ℕ} {y : (⟨2, ![1, a]⟩ : Shape).Idx → α} {x x' : (⟨1, ![a]⟩ : Shape).Idx → α}
    {h : (⟨1, ![a]⟩ : Shape).ShapeCasts ⟨2, ![1, a]⟩} (e : y = shapeCast ⟨2, ![1, a]⟩ x' h) (e' : x' = x) (j : Fin a) :
    y (ix2 0 j) = x (ix1 j) := by
  rw [e, e']; exact shapeCast_a_1a_apply x h 0 j

-- A one-column matrix reshaped to a vector reads, at n, the matrix at (n, 0).
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

abbrev wr6 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v150]
abbrev wr61 : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v151]
abbrev wr62 : List (Ref sig .tc) := [main_v152, main_v153, main_v154, main_v155, main_v156, main_v157, main_v158, main_v159]

section Stretches

variable [Cert.KernelIdeal.Facts] [Cert.ReferenceIdeal.Facts]
variable (X : Valuation τ sig (Elt Ideal))

theorem stay6 (r : Ref sig .tc) (h : r ∉ wr6) : StableHlo.after hostOps6 X (Proc.devRef .tc r) = X (Proc.devRef .tc r) := after_keep rfl X h
theorem stay61 (r : Ref sig .tc) (h : r ∉ wr61) : StableHlo.after hostOps6_1 X (Proc.devRef .tc r) = X (Proc.devRef .tc r) := after_keep rfl X h
theorem stay62 (r : Ref sig .tc) (h : r ∉ wr62) : StableHlo.after hostOps6_2 X (Proc.devRef .tc r) = X (Proc.devRef .tc r) := after_keep rfl X h

attribute [local irreducible] Host.reduce Host.gather in
theorem after6_v150 :
    (StableHlo.after hostOps6 X (Proc.devRef .tc main_v150) : FVec Ideal S16384x128 .f32)
      = takeK (X (Proc.devRef .tc main_v74)) (X (Proc.devRef .tc main_arg0)) := by
  simp only [StableHlo.after_cons, StableHlo.after_nil]
  rfl

attribute [local irreducible] Host.reduce Host.gather in
theorem after61_v151 :
    (StableHlo.after hostOps6_1 X (Proc.devRef .tc main_v151) : FVec Ideal S16384x128 .f32)
      = takeK (X (Proc.devRef .tc main_v149)) (X (Proc.devRef .tc main_arg1)) := by
  simp only [StableHlo.after_cons, StableHlo.after_nil]
  rfl

theorem after62_v152 :
    (StableHlo.after hostOps6_2 X (Proc.devRef .tc main_v152) : FVec Ideal S16384x256 .f32)
      = concatenate S16384x256 1 [⟨S16384x128, (X (Proc.devRef .tc main_v150) : FVec Ideal S16384x128 .f32)⟩,
          ⟨S16384x128, (X (Proc.devRef .tc main_v151) : FVec Ideal S16384x128 .f32)⟩]
          concatenates_S16384x128_S16384x128_S16384x256_d1 := by
  after_results

end Stretches

section Run

variable [Cert.KernelIdeal.Facts] [Cert.ReferenceIdeal.Facts]
variable (m : (ℓ : Loc nD τ sig) → Buf (Elt Ideal) ℓ) (ρ : Dev nD → PrngReg) (c : Dev nD)

-- A buffer the two lookups do not write, and one that the third stretch does not write either, is as the last node-update region left it.
theorem W14_keep (r : Ref sig .tc) (h6 : r ∉ wr6) (h61 : r ∉ wr61) : W14 m ρ c (Proc.devRef .tc r) = W12 m ρ c (Proc.devRef .tc r) :=
  (stay61 (W13 m ρ c) r h61).trans (stay6 (W12 m ρ c) r h6)
theorem V15_keep (r : Ref sig .tc) (h6 : r ∉ wr6) (h61 : r ∉ wr61) (h62 : r ∉ wr62) : V15 m ρ c r = W12 m ρ c (Proc.devRef .tc r) :=
  (stay62 (W14 m ρ c) r h62).trans (W14_keep m ρ c r h6 h61)

-- The head's input array at (n, k) is the head's input row n at k, over the node tables and the batch columns.
theorem v152_at (hu : Spec.IdxOk (W12 m ρ c (Proc.devRef .tc main_arg0))) (hi : Spec.IdxOk (W12 m ρ c (Proc.devRef .tc main_arg1)))
    (n : Fin 16384) (k : Fin 256) :
    (V15 m ρ c main_v152 : FVec Ideal S16384x256 .f32) (ix2 n k)
      = Spec.headIn (W12 m ρ c (Proc.devRef .tc main_v74)) (W12 m ρ c (Proc.devRef .tc main_v149)) (W12 m ρ c (Proc.devRef .tc main_arg0)) (W12 m ρ c (Proc.devRef .tc main_arg1)) n k := by
  have e0 : (W14 m ρ c (Proc.devRef .tc main_v150) : FVec Ideal S16384x128 .f32)
      = takeK (W12 m ρ c (Proc.devRef .tc main_v74)) (W12 m ρ c (Proc.devRef .tc main_arg0)) :=
    (stay61 (W13 m ρ c) main_v150 (by decide)).trans (after6_v150 (W12 m ρ c))
  have e1 : (W14 m ρ c (Proc.devRef .tc main_v151) : FVec Ideal S16384x128 .f32)
      = takeK (W12 m ρ c (Proc.devRef .tc main_v149)) (W12 m ρ c (Proc.devRef .tc main_arg1)) := by
    refine (after61_v151 (W13 m ρ c)).trans ?_
    rw [show W13 m ρ c = StableHlo.after hostOps6 (W12 m ρ c) from rfl, stay6 _ main_v149 (by decide), stay6 _ main_arg1 (by decide)]
  refine (congrFun (after62_v152 (W14 m ρ c)) (ix2 n k)).trans ?_
  rw [e0, e1]
  exact headIn_of_take _ _ _ _ hu hi n k

theorem V15_v153 (j : Fin 128) :
    (V15 m ρ c main_v153 : FVec Ideal S1x128 .f32) (ix2 0 j) = (W12 m ρ c (Proc.devRef .tc main_arg17) : FVec Ideal S128 .f32) (ix1 j) :=
  row_of (by after_results; rfl) (W14_keep m ρ c main_arg17 (by decide) (by decide)) j
theorem V15_v154 (j : Fin 128) :
    (V15 m ρ c main_v154 : FVec Ideal S1x128 .f32) (ix2 0 j) = (W12 m ρ c (Proc.devRef .tc main_arg18) : FVec Ideal S128 .f32) (ix1 j) :=
  row_of (by after_results; rfl) (W14_keep m ρ c main_arg18 (by decide) (by decide)) j
theorem V15_v155 (j : Fin 128) :
    (V15 m ρ c main_v155 : FVec Ideal S1x128 .f32) (ix2 0 j) = (W12 m ρ c (Proc.devRef .tc main_arg19) : FVec Ideal S128 .f32) (ix1 j) :=
  row_of (by after_results; rfl) (W14_keep m ρ c main_arg19 (by decide) (by decide)) j
theorem V15_v156 (j : Fin 128) :
    (V15 m ρ c main_v156 : FVec Ideal S1x128 .f32) (ix2 0 j) = (W12 m ρ c (Proc.devRef .tc main_arg21) : FVec Ideal S128 .f32) (ix1 j) :=
  row_of (by after_results; rfl) (W14_keep m ρ c main_arg21 (by decide) (by decide)) j
theorem V15_v157 (j : Fin 128) :
    (V15 m ρ c main_v157 : FVec Ideal S1x128 .f32) (ix2 0 j) = (W12 m ρ c (Proc.devRef .tc main_arg22) : FVec Ideal S128 .f32) (ix1 j) :=
  row_of (by after_results; rfl) (W14_keep m ρ c main_arg22 (by decide) (by decide)) j
theorem V15_v158 (j : Fin 128) :
    (V15 m ρ c main_v158 : FVec Ideal S1x128 .f32) (ix2 0 j) = (W12 m ρ c (Proc.devRef .tc main_arg23) : FVec Ideal S128 .f32) (ix1 j) :=
  row_of (by after_results; rfl) (W14_keep m ρ c main_arg23 (by decide) (by decide)) j
theorem V15_v159 :
    (V15 m ρ c main_v159 : FVec Ideal S1x1 .f32) (ix2 0 0) = (W12 m ρ c (Proc.devRef .tc main_arg25) : FVec Ideal S1 .f32) (ix1 0) :=
  row_of (by after_results; rfl) (W14_keep m ρ c main_arg25 (by decide) (by decide)) 0

-- The result vector at n is the head region's output column at (n, 0).
theorem v161_at (n : Fin 16384) :
    (W17 m ρ c (Proc.devRef .tc main_v161) : FVec Ideal S16384 .f32) (ix1 n)
      = (W16 m ρ c (Proc.devRef .tc main_v160) : FVec Ideal S16384x1 .f32) (ix2 n 0) := by
  have e : (W17 m ρ c (Proc.devRef .tc main_v161) : FVec Ideal S16384 .f32)
      = shapeCast S16384 (W16 m ρ c (Proc.devRef .tc main_v160) : FVec Ideal S16384x1 .f32) shapeCasts_S16384x1_S16384 := by
    after_results; rfl
  rw [e]; exact shapeCast_a1_a_apply _ _ n

end Run

end Cert.Hand.K

end
-- ==== Proof.KHeadGlue.lean ====
import proofs.«425409_j25305947308735_1_alg».proof.Proof.KHeadHost

noncomputable section

namespace Cert.Hand.K

open Idealize.ShloMosaic Idealize.ShloMosaic.ValueIdx Idealize.ShloMosaic.StableHlo
open Cert.KernelIdeal Cert.KernelIdeal.Gen

section Glue

variable [Cert.KernelIdeal.Facts] [Cert.ReferenceIdeal.Facts]
variable (m : (ℓ : Loc nD τ sig) → Buf (Elt Ideal) ℓ) (ρ : Dev nD → PrngReg) (c : Dev nD)

-- The head on row n of the head region's operand arrays, as the region finds them.
def headAt (n : Fin 16384) : EReal :=
  Spec.mlpRow (fun k => (V15 m ρ c main_v152 : FVec Ideal S16384x256 .f32) (ix2 n k))
    (fun k j => (V15 m ρ c main_arg16 : FVec Ideal S256x128 .f32) (ix2 k j))
    (fun j => (V15 m ρ c main_v153 : FVec Ideal S1x128 .f32) (ix2 0 j))
    (fun j => (V15 m ρ c main_v154 : FVec Ideal S1x128 .f32) (ix2 0 j))
    (fun j => (V15 m ρ c main_v155 : FVec Ideal S1x128 .f32) (ix2 0 j))
    (fun k j => (V15 m ρ c main_arg20 : FVec Ideal S128x128 .f32) (ix2 k j))
    (fun j => (V15 m ρ c main_v156 : FVec Ideal S1x128 .f32) (ix2 0 j))
    (fun j => (V15 m ρ c main_v157 : FVec Ideal S1x128 .f32) (ix2 0 j))
    (fun j => (V15 m ρ c main_v158 : FVec Ideal S1x128 .f32) (ix2 0 j))
    (fun k => (V15 m ρ c main_arg24 : FVec Ideal S128x1 .f32) (ix2 k 0))
    ((V15 m ρ c main_v159 : FVec Ideal S1x1 .f32) (ix2 0 0))

-- If the head region's output column holds the head of every row of its operand arrays, the result vector is the head row by row.
theorem head_result (hu : Spec.IdxOk (W12 m ρ c (Proc.devRef .tc main_arg0))) (hi : Spec.IdxOk (W12 m ρ c (Proc.devRef .tc main_arg1)))
    (hfin : ∀ n : Fin 16384, ((dat6 (V15 m ρ) c).arrAt 11 cfg6.N : FVec Ideal S16384x1 .f32) (ix2 n 0) = headAt m ρ c n) :
    (W17 m ρ c (Proc.devRef .tc main_v161) : FVec Ideal S16384 .f32)
      = Spec.unix1 (Spec.headC (W12 m ρ c (Proc.devRef .tc main_v74)) (W12 m ρ c (Proc.devRef .tc main_v149)) (W12 m ρ c (Proc.devRef .tc main_arg0)) (W12 m ρ c (Proc.devRef .tc main_arg1))
          (W12 m ρ c (Proc.devRef .tc main_arg16)) (W12 m ρ c (Proc.devRef .tc main_arg17)) (W12 m ρ c (Proc.devRef .tc main_arg18)) (W12 m ρ c (Proc.devRef .tc main_arg19))
          (W12 m ρ c (Proc.devRef .tc main_arg20)) (W12 m ρ c (Proc.devRef .tc main_arg21)) (W12 m ρ c (Proc.devRef .tc main_arg22)) (W12 m ρ c (Proc.devRef .tc main_arg23))
          (W12 m ρ c (Proc.devRef .tc main_arg24)) (W12 m ρ c (Proc.devRef .tc main_arg25))) := by
  funext i
  obtain ⟨n, rfl⟩ : ∃ n : Fin 16384, i = ix1 n := ⟨i 0, eq_ix1 i⟩
  have e16 : (W16 m ρ c (Proc.devRef .tc main_v160) : FVec Ideal S16384x1 .f32) = (dat6 (V15 m ρ) c).arrAt 11 cfg6.N :=
    W16_arr m ρ c 11
  rw [v161_at, e16, hfin n, Spec.unix1_ix1]
  unfold headAt Spec.headC
  rw [funext (v152_at m ρ c hu hi n), V15_keep m ρ c main_arg16 (by decide) (by decide) (by decide), funext (V15_v153 m ρ c),
    funext (V15_v154 m ρ c), funext (V15_v155 m ρ c), V15_keep m ρ c main_arg20 (by decide) (by decide) (by decide),
    funext (V15_v156 m ρ c), funext (V15_v157 m ρ c), funext (V15_v158 m ρ c),
    V15_keep m ρ c main_arg24 (by decide) (by decide) (by decide), V15_v159]

end Glue

end Cert.Hand.K

end
-- ==== Proof.KHeadPay.lean ====
import proofs.«425409_j25305947308735_1_alg».proof.Proof.Spec
import proofs.«425409_j25305947308735_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.Hand.K.Head

open Idealize.ShloMosaic Idealize.ShloMosaic.ValueIdx Cert.KernelIdeal
open scoped BigOperators

theorem laneSum_apply (v : FVec Ideal S2048x128 .f32) (h : S2048x128.Reduces [1] S2048) (p : Fin 2048) :
    Ideal.reduceAdd h v (ix1 p) = ∑ q : Fin 128, v (ix2 p q) := by
  refine (Ideal.reduceAdd_single h v (ix1 p)).trans ?_
  refine Finset.sum_congr rfl fun q _ => congrArg v (funext fun a => Fin.ext ?_)
  match a with
  | ⟨0, _⟩ => rfl
  | ⟨1, _⟩ => rfl

theorem colCast_apply (v : FVec Ideal S2048 .f32) (h : S2048.ShapeCasts S2048x1) (p : Fin 2048) (z : Fin 1) :
    shapeCast S2048x1 v h (ix2 p z) = v (ix1 p) :=
  shapeCast_apply v h (ix2 p z) (ix1 p) (by
    have hz : z.val = 0 := by omega
    rw [Shape.rowMajor_val_two, Shape.rowMajor_val_one]
    show p.val = p.val * 1 + z.val
    omega)

theorem colBcast_apply (v : FVec Ideal S2048x1 .f32) (h : S2048x1.Broadcasts S2048x128) (p : Fin 2048) (q : Fin 128) :
    broadcastTo S2048x128 v h (ix2 p q) = v (ix2 p 0) := by
  refine broadcastTo_apply v h (ix2 p q) (ix2 p 0) fun ax => ?_
  match ax with
  | ⟨0, _⟩ => rfl
  | ⟨1, _⟩ => rfl

theorem rowBcast_apply (v : FVec Ideal S1x128 .f32) (h : S1x128.Broadcasts S2048x128) (p : Fin 2048) (q : Fin 128) :
    broadcastTo S2048x128 v h (ix2 p q) = v (ix2 0 q) :=
  broadcastTo_1b_ab_apply v h p q

theorem scalBcast_apply (v : FVec Ideal S1x1 .f32) (h : S1x1.Broadcasts S2048x1) (p : Fin 2048) (z : Fin 1) :
    broadcastTo S2048x1 v h (ix2 p z) = v (ix2 0 0) := by
  obtain rfl : z = 0 := Subsingleton.elim _ _
  exact broadcastTo_1b_ab_apply v h p 0

theorem rsqrtCol_apply (v : FVec Ideal S2048x1 .f32) (i : S2048x1.Idx) : rsqrt v i = Ideal.rsqrt (v i) := rfl

theorem zeroWord : (FloatOps.ofBits .f32 0x00000000#32 : Ideal .f32) = 0 := Ideal.ofBits_zero_f32

-- Into a zero accumulator the product of an m×k by a k×n matrix at (p, q) is the sum over the contracted coordinate of the products of the entries.
theorem mm_apply {m k n : ℕ} {φ₁ φ₂ : FTy} (A : FVec Ideal ⟨2, ![m, k]⟩ φ₁) (B : FVec Ideal ⟨2, ![k, n]⟩ φ₂) (p : Fin m) (q : Fin n) :
    matmul (DotDims.plain m k n) none A B (constant ⟨2, ![m, n]⟩ .f32 0x00000000#32) (ix2 p q) = ∑ j : Fin k, A (ix2 p j) * B (ix2 j q) :=
  (congrFun (matmul_zero_eq_dotGeneral _ none A B) _).trans (StackMember.dotGeneral_plain_apply none A B p q)

theorem mm_a_apply (A : FVec Ideal S2048x256 .bf16) (B : FVec Ideal S256x128 .bf16) (p : Fin 2048) (q : Fin 128) :
    matmul dot_S2048x256_S256x128_S2048x128_1_0_0_1_n_n none A B (constant S2048x128 .f32 0x00000000#32) (ix2 p q) = ∑ k : Fin 256, A (ix2 p k) * B (ix2 k q) :=
  mm_apply A B p q
theorem mm_b_apply (A : FVec Ideal S2048x128 .bf16) (B : FVec Ideal S128x128 .bf16) (p : Fin 2048) (q : Fin 128) :
    matmul dot_S2048x128_S128x128_S2048x128_1_0_0_1_n_n none A B (constant S2048x128 .f32 0x00000000#32) (ix2 p q) = ∑ k : Fin 128, A (ix2 p k) * B (ix2 k q) :=
  mm_apply A B p q
theorem mm_c_apply (A : FVec Ideal S2048x128 .bf16) (B : FVec Ideal S128x1 .bf16) (p : Fin 2048) (q : Fin 1) :
    matmul dot_S2048x128_S128x1_S2048x1_1_0_0_1_n_n none A B (constant S2048x1 .f32 0x00000000#32) (ix2 p q) = ∑ k : Fin 128, A (ix2 p k) * B (ix2 k q) :=
  mm_apply A B p q

open Cert.Hand.Spec in
theorem pay2_apply (x0 : Vec Ideal S2048x256 .f32) (x1 : Vec Ideal S256x128 .f32) (x2 x3 x4 : Vec Ideal S1x128 .f32)
    (p : Fin 2048) (q : Fin 128) :
    Gen.k6_pay2 x0 x1 x2 x3 x4 (ix2 p q)
      = max (lnRow (denseRow (fun k => x0 (ix2 p k)) (fun k j => x1 (ix2 k j)) (fun j => x2 (ix2 0 j)))
          (fun j => x3 (ix2 0 j)) (fun j => x4 (ix2 0 j)) q) 0 := by
  unfold Gen.k6_pay2
  simp only [truncf_apply, maximumf_apply, addf_apply, mulf_apply, subf_apply, divf_apply, broadcast_apply,
    shapeCast_self, rowBcast_apply, colBcast_apply, colCast_apply, multiReduction, Ideal.reduceAdd_def, laneSum_apply,
    mm_a_apply, rsqrtCol_apply, zeroWord]
  simp only [lnRow, rowMean, rowVar, denseRow, c128, ceps]
  rfl

open Cert.Hand.Spec in
theorem pay3_apply (v38 : FVec Ideal S2048x128 .bf16) (x5 : Vec Ideal S128x128 .f32) (x6 x7 x8 : Vec Ideal S1x128 .f32)
    (x9 : Vec Ideal S128x1 .f32) (x10 : Vec Ideal S1x1 .f32) (p : Fin 2048) :
    Gen.k6_pay3 v38 x5 x6 x7 x8 x9 x10 (ix2 p 0)
      = (∑ k : Fin 128, max (lnRow (denseRow (fun k' => v38 (ix2 p k')) (fun k' j => x5 (ix2 k' j)) (fun j => x6 (ix2 0 j)))
          (fun j => x7 (ix2 0 j)) (fun j => x8 (ix2 0 j)) k) 0 * x9 (ix2 k 0)) + x10 (ix2 0 0) := by
  unfold Gen.k6_pay3
  simp only [truncf_apply, maximumf_apply, addf_apply, mulf_apply, subf_apply, divf_apply, broadcast_apply,
    shapeCast_self, rowBcast_apply, colBcast_apply, colCast_apply, scalBcast_apply, multiReduction, Ideal.reduceAdd_def,
    laneSum_apply, mm_b_apply, mm_c_apply, rsqrtCol_apply, zeroWord]
  simp only [lnRow, rowMean, rowVar, denseRow, c128, ceps]
  rfl

end Cert.Hand.K.Head

namespace Cert.Hand.K

open Idealize.ShloMosaic Idealize.ShloMosaic.ValueIdx Cert.KernelIdeal Cert.KernelIdeal.Gen
open scoped BigOperators

theorem Head.hz2 : (![0, 0] : Fin 2 → Nat) = fun _ => 0 := funext fun a => by fin_cases a <;> rfl

-- Entry (p, 0) of the block a grid point writes is the head of row p of the block it read.
theorem out6_11_apply (x0 : Vec Ideal S2048x256 .f32) (x1 : Vec Ideal S256x128 .f32) (x2 x3 x4 : Vec Ideal S1x128 .f32)
    (x5 : Vec Ideal S128x128 .f32) (x6 x7 x8 : Vec Ideal S1x128 .f32) (x9 : Vec Ideal S128x1 .f32)
    (x10 : Vec Ideal S1x1 .f32) (p : Fin 2048) :
    out6_11 x0 x1 x2 x3 x4 x5 x6 x7 x8 x9 x10 (ix2 p 0)
      = Spec.mlpRow (fun k => x0 (ix2 p k)) (fun k j => x1 (ix2 k j)) (fun j => x2 (ix2 0 j)) (fun j => x3 (ix2 0 j))
          (fun j => x4 (ix2 0 j)) (fun k j => x5 (ix2 k j)) (fun j => x6 (ix2 0 j)) (fun j => x7 (ix2 0 j))
          (fun j => x8 (ix2 0 j)) (fun k => x9 (ix2 k 0)) (x10 (ix2 0 0)) := by
  unfold out6_11
  rw [View.canon_unit_zero Head.hz2]
  simp only [View.ld_unit_zero (S := S2048x256) Head.hz2, View.ld_unit_zero (S := S256x128) Head.hz2,
    View.ld_unit_zero (S := S1x128) Head.hz2, View.ld_unit_zero (S := S128x128) Head.hz2,
    View.ld_unit_zero (S := S128x1) Head.hz2, View.ld_unit_zero (S := S1x1) Head.hz2]
  unfold k6_pay1
  show Ideal.logistic (k6_pay3 (k6_pay2 x0 x1 x2 x3 x4) x5 x6 x7 x8 x9 x10 (ix2 p 0)) = _
  rw [Head.pay3_apply]
  simp only [Head.pay2_apply]
  rfl

end Cert.Hand.K

end
-- ==== Proof.KRegion6.lean ====
import proofs.«425409_j25305947308735_1_alg».proof.Proof.KHeadPay
import Idealize.ShloMosaic.Lib.Pipeline.Value

noncomputable section

namespace Cert.Hand.K

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

abbrev R6.a0 (c : Dev nD) : Vec Ideal S16384x256 .f32 := V c (Pipeline.arrRef spec6 0)
abbrev R6.a1 (c : Dev nD) : Vec Ideal S256x128 .f32 := V c (Pipeline.arrRef spec6 1)
abbrev R6.a2 (c : Dev nD) : Vec Ideal S1x128 .f32 := V c (Pipeline.arrRef spec6 2)
abbrev R6.a3 (c : Dev nD) : Vec Ideal S1x128 .f32 := V c (Pipeline.arrRef spec6 3)
abbrev R6.a4 (c : Dev nD) : Vec Ideal S1x128 .f32 := V c (Pipeline.arrRef spec6 4)
abbrev R6.a5 (c : Dev nD) : Vec Ideal S128x128 .f32 := V c (Pipeline.arrRef spec6 5)
abbrev R6.a6 (c : Dev nD) : Vec Ideal S1x128 .f32 := V c (Pipeline.arrRef spec6 6)
abbrev R6.a7 (c : Dev nD) : Vec Ideal S1x128 .f32 := V c (Pipeline.arrRef spec6 7)
abbrev R6.a8 (c : Dev nD) : Vec Ideal S1x128 .f32 := V c (Pipeline.arrRef spec6 8)
abbrev R6.a9 (c : Dev nD) : Vec Ideal S128x1 .f32 := V c (Pipeline.arrRef spec6 9)
abbrev R6.a10 (c : Dev nD) : Vec Ideal S1x1 .f32 := V c (Pipeline.arrRef spec6 10)

-- The input's and the output's row blocks move with the grid point and start at column zero.
theorem R6.idxM : ∀ t : Fin cfg6.N, (win6_0.index t (0 : Fin 2) = t.val ∧ win6_0.index t (1 : Fin 2) = 0)
    ∧ win6_11.index t (0 : Fin 2) = t.val ∧ win6_11.index t (1 : Fin 2) = 0 :=
  (by decide +kernel : ∀ t : Fin grid6.N, _)

-- Every parameter array is one block, at block index zero, at every grid point.
theorem R6.idxP : ∀ (t : Fin cfg6.N) (w : Fin cfg6.W), w ≠ 0 → w ≠ 11 → ∀ a, (cfg6.win w).index t a = 0 :=
  (by decide +kernel : ∀ (t : Fin grid6.N) (w : Fin cfg6.W), _)

-- Row p of the input block at grid point t is row 2048 t + p of the input array.
theorem R6.b0_apply (c : Dev nD) (t : Fin cfg6.N) (p : Fin 2048) (k : Fin 256) (r : Fin 16384)
    (hr : r.val = t.val * 2048 + p.val) : iblk6 V c 0 t (ix2 p k) = R6.a0 V c (ix2 r k) := by
  obtain ⟨⟨e0, e1⟩, -⟩ := R6.idxM t
  refine congrArg (R6.a0 V c) (Shape.idx_ext₂ ?_ ?_)
  · show win6_0.index t (0 : Fin 2) * 2048 + 1 * p.val = r.val
    rw [e0, hr]; omega
  · show win6_0.index t (1 : Fin 2) * 256 + 1 * k.val = k.val
    rw [e1]; omega

-- An array read through an embedding that keeps every coordinate is the array.
theorem R6.whole {n0 n1 : ℕ} {α : Type} (f : (⟨2, ![n0, n1]⟩ : Shape).Idx → α)
    (e : (⟨2, ![n0, n1]⟩ : Shape).Idx → (⟨2, ![n0, n1]⟩ : Shape).Idx) (h : ∀ y a, (e y a : ℕ) = y a) :
    (fun y => f (e y)) = f :=
  funext fun y => congrArg f (funext fun a => Fin.ext (h y a))

theorem R6.b1_eq (c : Dev nD) (t : Fin cfg6.N) : iblk6 V c 1 t = R6.a1 V c :=
  R6.whole (R6.a1 V c) ((cfg6.win 1).blk t).view.emb fun y a => (cfg6.win 1).rect_emb_val_of_index_zero t a (R6.idxP t 1 (by decide) (by decide) a) y
theorem R6.b2_eq (c : Dev nD) (t : Fin cfg6.N) : iblk6 V c 2 t = R6.a2 V c :=
  R6.whole (R6.a2 V c) ((cfg6.win 2).blk t).view.emb fun y a => (cfg6.win 2).rect_emb_val_of_index_zero t a (R6.idxP t 2 (by decide) (by decide) a) y
theorem R6.b3_eq (c : Dev nD) (t : Fin cfg6.N) : iblk6 V c 3 t = R6.a3 V c :=
  R6.whole (R6.a3 V c) ((cfg6.win 3).blk t).view.emb fun y a => (cfg6.win 3).rect_emb_val_of_index_zero t a (R6.idxP t 3 (by decide) (by decide) a) y
theorem R6.b4_eq (c : Dev nD) (t : Fin cfg6.N) : iblk6 V c 4 t = R6.a4 V c :=
  R6.whole (R6.a4 V c) ((cfg6.win 4).blk t).view.emb fun y a => (cfg6.win 4).rect_emb_val_of_index_zero t a (R6.idxP t 4 (by decide) (by decide) a) y
theorem R6.b5_eq (c : Dev nD) (t : Fin cfg6.N) : iblk6 V c 5 t = R6.a5 V c :=
  R6.whole (R6.a5 V c) ((cfg6.win 5).blk t).view.emb fun y a => (cfg6.win 5).rect_emb_val_of_index_zero t a (R6.idxP t 5 (by decide) (by decide) a) y
theorem R6.b6_eq (c : Dev nD) (t : Fin cfg6.N) : iblk6 V c 6 t = R6.a6 V c :=
  R6.whole (R6.a6 V c) ((cfg6.win 6).blk t).view.emb fun y a => (cfg6.win 6).rect_emb_val_of_index_zero t a (R6.idxP t 6 (by decide) (by decide) a) y
theorem R6.b7_eq (c : Dev nD) (t : Fin cfg6.N) : iblk6 V c 7 t = R6.a7 V c :=
  R6.whole (R6.a7 V c) ((cfg6.win 7).blk t).view.emb fun y a => (cfg6.win 7).rect_emb_val_of_index_zero t a (R6.idxP t 7 (by decide) (by decide) a) y
theorem R6.b8_eq (c : Dev nD) (t : Fin cfg6.N) : iblk6 V c 8 t = R6.a8 V c :=
  R6.whole (R6.a8 V c) ((cfg6.win 8).blk t).view.emb fun y a => (cfg6.win 8).rect_emb_val_of_index_zero t a (R6.idxP t 8 (by decide) (by decide) a) y
theorem R6.b9_eq (c : Dev nD) (t : Fin cfg6.N) : iblk6 V c 9 t = R6.a9 V c :=
  R6.whole (R6.a9 V c) ((cfg6.win 9).blk t).view.emb fun y a => (cfg6.win 9).rect_emb_val_of_index_zero t a (R6.idxP t 9 (by decide) (by decide) a) y
theorem R6.b10_eq (c : Dev nD) (t : Fin cfg6.N) : iblk6 V c 10 t = R6.a10 V c :=
  R6.whole (R6.a10 V c) ((cfg6.win 10).blk t).view.emb fun y a => (cfg6.win 10).rect_emb_val_of_index_zero t a (R6.idxP t 10 (by decide) (by decide) a) y

def R6.G (c : Dev nD) : Vec Ideal S16384x1 .f32 := fun i =>
  Spec.mlpRow (fun k => R6.a0 V c (ix2 ⟨(i 0).val, idx2_lt0 i⟩ k)) (fun k j => R6.a1 V c (ix2 k j)) (fun j => R6.a2 V c (ix2 0 j)) (fun j => R6.a3 V c (ix2 0 j))
      (fun j => R6.a4 V c (ix2 0 j)) (fun k j => R6.a5 V c (ix2 k j)) (fun j => R6.a6 V c (ix2 0 j)) (fun j => R6.a7 V c (ix2 0 j))
      (fun j => R6.a8 V c (ix2 0 j)) (fun k => R6.a9 V c (ix2 k 0)) (R6.a10 V c (ix2 0 0))

-- What grid point t writes back is block t of the head applied row by row.
theorem R6.flushed_eq (c : Dev nD) (t : Fin cfg6.N) :
    (dat6 V c).flushed 11 t = ((cfg6.win 11).blk t).view.read (Elt Ideal) (R6.G V c) := by
  show (cfg6.win 11).cut (grid6.coords t) ((dat6 V c).after 11 t) = _
  rw [after6_11]
  funext y
  rw [View.read_apply]
  show _ = R6.G V c (((cfg6.win 11).blk t).view.emb y)
  obtain ⟨p, z, rfl⟩ : ∃ (p : Fin 2048) (z : Fin 1), y = ix2 p z := ⟨y 0, y 1, eq_ix2 y⟩
  obtain rfl : z = 0 := Subsingleton.elim _ _
  obtain ⟨-, e0, -⟩ := R6.idxM t
  have hr : ((((cfg6.win 11).blk t).view.emb (ix2 p (0 : Fin 1)) : S16384x1.Idx) 0).val = t.val * 2048 + p.val := by
    show win6_11.index t (0 : Fin 2) * 2048 + 1 * p.val = _
    rw [e0]; omega
  refine (out6_11_apply _ _ _ _ _ _ _ _ _ _ _ p).trans ?_
  have h0 : (fun k => iblk6 V c 0 t (ix2 p k))
      = fun k => R6.a0 V c (ix2 ⟨((((cfg6.win 11).blk t).view.emb (ix2 p (0 : Fin 1)) : S16384x1.Idx) 0).val, idx2_lt0 _⟩ k) :=
    funext fun k => R6.b0_apply V c t p k _ hr
  rw [R6.b1_eq, R6.b2_eq, R6.b3_eq, R6.b4_eq, R6.b5_eq, R6.b6_eq, R6.b7_eq, R6.b8_eq, R6.b9_eq, R6.b10_eq, h0]
  rfl

-- The eight blocks of 2048 rows cover the 16384 rows: row n lies in block n / 2048.
theorem R6.cover (i : S16384x1.Idx) :
    ∃ t : Fin cfg6.N, (cfg6.win 11).flush t = true ∧ i ∈ ((cfg6.win 11).blk t).view.set := by
  have hi0 : (i 0).val < 16384 := idx2_lt0 i
  have hi1 : (i 1).val < 1 := idx2_lt1 i
  have hN : grid6.N = 8 := N_6
  obtain ⟨t, ht⟩ : ∃ t : Fin cfg6.N, t.val = (i 0).val / 2048 :=
    ⟨⟨(i 0).val / 2048, by show (i 0).val / 2048 < grid6.N; rw [hN]; omega⟩, rfl⟩
  obtain ⟨-, e0, e1⟩ := R6.idxM t
  refine ⟨t, flush6_11 t, ?_⟩
  show i ∈ ((View.whole main_v160).slice (win6_11.rect t)).set
  rw [View.set_slice_whole, Rect.mem_set_unit]
  intro a
  match a with
  | ⟨0, _⟩ =>
    show win6_11.index t (0 : Fin 2) * 2048 ≤ (i 0).val ∧ (i 0).val < win6_11.index t (0 : Fin 2) * 2048 + 2048
    rw [e0, ht]; omega
  | ⟨1, _⟩ =>
    show win6_11.index t (1 : Fin 2) * 1 ≤ (i 1).val ∧ (i 1).val < win6_11.index t (1 : Fin 2) * 1 + 1
    rw [e1]; omega

-- After the region, entry (n, 0) of the output array is the head of row n of the input array.
theorem final6 (c : Dev nD) (n : Fin 16384) :
    (dat6 V c).arrAt 11 cfg6.N (ix2 n 0)
      = Spec.mlpRow (fun k => R6.a0 V c (ix2 n k)) (fun k j => R6.a1 V c (ix2 k j)) (fun j => R6.a2 V c (ix2 0 j)) (fun j => R6.a3 V c (ix2 0 j))
      (fun j => R6.a4 V c (ix2 0 j)) (fun k j => R6.a5 V c (ix2 k j)) (fun j => R6.a6 V c (ix2 0 j)) (fun j => R6.a7 V c (ix2 0 j))
      (fun j => R6.a8 V c (ix2 0 j)) (fun k => R6.a9 V c (ix2 k 0)) (R6.a10 V c (ix2 0 0)) :=
  congrFun ((dat6 V c).arrAt_eq_of_cover 11 (R6.G V c) (fun t _ => R6.flushed_eq V c t) R6.cover) (ix2 n 0)

end Cert.Hand.K

end
-- ==== Proof.KFinal.lean ====
import proofs.«425409_j25305947308735_1_alg».proof.Proof.KRun
import proofs.«425409_j25305947308735_1_alg».proof.Proof.KUser
import proofs.«425409_j25305947308735_1_alg».proof.Proof.KService
import proofs.«425409_j25305947308735_1_alg».proof.Proof.KHeadGlue
import proofs.«425409_j25305947308735_1_alg».proof.Proof.KRegion6

noncomputable section

namespace Cert.Hand.K

open Idealize.ShloMosaic Idealize.ShloMosaic.TcCoe Idealize.ShloMosaic.ValueIdx Idealize.SL.Sem
open Cert.KernelIdeal Cert.KernelIdeal.Gen

theorem run [Cert.KernelIdeal.Facts] [Cert.ReferenceIdeal.Facts] (m : (ℓ : Loc nD τ sig) → Buf (Elt Ideal) ℓ) (ρ : Dev nD → PrngReg)
    (hu : ∀ c : Dev nD, Spec.IdxOk (m ((c.tc : Thread nD τ).loc main_arg0)))
    (hi : ∀ c : Dev nD, Spec.IdxOk (m ((c.tc : Thread nD τ).loc main_arg1))) :
    θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v161) = Spec.resultA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run _ _ _).mono (fun r h c => ⟨(h c).1.trans (by
    have hu' : Spec.IdxOk (W12 m ρ c (Proc.devRef .tc main_arg0)) := by rw [keepW12 m ρ c main_arg0 (by decide)]; exact hu c
    have hi' : Spec.IdxOk (W12 m ρ c (Proc.devRef .tc main_arg1)) := by rw [keepW12 m ρ c main_arg1 (by decide)]; exact hi c
    rw [head_result m ρ c hu' hi' (fun n => final6 (V15 m ρ) c n),
      (step5 m ρ c main_v74 (by decide)).trans ((step4 m ρ c main_v74 (by decide)).trans ((step3 m ρ c main_v74 (by decide)).trans (user_stack m ρ c))),
      show W12 m ρ c (Proc.devRef .tc main_v149) = _ from service_stack m ρ c, keepW12 m ρ c main_arg0 (by decide),
      keepW12 m ρ c main_arg1 (by decide),
      keepW12 m ρ c main_arg16 (by decide),
      keepW12 m ρ c main_arg17 (by decide),
      keepW12 m ρ c main_arg18 (by decide),
      keepW12 m ρ c main_arg19 (by decide),
      keepW12 m ρ c main_arg20 (by decide),
      keepW12 m ρ c main_arg21 (by decide),
      keepW12 m ρ c main_arg22 (by decide),
      keepW12 m ρ c main_arg23 (by decide),
      keepW12 m ρ c main_arg24 (by decide),
      keepW12 m ρ c main_arg25 (by decide)]
    rfl), (h c).2⟩) (frame_result m ρ)

end Cert.Hand.K

end
-- ==== Proof.RefOps0.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP0 : List (HloOp τ sig (Elt F)) :=
  [ StableHlo.nullary main_cst (constant S_ .f32 0x3F800000#32),
    StableHlo.unary main_cst main_v0 (broadcastInDim S800000 ![] bcast_S_S800000 : (⟨S_, .f32⟩ : BufTy).Contents (Elt F) → _),
    StableHlo.nullary main_cst_0 (constant S_ .f32 0x00000000#32),
    StableHlo.unary main_cst_0 main_v1 (broadcastInDim S50000 ![] bcast_S_S50000 : (⟨S_, .f32⟩ : BufTy).Contents (Elt F) → _),
    StableHlo.unary main_arg3 main_v2 (broadcastInDim S800000x1 ![0] bcast_S800000_S800000x1_0 : (⟨S800000, .i32⟩ : BufTy).Contents (Elt F) → _),
    StableHlo.ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_1 (constant S_ .f32 0x3F800000#32),
    StableHlo.unary main_cst_1 main_v4 (broadcastInDim S50000 ![] bcast_S_S50000 : (⟨S_, .f32⟩ : BufTy).Contents (Elt F) → _),
    StableHlo.binary main_v3 main_v4 main_v5 (addf : (⟨S50000, .f32⟩ : BufTy).Contents (Elt F) → _),
    StableHlo.nullary main_cst_2 (constant S_ .f32 0x3F800000#32),
    StableHlo.unary main_cst_2 main_v6 (broadcastInDim S50000 ![] bcast_S_S50000 : (⟨S_, .f32⟩ : BufTy).Contents (Elt F) → _),
    StableHlo.binary main_v6 main_v5 main_v7 (Host.divf : (⟨S50000, .f32⟩ : BufTy).Contents (Elt F) → _),
    StableHlo.nullary main_c (constantI S_ 32 0#32),
    StableHlo.unary main_c main_v8 (broadcastInDim S800000 ![] bcast_S_S800000 : (⟨S_, .i32⟩ : BufTy).Contents (Elt F) → _),
    StableHlo.binary main_arg2 main_v8 main_v9 (cmpi .slt : (⟨S800000, .i32⟩ : BufTy).Contents (Elt F) → _),
    StableHlo.nullary main_c_3 (constantI S_ 32 50000#32),
    StableHlo.unary main_c_3 main_v10 (broadcastInDim S800000 ![] bcast_S_S800000 : (⟨S_, .i32⟩ : BufTy).Contents (Elt F) → _),
    StableHlo.binary main_arg2 main_v10 main_v11 (addi : (⟨S800000, .i32⟩ : BufTy).Contents (Elt F) → _),
    StableHlo.ternary main_v9 main_v11 main_arg2 main_v12 (select : (⟨S800000, .i1⟩ : BufTy).Contents (Elt F) → (⟨S800000, .i32⟩ : BufTy).Contents (Elt F) → _),
    StableHlo.unary main_v12 main_v13 (broadcastInDim S800000x1 ![0] bcast_S800000_S800000x1_0 : (⟨S800000, .i32⟩ : BufTy).Contents (Elt F) → _),
    StableHlo.binary main_arg6 main_v13 main_v14 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_4 (constant S_ .f32 0x00000000#32),
    StableHlo.unary main_cst_4 main_v15 (broadcastInDim S50000x128 ![] bcast_S_S50000x128 : (⟨S_, .f32⟩ : BufTy).Contents (Elt F) → _),
    StableHlo.unary main_arg3 main_v16 (broadcastInDim S800000x1 ![0] bcast_S800000_S800000x1_0 : (⟨S800000, .i32⟩ : BufTy).Contents (Elt F) → _),
    StableHlo.ternary main_v15 main_v16 main_v14 main_v17 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v17 main_arg6 main_v18 (addf : (⟨S50000x128, .f32⟩ : BufTy).Contents (Elt F) → _),
    StableHlo.unary main_v7 main_v19 (broadcastInDim S50000x1 ![0] bcast_S50000_S50000x1_0 : (⟨S50000, .f32⟩ : BufTy).Contents (Elt F) → _),
    StableHlo.unary main_v19 main_v20 (broadcastInDim S50000x128 ![0, 1] bcast_S50000x1_S50000x128_0_1 : (⟨S50000x1, .f32⟩ : BufTy).Contents (Elt F) → _),
    StableHlo.binary main_v18 main_v20 main_v21 (mulf : (⟨S50000x128, .f32⟩ : BufTy).Contents (Elt F) → _),
    StableHlo.unary main_arg8 main_v22 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v22 main_v23 rfl shapeCasts_S1x128x128_S128x128,
    StableHlo.binary main_v21 main_v23 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v25 ((extractStridedSlice S1x128 ![0, 0] · slices_S3x128_S1x128_0_0) : (⟨S3x128, .f32⟩ : BufTy).Contents (Elt F) → (⟨S1x128, .f32⟩ : BufTy).Contents (Elt F)),
    StableHlo.reshape main_v25 main_v26 rfl shapeCasts_S1x128_S128,
    StableHlo.unary main_v26 main_v27 (broadcastInDim S1x128 ![1] bcast_S128_S1x128_1 : (⟨S128, .f32⟩ : BufTy).Contents (Elt F) → _),
    StableHlo.unary main_v27 main_v28 (broadcastInDim S50000x128 ![0, 1] bcast_S1x128_S50000x128_0_1 : (⟨S1x128, .f32⟩ : BufTy).Contents (Elt F) → _),
    StableHlo.binary main_v24 main_v28 main_v29 (addf : (⟨S50000x128, .f32⟩ : BufTy).Contents (Elt F) → _),
    StableHlo.unary main_arg10 main_v30 ((extractStridedSlice S1x128 ![0, 0] · slices_S3x128_S1x128_0_0) : (⟨S3x128, .f32⟩ : BufTy).Contents (Elt F) → (⟨S1x128, .f32⟩ : BufTy).Contents (Elt F)),
    StableHlo.reshape main_v30 main_v31 rfl shapeCasts_S1x128_S128,
    StableHlo.unary main_arg11 main_v32 ((extractStridedSlice S1x128 ![0, 0] · slices_S3x128_S1x128_0_0) : (⟨S3x128, .f32⟩ : BufTy).Contents (Elt F) → (⟨S1x128, .f32⟩ : BufTy).Contents (Elt F)),
    StableHlo.reshape main_v32 main_v33 rfl shapeCasts_S1x128_S128,
    StableHlo.nullary main_cst_5 (constant S_ .f32 0x00000000#32),
    StableHlo.binary main_v29 main_cst_5 main_v34 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → _),
    StableHlo.nullary main_cst_6 (constant S_ .f32 0x43000000#32),
    StableHlo.unary main_cst_6 main_v36 (broadcastInDim S50000x1 ![] bcast_S_S50000x1 : (⟨S_, .f32⟩ : BufTy).Contents (Elt F) → _),
    StableHlo.binary main_v35 main_v36 main_v37 (Host.divf : (⟨S50000x1, .f32⟩ : BufTy).Contents (Elt F) → _),
    StableHlo.unary main_v37 main_v38 (broadcastInDim S50000x128 ![0, 1] bcast_S50000x1_S50000x128_0_1 : (⟨S50000x1, .f32⟩ : BufTy).Contents (Elt F) → _),
    StableHlo.binary main_v29 main_v38 main_v39 (subf : (⟨S50000x128, .f32⟩ : BufTy).Contents (Elt F) → _),
    StableHlo.binary main_v39 main_v39 main_v40 (mulf : (⟨S50000x128, .f32⟩ : BufTy).Contents (Elt F) → _),
    StableHlo.nullary main_cst_7 (constant S_ .f32 0x00000000#32),
    StableHlo.binary main_v40 main_cst_7 main_v41 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v41 main_v42 (broadcastInDim S50000x1 ![0] bcast_S50000_S50000x1_0 : (⟨S50000, .f32⟩ : BufTy).Contents (Elt F) → _),
    StableHlo.nullary main_cst_8 (constant S_ .f32 0x43000000#32),
    StableHlo.unary main_cst_8 main_v43 (broadcastInDim S50000x1 ![] bcast_S_S50000x1 : (⟨S_, .f32⟩ : BufTy).Contents (Elt F) → _),
    StableHlo.binary main_v42 main_v43 main_v44 (Host.divf : (⟨S50000x1, .f32⟩ : BufTy).Contents (Elt F) → _),
    StableHlo.unary main_v37 main_v45 (broadcastInDim S50000x128 ![0, 1] bcast_S50000x1_S50000x128_0_1 : (⟨S50000x1, .f32⟩ : BufTy).Contents (Elt F) → _),
    StableHlo.binary main_v29 main_v45 main_v46 (subf : (⟨S50000x128, .f32⟩ : BufTy).Contents (Elt F) → _),
    StableHlo.nullary main_cst_9 (constant S_ .f32 0x3727C5AC#32),
    StableHlo.unary main_cst_9 main_v47 (broadcastInDim S50000x1 ![] bcast_S_S50000x1 : (⟨S_, .f32⟩ : BufTy).Contents (Elt F) → _) ]

end Cert.Hand.R

end
-- ==== Proof.RefOps1.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP1 : List (HloOp τ sig (Elt F)) :=
  [ StableHlo.binary main_v44 main_v47 main_v48 (addf : (⟨S50000x1, .f32⟩ : BufTy).Contents (Elt F) → _),
    StableHlo.unary main_v48 main_v49 (Host.rsqrt : (⟨S50000x1, .f32⟩ : BufTy).Contents (Elt F) → _),
    StableHlo.unary main_v49 main_v50 (broadcastInDim S50000x128 ![0, 1] bcast_S50000x1_S50000x128_0_1 : (⟨S50000x1, .f32⟩ : BufTy).Contents (Elt F) → _),
    StableHlo.binary main_v46 main_v50 main_v51 (mulf : (⟨S50000x128, .f32⟩ : BufTy).Contents (Elt F) → _),
    StableHlo.unary main_v31 main_v52 (broadcastInDim S1x128 ![1] bcast_S128_S1x128_1 : (⟨S128, .f32⟩ : BufTy).Contents (Elt F) → _),
    StableHlo.unary main_v52 main_v53 (broadcastInDim S50000x128 ![0, 1] bcast_S1x128_S50000x128_0_1 : (⟨S1x128, .f32⟩ : BufTy).Contents (Elt F) → _),
    StableHlo.binary main_v51 main_v53 main_v54 (mulf : (⟨S50000x128, .f32⟩ : BufTy).Contents (Elt F) → _),
    StableHlo.unary main_v33 main_v55 (broadcastInDim S1x128 ![1] bcast_S128_S1x128_1 : (⟨S128, .f32⟩ : BufTy).Contents (Elt F) → _),
    StableHlo.unary main_v55 main_v56 (broadcastInDim S50000x128 ![0, 1] bcast_S1x128_S50000x128_0_1 : (⟨S1x128, .f32⟩ : BufTy).Contents (Elt F) → _),
    StableHlo.binary main_v54 main_v56 main_v57 (addf : (⟨S50000x128, .f32⟩ : BufTy).Contents (Elt F) → _),
    StableHlo.nullary main_call0_cst (constant S_ .f32 0x00000000#32),
    StableHlo.unary main_call0_cst main_call0_v0 (broadcastInDim S50000x128 ![] bcast_S_S50000x128 : (⟨S_, .f32⟩ : BufTy).Contents (Elt F) → _),
    StableHlo.binary main_v57 main_call0_v0 main_call0_v1 (cmpf .ogt : (⟨S50000x128, .f32⟩ : BufTy).Contents (Elt F) → _),
    StableHlo.nullary main_call0_cst_0 (constant S_ .f32 0x00000000#32),
    StableHlo.unary main_call0_cst_0 main_call0_v2 (broadcastInDim S50000x128 ![] bcast_S_S50000x128 : (⟨S_, .f32⟩ : BufTy).Contents (Elt F) → _),
    StableHlo.binary main_v57 main_call0_v2 main_call0_v3 (cmpf .ogt : (⟨S50000x128, .f32⟩ : BufTy).Contents (Elt F) → _),
    StableHlo.nullary main_call0_cst_1 (constant S_ .f32 0x00000000#32),
    StableHlo.unary main_call0_cst_1 main_call0_call0_v0 (id : (⟨S_, .f32⟩ : BufTy).Contents (Elt F) → _),
    StableHlo.unary main_call0_call0_v0 main_call0_call0_v1 (broadcastInDim S50000x128 ![] bcast_S_S50000x128 : (⟨S_, .f32⟩ : BufTy).Contents (Elt F) → _),
    StableHlo.ternary main_call0_v3 main_call0_call0_v1 main_v57 main_call0_v4 (select : (⟨S50000x128, .i1⟩ : BufTy).Contents (Elt F) → (⟨S50000x128, .f32⟩ : BufTy).Contents (Elt F) → _),
    StableHlo.unary main_call0_v4 main_call0_v5 (Host.expm1 : (⟨S50000x128, .f32⟩ : BufTy).Contents (Elt F) → _),
    StableHlo.nullary main_call0_cst_2 (constant S_ .f32 0x3F800000#32),
    StableHlo.unary main_call0_cst_2 main_call0_v6 (broadcastInDim S50000x128 ![] bcast_S_S50000x128 : (⟨S_, .f32⟩ : BufTy).Contents (Elt F) → _),
    StableHlo.binary main_call0_v6 main_call0_v5 main_call0_v7 (mulf : (⟨S50000x128, .f32⟩ : BufTy).Contents (Elt F) → _),
    StableHlo.ternary main_call0_v1 main_v57 main_call0_v7 main_v58 (select : (⟨S50000x128, .i1⟩ : BufTy).Contents (Elt F) → (⟨S50000x128, .f32⟩ : BufTy).Contents (Elt F) → _),
    StableHlo.nullary main_c_10 (constantI S_ 32 0#32),
    StableHlo.unary main_c_10 main_v59 (broadcastInDim S800000 ![] bcast_S_S800000 : (⟨S_, .i32⟩ : BufTy).Contents (Elt F) → _),
    StableHlo.binary main_arg2 main_v59 main_v60 (cmpi .slt : (⟨S800000, .i32⟩ : BufTy).Contents (Elt F) → _),
    StableHlo.nullary main_c_11 (constantI S_ 32 50000#32),
    StableHlo.unary main_c_11 main_v61 (broadcastInDim S800000 ![] bcast_S_S800000 : (⟨S_, .i32⟩ : BufTy).Contents (Elt F) → _),
    StableHlo.binary main_arg2 main_v61 main_v62 (addi : (⟨S800000, .i32⟩ : BufTy).Contents (Elt F) → _),
    StableHlo.ternary main_v60 main_v62 main_arg2 main_v63 (select : (⟨S800000, .i1⟩ : BufTy).Contents (Elt F) → (⟨S800000, .i32⟩ : BufTy).Contents (Elt F) → _),
    StableHlo.unary main_v63 main_v64 (broadcastInDim S800000x1 ![0] bcast_S800000_S800000x1_0 : (⟨S800000, .i32⟩ : BufTy).Contents (Elt F) → _),
    StableHlo.binary main_v58 main_v64 main_v65 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_12 (constant S_ .f32 0x00000000#32),
    StableHlo.unary main_cst_12 main_v66 (broadcastInDim S50000x128 ![] bcast_S_S50000x128 : (⟨S_, .f32⟩ : BufTy).Contents (Elt F) → _),
    StableHlo.unary main_arg3 main_v67 (broadcastInDim S800000x1 ![0] bcast_S800000_S800000x1_0 : (⟨S800000, .i32⟩ : BufTy).Contents (Elt F) → _),
    StableHlo.ternary main_v66 main_v67 main_v65 main_v68 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v68 main_v58 main_v69 (addf : (⟨S50000x128, .f32⟩ : BufTy).Contents (Elt F) → _),
    StableHlo.unary main_v7 main_v70 (broadcastInDim S50000x1 ![0] bcast_S50000_S50000x1_0 : (⟨S50000, .f32⟩ : BufTy).Contents (Elt F) → _),
    StableHlo.unary main_v70 main_v71 (broadcastInDim S50000x128 ![0, 1] bcast_S50000x1_S50000x128_0_1 : (⟨S50000x1, .f32⟩ : BufTy).Contents (Elt F) → _),
    StableHlo.binary main_v69 main_v71 main_v72 (mulf : (⟨S50000x128, .f32⟩ : BufTy).Contents (Elt F) → _),
    StableHlo.unary main_arg8 main_v73 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v73 main_v74 rfl shapeCasts_S1x128x128_S128x128,
    StableHlo.binary main_v72 main_v74 main_v75 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v76 ((extractStridedSlice S1x128 ![1, 0] · slices_S3x128_S1x128_1_0) : (⟨S3x128, .f32⟩ : BufTy).Contents (Elt F) → (⟨S1x128, .f32⟩ : BufTy).Contents (Elt F)),
    StableHlo.reshape main_v76 main_v77 rfl shapeCasts_S1x128_S128,
    StableHlo.unary main_v77 main_v78 (broadcastInDim S1x128 ![1] bcast_S128_S1x128_1 : (⟨S128, .f32⟩ : BufTy).Contents (Elt F) → _),
    StableHlo.unary main_v78 main_v79 (broadcastInDim S50000x128 ![0, 1] bcast_S1x128_S50000x128_0_1 : (⟨S1x128, .f32⟩ : BufTy).Contents (Elt F) → _),
    StableHlo.binary main_v75 main_v79 main_v80 (addf : (⟨S50000x128, .f32⟩ : BufTy).Contents (Elt F) → _),
    StableHlo.unary main_arg10 main_v81 ((extractStridedSlice S1x128 ![1, 0] · slices_S3x128_S1x128_1_0) : (⟨S3x128, .f32⟩ : BufTy).Contents (Elt F) → (⟨S1x128, .f32⟩ : BufTy).Contents (Elt F)),
    StableHlo.reshape main_v81 main_v82 rfl shapeCasts_S1x128_S128,
    StableHlo.unary main_arg11 main_v83 ((extractStridedSlice S1x128 ![1, 0] · slices_S3x128_S1x128_1_0) : (⟨S3x128, .f32⟩ : BufTy).Contents (Elt F) → (⟨S1x128, .f32⟩ : BufTy).Contents (Elt F)),
    StableHlo.reshape main_v83 main_v84 rfl shapeCasts_S1x128_S128,
    StableHlo.nullary main_cst_13 (constant S_ .f32 0x00000000#32),
    StableHlo.binary main_v80 main_cst_13 main_v85 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v85 main_v86 (broadcastInDim S50000x1 ![0] bcast_S50000_S50000x1_0 : (⟨S50000, .f32⟩ : BufTy).Contents (Elt F) → _),
    StableHlo.nullary main_cst_14 (constant S_ .f32 0x43000000#32),
    StableHlo.unary main_cst_14 main_v87 (broadcastInDim S50000x1 ![] bcast_S_S50000x1 : (⟨S_, .f32⟩ : BufTy).Contents (Elt F) → _),
    StableHlo.binary main_v86 main_v87 main_v88 (Host.divf : (⟨S50000x1, .f32⟩ : BufTy).Contents (Elt F) → _),
    StableHlo.unary main_v88 main_v89 (broadcastInDim S50000x128 ![0, 1] bcast_S50000x1_S50000x128_0_1 : (⟨S50000x1, .f32⟩ : BufTy).Contents (Elt F) → _),
    StableHlo.binary main_v80 main_v89 main_v90 (subf : (⟨S50000x128, .f32⟩ : BufTy).Contents (Elt F) → _),
    StableHlo.binary main_v90 main_v90 main_v91 (mulf : (⟨S50000x128, .f32⟩ : BufTy).Contents (Elt F) → _),
    StableHlo.nullary main_cst_15 (constant S_ .f32 0x00000000#32),
    StableHlo.binary main_v91 main_cst_15 main_v92 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v92 main_v93 (broadcastInDim S50000x1 ![0] bcast_S50000_S50000x1_0 : (⟨S50000, .f32⟩ : BufTy).Contents (Elt F) → _),
    StableHlo.nullary main_cst_16 (constant S_ .f32 0x43000000#32),
    StableHlo.unary main_cst_16 main_v94 (broadcastInDim S50000x1 ![] bcast_S_S50000x1 : (⟨S_, .f32⟩ : BufTy).Contents (Elt F) → _),
    StableHlo.binary main_v93 main_v94 main_v95 (Host.divf : (⟨S50000x1, .f32⟩ : BufTy).Contents (Elt F) → _),
    StableHlo.unary main_v88 main_v96 (broadcastInDim S50000x128 ![0, 1] bcast_S50000x1_S50000x128_0_1 : (⟨S50000x1, .f32⟩ : BufTy).Contents (Elt F) → _),
    StableHlo.binary main_v80 main_v96 main_v97 (subf : (⟨S50000x128, .f32⟩ : BufTy).Contents (Elt F) → _),
    StableHlo.nullary main_cst_17 (constant S_ .f32 0x3727C5AC#32),
    StableHlo.unary main_cst_17 main_v98 (broadcastInDim S50000x1 ![] bcast_S_S50000x1 : (⟨S_, .f32⟩ : BufTy).Contents (Elt F) → _),
    StableHlo.binary main_v95 main_v98 main_v99 (addf : (⟨S50000x1, .f32⟩ : BufTy).Contents (Elt F) → _) ]

end Cert.Hand.R

end
-- ==== Proof.RefOps2.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP2 : List (HloOp τ sig (Elt F)) :=
  [ StableHlo.unary main_v99 main_v100 (Host.rsqrt : (⟨S50000x1, .f32⟩ : BufTy).Contents (Elt F) → _),
    StableHlo.unary main_v100 main_v101 (broadcastInDim S50000x128 ![0, 1] bcast_S50000x1_S50000x128_0_1 : (⟨S50000x1, .f32⟩ : BufTy).Contents (Elt F) → _),
    StableHlo.binary main_v97 main_v101 main_v102 (mulf : (⟨S50000x128, .f32⟩ : BufTy).Contents (Elt F) → _),
    StableHlo.unary main_v82 main_v103 (broadcastInDim S1x128 ![1] bcast_S128_S1x128_1 : (⟨S128, .f32⟩ : BufTy).Contents (Elt F) → _),
    StableHlo.unary main_v103 main_v104 (broadcastInDim S50000x128 ![0, 1] bcast_S1x128_S50000x128_0_1 : (⟨S1x128, .f32⟩ : BufTy).Contents (Elt F) → _),
    StableHlo.binary main_v102 main_v104 main_v105 (mulf : (⟨S50000x128, .f32⟩ : BufTy).Contents (Elt F) → _),
    StableHlo.unary main_v84 main_v106 (broadcastInDim S1x128 ![1] bcast_S128_S1x128_1 : (⟨S128, .f32⟩ : BufTy).Contents (Elt F) → _),
    StableHlo.unary main_v106 main_v107 (broadcastInDim S50000x128 ![0, 1] bcast_S1x128_S50000x128_0_1 : (⟨S1x128, .f32⟩ : BufTy).Contents (Elt F) → _),
    StableHlo.binary main_v105 main_v107 main_v108 (addf : (⟨S50000x128, .f32⟩ : BufTy).Contents (Elt F) → _),
    StableHlo.nullary main_call1_cst (constant S_ .f32 0x00000000#32),
    StableHlo.unary main_call1_cst main_call1_v0 (broadcastInDim S50000x128 ![] bcast_S_S50000x128 : (⟨S_, .f32⟩ : BufTy).Contents (Elt F) → _),
    StableHlo.binary main_v108 main_call1_v0 main_call1_v1 (cmpf .ogt : (⟨S50000x128, .f32⟩ : BufTy).Contents (Elt F) → _),
    StableHlo.nullary main_call1_cst_0 (constant S_ .f32 0x00000000#32),
    StableHlo.unary main_call1_cst_0 main_call1_v2 (broadcastInDim S50000x128 ![] bcast_S_S50000x128 : (⟨S_, .f32⟩ : BufTy).Contents (Elt F) → _),
    StableHlo.binary main_v108 main_call1_v2 main_call1_v3 (cmpf .ogt : (⟨S50000x128, .f32⟩ : BufTy).Contents (Elt F) → _),
    StableHlo.nullary main_call1_cst_1 (constant S_ .f32 0x00000000#32),
    StableHlo.unary main_call1_cst_1 main_call1_call0_v0 (id : (⟨S_, .f32⟩ : BufTy).Contents (Elt F) → _),
    StableHlo.unary main_call1_call0_v0 main_call1_call0_v1 (broadcastInDim S50000x128 ![] bcast_S_S50000x128 : (⟨S_, .f32⟩ : BufTy).Contents (Elt F) → _),
    StableHlo.ternary main_call1_v3 main_call1_call0_v1 main_v108 main_call1_v4 (select : (⟨S50000x128, .i1⟩ : BufTy).Contents (Elt F) → (⟨S50000x128, .f32⟩ : BufTy).Contents (Elt F) → _),
    StableHlo.unary main_call1_v4 main_call1_v5 (Host.expm1 : (⟨S50000x128, .f32⟩ : BufTy).Contents (Elt F) → _),
    StableHlo.nullary main_call1_cst_2 (constant S_ .f32 0x3F800000#32),
    StableHlo.unary main_call1_cst_2 main_call1_v6 (broadcastInDim S50000x128 ![] bcast_S_S50000x128 : (⟨S_, .f32⟩ : BufTy).Contents (Elt F) → _),
    StableHlo.binary main_call1_v6 main_call1_v5 main_call1_v7 (mulf : (⟨S50000x128, .f32⟩ : BufTy).Contents (Elt F) → _),
    StableHlo.ternary main_call1_v1 main_v108 main_call1_v7 main_v109 (select : (⟨S50000x128, .i1⟩ : BufTy).Contents (Elt F) → (⟨S50000x128, .f32⟩ : BufTy).Contents (Elt F) → _),
    StableHlo.nullary main_c_18 (constantI S_ 32 0#32),
    StableHlo.unary main_c_18 main_v110 (broadcastInDim S800000 ![] bcast_S_S800000 : (⟨S_, .i32⟩ : BufTy).Contents (Elt F) → _),
    StableHlo.binary main_arg2 main_v110 main_v111 (cmpi .slt : (⟨S800000, .i32⟩ : BufTy).Contents (Elt F) → _),
    StableHlo.nullary main_c_19 (constantI S_ 32 50000#32),
    StableHlo.unary main_c_19 main_v112 (broadcastInDim S800000 ![] bcast_S_S800000 : (⟨S_, .i32⟩ : BufTy).Contents (Elt F) → _),
    StableHlo.binary main_arg2 main_v112 main_v113 (addi : (⟨S800000, .i32⟩ : BufTy).Contents (Elt F) → _),
    StableHlo.ternary main_v111 main_v113 main_arg2 main_v114 (select : (⟨S800000, .i1⟩ : BufTy).Contents (Elt F) → (⟨S800000, .i32⟩ : BufTy).Contents (Elt F) → _),
    StableHlo.unary main_v114 main_v115 (broadcastInDim S800000x1 ![0] bcast_S800000_S800000x1_0 : (⟨S800000, .i32⟩ : BufTy).Contents (Elt F) → _),
    StableHlo.binary main_v109 main_v115 main_v116 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_20 (constant S_ .f32 0x00000000#32),
    StableHlo.unary main_cst_20 main_v117 (broadcastInDim S50000x128 ![] bcast_S_S50000x128 : (⟨S_, .f32⟩ : BufTy).Contents (Elt F) → _),
    StableHlo.unary main_arg3 main_v118 (broadcastInDim S800000x1 ![0] bcast_S800000_S800000x1_0 : (⟨S800000, .i32⟩ : BufTy).Contents (Elt F) → _),
    StableHlo.ternary main_v117 main_v118 main_v116 main_v119 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v119 main_v109 main_v120 (addf : (⟨S50000x128, .f32⟩ : BufTy).Contents (Elt F) → _),
    StableHlo.unary main_v7 main_v121 (broadcastInDim S50000x1 ![0] bcast_S50000_S50000x1_0 : (⟨S50000, .f32⟩ : BufTy).Contents (Elt F) → _),
    StableHlo.unary main_v121 main_v122 (broadcastInDim S50000x128 ![0, 1] bcast_S50000x1_S50000x128_0_1 : (⟨S50000x1, .f32⟩ : BufTy).Contents (Elt F) → _),
    StableHlo.binary main_v120 main_v122 main_v123 (mulf : (⟨S50000x128, .f32⟩ : BufTy).Contents (Elt F) → _),
    StableHlo.unary main_arg8 main_v124 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v124 main_v125 rfl shapeCasts_S1x128x128_S128x128,
    StableHlo.binary main_v123 main_v125 main_v126 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg9 main_v127 ((extractStridedSlice S1x128 ![2, 0] · slices_S3x128_S1x128_2_0) : (⟨S3x128, .f32⟩ : BufTy).Contents (Elt F) → (⟨S1x128, .f32⟩ : BufTy).Contents (Elt F)),
    StableHlo.reshape main_v127 main_v128 rfl shapeCasts_S1x128_S128,
    StableHlo.unary main_v128 main_v129 (broadcastInDim S1x128 ![1] bcast_S128_S1x128_1 : (⟨S128, .f32⟩ : BufTy).Contents (Elt F) → _),
    StableHlo.unary main_v129 main_v130 (broadcastInDim S50000x128 ![0, 1] bcast_S1x128_S50000x128_0_1 : (⟨S1x128, .f32⟩ : BufTy).Contents (Elt F) → _),
    StableHlo.binary main_v126 main_v130 main_v131 (addf : (⟨S50000x128, .f32⟩ : BufTy).Contents (Elt F) → _),
    StableHlo.unary main_arg10 main_v132 ((extractStridedSlice S1x128 ![2, 0] · slices_S3x128_S1x128_2_0) : (⟨S3x128, .f32⟩ : BufTy).Contents (Elt F) → (⟨S1x128, .f32⟩ : BufTy).Contents (Elt F)),
    StableHlo.reshape main_v132 main_v133 rfl shapeCasts_S1x128_S128,
    StableHlo.unary main_arg11 main_v134 ((extractStridedSlice S1x128 ![2, 0] · slices_S3x128_S1x128_2_0) : (⟨S3x128, .f32⟩ : BufTy).Contents (Elt F) → (⟨S1x128, .f32⟩ : BufTy).Contents (Elt F)),
    StableHlo.reshape main_v134 main_v135 rfl shapeCasts_S1x128_S128,
    StableHlo.nullary main_cst_21 (constant S_ .f32 0x00000000#32),
    StableHlo.binary main_v131 main_cst_21 main_v136 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v136 main_v137 (broadcastInDim S50000x1 ![0] bcast_S50000_S50000x1_0 : (⟨S50000, .f32⟩ : BufTy).Contents (Elt F) → _),
    StableHlo.nullary main_cst_22 (constant S_ .f32 0x43000000#32),
    StableHlo.unary main_cst_22 main_v138 (broadcastInDim S50000x1 ![] bcast_S_S50000x1 : (⟨S_, .f32⟩ : BufTy).Contents (Elt F) → _),
    StableHlo.binary main_v137 main_v138 main_v139 (Host.divf : (⟨S50000x1, .f32⟩ : BufTy).Contents (Elt F) → _),
    StableHlo.unary main_v139 main_v140 (broadcastInDim S50000x128 ![0, 1] bcast_S50000x1_S50000x128_0_1 : (⟨S50000x1, .f32⟩ : BufTy).Contents (Elt F) → _),
    StableHlo.binary main_v131 main_v140 main_v141 (subf : (⟨S50000x128, .f32⟩ : BufTy).Contents (Elt F) → _),
    StableHlo.binary main_v141 main_v141 main_v142 (mulf : (⟨S50000x128, .f32⟩ : BufTy).Contents (Elt F) → _),
    StableHlo.nullary main_cst_23 (constant S_ .f32 0x00000000#32),
    StableHlo.binary main_v142 main_cst_23 main_v143 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v143 main_v144 (broadcastInDim S50000x1 ![0] bcast_S50000_S50000x1_0 : (⟨S50000, .f32⟩ : BufTy).Contents (Elt F) → _),
    StableHlo.nullary main_cst_24 (constant S_ .f32 0x43000000#32),
    StableHlo.unary main_cst_24 main_v145 (broadcastInDim S50000x1 ![] bcast_S_S50000x1 : (⟨S_, .f32⟩ : BufTy).Contents (Elt F) → _),
    StableHlo.binary main_v144 main_v145 main_v146 (Host.divf : (⟨S50000x1, .f32⟩ : BufTy).Contents (Elt F) → _),
    StableHlo.unary main_v139 main_v147 (broadcastInDim S50000x128 ![0, 1] bcast_S50000x1_S50000x128_0_1 : (⟨S50000x1, .f32⟩ : BufTy).Contents (Elt F) → _),
    StableHlo.binary main_v131 main_v147 main_v148 (subf : (⟨S50000x128, .f32⟩ : BufTy).Contents (Elt F) → _),
    StableHlo.nullary main_cst_25 (constant S_ .f32 0x3727C5AC#32),
    StableHlo.unary main_cst_25 main_v149 (broadcastInDim S50000x1 ![] bcast_S_S50000x1 : (⟨S_, .f32⟩ : BufTy).Contents (Elt F) → _),
    StableHlo.binary main_v146 main_v149 main_v150 (addf : (⟨S50000x1, .f32⟩ : BufTy).Contents (Elt F) → _),
    StableHlo.unary main_v150 main_v151 (Host.rsqrt : (⟨S50000x1, .f32⟩ : BufTy).Contents (Elt F) → _) ]

end Cert.Hand.R

end
-- ==== Proof.RefOps3.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP3 : List (HloOp τ sig (Elt F)) :=
  [ StableHlo.unary main_v151 main_v152 (broadcastInDim S50000x128 ![0, 1] bcast_S50000x1_S50000x128_0_1 : (⟨S50000x1, .f32⟩ : BufTy).Contents (Elt F) → _),
    StableHlo.binary main_v148 main_v152 main_v153 (mulf : (⟨S50000x128, .f32⟩ : BufTy).Contents (Elt F) → _),
    StableHlo.unary main_v133 main_v154 (broadcastInDim S1x128 ![1] bcast_S128_S1x128_1 : (⟨S128, .f32⟩ : BufTy).Contents (Elt F) → _),
    StableHlo.unary main_v154 main_v155 (broadcastInDim S50000x128 ![0, 1] bcast_S1x128_S50000x128_0_1 : (⟨S1x128, .f32⟩ : BufTy).Contents (Elt F) → _),
    StableHlo.binary main_v153 main_v155 main_v156 (mulf : (⟨S50000x128, .f32⟩ : BufTy).Contents (Elt F) → _),
    StableHlo.unary main_v135 main_v157 (broadcastInDim S1x128 ![1] bcast_S128_S1x128_1 : (⟨S128, .f32⟩ : BufTy).Contents (Elt F) → _),
    StableHlo.unary main_v157 main_v158 (broadcastInDim S50000x128 ![0, 1] bcast_S1x128_S50000x128_0_1 : (⟨S1x128, .f32⟩ : BufTy).Contents (Elt F) → _),
    StableHlo.binary main_v156 main_v158 main_v159 (addf : (⟨S50000x128, .f32⟩ : BufTy).Contents (Elt F) → _),
    StableHlo.nullary main_call2_cst (constant S_ .f32 0x00000000#32),
    StableHlo.unary main_call2_cst main_call2_v0 (broadcastInDim S50000x128 ![] bcast_S_S50000x128 : (⟨S_, .f32⟩ : BufTy).Contents (Elt F) → _),
    StableHlo.binary main_v159 main_call2_v0 main_call2_v1 (cmpf .ogt : (⟨S50000x128, .f32⟩ : BufTy).Contents (Elt F) → _),
    StableHlo.nullary main_call2_cst_0 (constant S_ .f32 0x00000000#32),
    StableHlo.unary main_call2_cst_0 main_call2_v2 (broadcastInDim S50000x128 ![] bcast_S_S50000x128 : (⟨S_, .f32⟩ : BufTy).Contents (Elt F) → _),
    StableHlo.binary main_v159 main_call2_v2 main_call2_v3 (cmpf .ogt : (⟨S50000x128, .f32⟩ : BufTy).Contents (Elt F) → _),
    StableHlo.nullary main_call2_cst_1 (constant S_ .f32 0x00000000#32),
    StableHlo.unary main_call2_cst_1 main_call2_call0_v0 (id : (⟨S_, .f32⟩ : BufTy).Contents (Elt F) → _),
    StableHlo.unary main_call2_call0_v0 main_call2_call0_v1 (broadcastInDim S50000x128 ![] bcast_S_S50000x128 : (⟨S_, .f32⟩ : BufTy).Contents (Elt F) → _),
    StableHlo.ternary main_call2_v3 main_call2_call0_v1 main_v159 main_call2_v4 (select : (⟨S50000x128, .i1⟩ : BufTy).Contents (Elt F) → (⟨S50000x128, .f32⟩ : BufTy).Contents (Elt F) → _),
    StableHlo.unary main_call2_v4 main_call2_v5 (Host.expm1 : (⟨S50000x128, .f32⟩ : BufTy).Contents (Elt F) → _),
    StableHlo.nullary main_call2_cst_2 (constant S_ .f32 0x3F800000#32),
    StableHlo.unary main_call2_cst_2 main_call2_v6 (broadcastInDim S50000x128 ![] bcast_S_S50000x128 : (⟨S_, .f32⟩ : BufTy).Contents (Elt F) → _),
    StableHlo.binary main_call2_v6 main_call2_v5 main_call2_v7 (mulf : (⟨S50000x128, .f32⟩ : BufTy).Contents (Elt F) → _),
    StableHlo.ternary main_call2_v1 main_v159 main_call2_v7 main_v160 (select : (⟨S50000x128, .i1⟩ : BufTy).Contents (Elt F) → (⟨S50000x128, .f32⟩ : BufTy).Contents (Elt F) → _),
    StableHlo.nullary main_c_26 (constantI S_ 32 0#32),
    StableHlo.unary main_c_26 main_v161 (broadcastInDim S16384 ![] bcast_S_S16384 : (⟨S_, .i32⟩ : BufTy).Contents (Elt F) → _),
    StableHlo.binary main_arg0 main_v161 main_v162 (cmpi .slt : (⟨S16384, .i32⟩ : BufTy).Contents (Elt F) → _),
    StableHlo.nullary main_c_27 (constantI S_ 32 50000#32),
    StableHlo.unary main_c_27 main_v163 (broadcastInDim S16384 ![] bcast_S_S16384 : (⟨S_, .i32⟩ : BufTy).Contents (Elt F) → _),
    StableHlo.binary main_arg0 main_v163 main_v164 (addi : (⟨S16384, .i32⟩ : BufTy).Contents (Elt F) → _),
    StableHlo.ternary main_v162 main_v164 main_arg0 main_v165 (select : (⟨S16384, .i1⟩ : BufTy).Contents (Elt F) → (⟨S16384, .i32⟩ : BufTy).Contents (Elt F) → _),
    StableHlo.unary main_v165 main_v166 (broadcastInDim S16384x1 ![0] bcast_S16384_S16384x1_0 : (⟨S16384, .i32⟩ : BufTy).Contents (Elt F) → _),
    StableHlo.binary main_v160 main_v166 main_v167 ((fun x i => Host.gather gather_S50000x128_S16384x1_S16384x128_1_0_n_n_0_1_1128 x i) : (⟨S50000x128, .f32⟩ : BufTy).Contents (Elt F) → (⟨S16384x1, .i32⟩ : BufTy).Contents (Elt F) → (⟨S16384x128, .f32⟩ : BufTy).Contents (Elt F)),
    StableHlo.nullary main_cst_28 (constant S_ .f32 0x3F800000#32),
    StableHlo.unary main_cst_28 main_v168 (broadcastInDim S800000 ![] bcast_S_S800000 : (⟨S_, .f32⟩ : BufTy).Contents (Elt F) → _),
    StableHlo.nullary main_cst_29 (constant S_ .f32 0x00000000#32),
    StableHlo.unary main_cst_29 main_v169 (broadcastInDim S50000 ![] bcast_S_S50000 : (⟨S_, .f32⟩ : BufTy).Contents (Elt F) → _),
    StableHlo.unary main_arg5 main_v170 (broadcastInDim S800000x1 ![0] bcast_S800000_S800000x1_0 : (⟨S800000, .i32⟩ : BufTy).Contents (Elt F) → _),
    StableHlo.ternary main_v169 main_v170 main_v168 main_v171 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_30 (constant S_ .f32 0x3F800000#32),
    StableHlo.unary main_cst_30 main_v172 (broadcastInDim S50000 ![] bcast_S_S50000 : (⟨S_, .f32⟩ : BufTy).Contents (Elt F) → _),
    StableHlo.binary main_v171 main_v172 main_v173 (addf : (⟨S50000, .f32⟩ : BufTy).Contents (Elt F) → _),
    StableHlo.nullary main_cst_31 (constant S_ .f32 0x3F800000#32),
    StableHlo.unary main_cst_31 main_v174 (broadcastInDim S50000 ![] bcast_S_S50000 : (⟨S_, .f32⟩ : BufTy).Contents (Elt F) → _),
    StableHlo.binary main_v174 main_v173 main_v175 (Host.divf : (⟨S50000, .f32⟩ : BufTy).Contents (Elt F) → _),
    StableHlo.nullary main_c_32 (constantI S_ 32 0#32),
    StableHlo.unary main_c_32 main_v176 (broadcastInDim S800000 ![] bcast_S_S800000 : (⟨S_, .i32⟩ : BufTy).Contents (Elt F) → _),
    StableHlo.binary main_arg4 main_v176 main_v177 (cmpi .slt : (⟨S800000, .i32⟩ : BufTy).Contents (Elt F) → _),
    StableHlo.nullary main_c_33 (constantI S_ 32 50000#32),
    StableHlo.unary main_c_33 main_v178 (broadcastInDim S800000 ![] bcast_S_S800000 : (⟨S_, .i32⟩ : BufTy).Contents (Elt F) → _),
    StableHlo.binary main_arg4 main_v178 main_v179 (addi : (⟨S800000, .i32⟩ : BufTy).Contents (Elt F) → _),
    StableHlo.ternary main_v177 main_v179 main_arg4 main_v180 (select : (⟨S800000, .i1⟩ : BufTy).Contents (Elt F) → (⟨S800000, .i32⟩ : BufTy).Contents (Elt F) → _),
    StableHlo.unary main_v180 main_v181 (broadcastInDim S800000x1 ![0] bcast_S800000_S800000x1_0 : (⟨S800000, .i32⟩ : BufTy).Contents (Elt F) → _),
    StableHlo.binary main_arg7 main_v181 main_v182 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_34 (constant S_ .f32 0x00000000#32),
    StableHlo.unary main_cst_34 main_v183 (broadcastInDim S50000x128 ![] bcast_S_S50000x128 : (⟨S_, .f32⟩ : BufTy).Contents (Elt F) → _),
    StableHlo.unary main_arg5 main_v184 (broadcastInDim S800000x1 ![0] bcast_S800000_S800000x1_0 : (⟨S800000, .i32⟩ : BufTy).Contents (Elt F) → _),
    StableHlo.ternary main_v183 main_v184 main_v182 main_v185 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v185 main_arg7 main_v186 (addf : (⟨S50000x128, .f32⟩ : BufTy).Contents (Elt F) → _),
    StableHlo.unary main_v175 main_v187 (broadcastInDim S50000x1 ![0] bcast_S50000_S50000x1_0 : (⟨S50000, .f32⟩ : BufTy).Contents (Elt F) → _),
    StableHlo.unary main_v187 main_v188 (broadcastInDim S50000x128 ![0, 1] bcast_S50000x1_S50000x128_0_1 : (⟨S50000x1, .f32⟩ : BufTy).Contents (Elt F) → _),
    StableHlo.binary main_v186 main_v188 main_v189 (mulf : (⟨S50000x128, .f32⟩ : BufTy).Contents (Elt F) → _),
    StableHlo.unary main_arg12 main_v190 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v190 main_v191 rfl shapeCasts_S1x128x128_S128x128,
    StableHlo.binary main_v189 main_v191 main_v192 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v193 ((extractStridedSlice S1x128 ![0, 0] · slices_S3x128_S1x128_0_0) : (⟨S3x128, .f32⟩ : BufTy).Contents (Elt F) → (⟨S1x128, .f32⟩ : BufTy).Contents (Elt F)),
    StableHlo.reshape main_v193 main_v194 rfl shapeCasts_S1x128_S128,
    StableHlo.unary main_v194 main_v195 (broadcastInDim S1x128 ![1] bcast_S128_S1x128_1 : (⟨S128, .f32⟩ : BufTy).Contents (Elt F) → _),
    StableHlo.unary main_v195 main_v196 (broadcastInDim S50000x128 ![0, 1] bcast_S1x128_S50000x128_0_1 : (⟨S1x128, .f32⟩ : BufTy).Contents (Elt F) → _),
    StableHlo.binary main_v192 main_v196 main_v197 (addf : (⟨S50000x128, .f32⟩ : BufTy).Contents (Elt F) → _),
    StableHlo.unary main_arg14 main_v198 ((extractStridedSlice S1x128 ![0, 0] · slices_S3x128_S1x128_0_0) : (⟨S3x128, .f32⟩ : BufTy).Contents (Elt F) → (⟨S1x128, .f32⟩ : BufTy).Contents (Elt F)),
    StableHlo.reshape main_v198 main_v199 rfl shapeCasts_S1x128_S128,
    StableHlo.unary main_arg15 main_v200 ((extractStridedSlice S1x128 ![0, 0] · slices_S3x128_S1x128_0_0) : (⟨S3x128, .f32⟩ : BufTy).Contents (Elt F) → (⟨S1x128, .f32⟩ : BufTy).Contents (Elt F)),
    StableHlo.reshape main_v200 main_v201 rfl shapeCasts_S1x128_S128,
    StableHlo.nullary main_cst_35 (constant S_ .f32 0x00000000#32) ]

end Cert.Hand.R

end
-- ==== Proof.RefOps4.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP4 : List (HloOp τ sig (Elt F)) :=
  [ StableHlo.binary main_v197 main_cst_35 main_v202 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v202 main_v203 (broadcastInDim S50000x1 ![0] bcast_S50000_S50000x1_0 : (⟨S50000, .f32⟩ : BufTy).Contents (Elt F) → _),
    StableHlo.nullary main_cst_36 (constant S_ .f32 0x43000000#32),
    StableHlo.unary main_cst_36 main_v204 (broadcastInDim S50000x1 ![] bcast_S_S50000x1 : (⟨S_, .f32⟩ : BufTy).Contents (Elt F) → _),
    StableHlo.binary main_v203 main_v204 main_v205 (Host.divf : (⟨S50000x1, .f32⟩ : BufTy).Contents (Elt F) → _),
    StableHlo.unary main_v205 main_v206 (broadcastInDim S50000x128 ![0, 1] bcast_S50000x1_S50000x128_0_1 : (⟨S50000x1, .f32⟩ : BufTy).Contents (Elt F) → _),
    StableHlo.binary main_v197 main_v206 main_v207 (subf : (⟨S50000x128, .f32⟩ : BufTy).Contents (Elt F) → _),
    StableHlo.binary main_v207 main_v207 main_v208 (mulf : (⟨S50000x128, .f32⟩ : BufTy).Contents (Elt F) → _),
    StableHlo.nullary main_cst_37 (constant S_ .f32 0x00000000#32),
    StableHlo.binary main_v208 main_cst_37 main_v209 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v209 main_v210 (broadcastInDim S50000x1 ![0] bcast_S50000_S50000x1_0 : (⟨S50000, .f32⟩ : BufTy).Contents (Elt F) → _),
    StableHlo.nullary main_cst_38 (constant S_ .f32 0x43000000#32),
    StableHlo.unary main_cst_38 main_v211 (broadcastInDim S50000x1 ![] bcast_S_S50000x1 : (⟨S_, .f32⟩ : BufTy).Contents (Elt F) → _),
    StableHlo.binary main_v210 main_v211 main_v212 (Host.divf : (⟨S50000x1, .f32⟩ : BufTy).Contents (Elt F) → _),
    StableHlo.unary main_v205 main_v213 (broadcastInDim S50000x128 ![0, 1] bcast_S50000x1_S50000x128_0_1 : (⟨S50000x1, .f32⟩ : BufTy).Contents (Elt F) → _),
    StableHlo.binary main_v197 main_v213 main_v214 (subf : (⟨S50000x128, .f32⟩ : BufTy).Contents (Elt F) → _),
    StableHlo.nullary main_cst_39 (constant S_ .f32 0x3727C5AC#32),
    StableHlo.unary main_cst_39 main_v215 (broadcastInDim S50000x1 ![] bcast_S_S50000x1 : (⟨S_, .f32⟩ : BufTy).Contents (Elt F) → _),
    StableHlo.binary main_v212 main_v215 main_v216 (addf : (⟨S50000x1, .f32⟩ : BufTy).Contents (Elt F) → _),
    StableHlo.unary main_v216 main_v217 (Host.rsqrt : (⟨S50000x1, .f32⟩ : BufTy).Contents (Elt F) → _),
    StableHlo.unary main_v217 main_v218 (broadcastInDim S50000x128 ![0, 1] bcast_S50000x1_S50000x128_0_1 : (⟨S50000x1, .f32⟩ : BufTy).Contents (Elt F) → _),
    StableHlo.binary main_v214 main_v218 main_v219 (mulf : (⟨S50000x128, .f32⟩ : BufTy).Contents (Elt F) → _),
    StableHlo.unary main_v199 main_v220 (broadcastInDim S1x128 ![1] bcast_S128_S1x128_1 : (⟨S128, .f32⟩ : BufTy).Contents (Elt F) → _),
    StableHlo.unary main_v220 main_v221 (broadcastInDim S50000x128 ![0, 1] bcast_S1x128_S50000x128_0_1 : (⟨S1x128, .f32⟩ : BufTy).Contents (Elt F) → _),
    StableHlo.binary main_v219 main_v221 main_v222 (mulf : (⟨S50000x128, .f32⟩ : BufTy).Contents (Elt F) → _),
    StableHlo.unary main_v201 main_v223 (broadcastInDim S1x128 ![1] bcast_S128_S1x128_1 : (⟨S128, .f32⟩ : BufTy).Contents (Elt F) → _),
    StableHlo.unary main_v223 main_v224 (broadcastInDim S50000x128 ![0, 1] bcast_S1x128_S50000x128_0_1 : (⟨S1x128, .f32⟩ : BufTy).Contents (Elt F) → _),
    StableHlo.binary main_v222 main_v224 main_v225 (addf : (⟨S50000x128, .f32⟩ : BufTy).Contents (Elt F) → _),
    StableHlo.nullary main_call3_cst (constant S_ .f32 0x00000000#32),
    StableHlo.unary main_call3_cst main_call3_v0 (broadcastInDim S50000x128 ![] bcast_S_S50000x128 : (⟨S_, .f32⟩ : BufTy).Contents (Elt F) → _),
    StableHlo.binary main_v225 main_call3_v0 main_call3_v1 (cmpf .ogt : (⟨S50000x128, .f32⟩ : BufTy).Contents (Elt F) → _),
    StableHlo.nullary main_call3_cst_0 (constant S_ .f32 0x00000000#32),
    StableHlo.unary main_call3_cst_0 main_call3_v2 (broadcastInDim S50000x128 ![] bcast_S_S50000x128 : (⟨S_, .f32⟩ : BufTy).Contents (Elt F) → _),
    StableHlo.binary main_v225 main_call3_v2 main_call3_v3 (cmpf .ogt : (⟨S50000x128, .f32⟩ : BufTy).Contents (Elt F) → _),
    StableHlo.nullary main_call3_cst_1 (constant S_ .f32 0x00000000#32),
    StableHlo.unary main_call3_cst_1 main_call3_call0_v0 (id : (⟨S_, .f32⟩ : BufTy).Contents (Elt F) → _),
    StableHlo.unary main_call3_call0_v0 main_call3_call0_v1 (broadcastInDim S50000x128 ![] bcast_S_S50000x128 : (⟨S_, .f32⟩ : BufTy).Contents (Elt F) → _),
    StableHlo.ternary main_call3_v3 main_call3_call0_v1 main_v225 main_call3_v4 (select : (⟨S50000x128, .i1⟩ : BufTy).Contents (Elt F) → (⟨S50000x128, .f32⟩ : BufTy).Contents (Elt F) → _),
    StableHlo.unary main_call3_v4 main_call3_v5 (Host.expm1 : (⟨S50000x128, .f32⟩ : BufTy).Contents (Elt F) → _),
    StableHlo.nullary main_call3_cst_2 (constant S_ .f32 0x3F800000#32),
    StableHlo.unary main_call3_cst_2 main_call3_v6 (broadcastInDim S50000x128 ![] bcast_S_S50000x128 : (⟨S_, .f32⟩ : BufTy).Contents (Elt F) → _),
    StableHlo.binary main_call3_v6 main_call3_v5 main_call3_v7 (mulf : (⟨S50000x128, .f32⟩ : BufTy).Contents (Elt F) → _),
    StableHlo.ternary main_call3_v1 main_v225 main_call3_v7 main_v226 (select : (⟨S50000x128, .i1⟩ : BufTy).Contents (Elt F) → (⟨S50000x128, .f32⟩ : BufTy).Contents (Elt F) → _),
    StableHlo.nullary main_c_40 (constantI S_ 32 0#32),
    StableHlo.unary main_c_40 main_v227 (broadcastInDim S800000 ![] bcast_S_S800000 : (⟨S_, .i32⟩ : BufTy).Contents (Elt F) → _),
    StableHlo.binary main_arg4 main_v227 main_v228 (cmpi .slt : (⟨S800000, .i32⟩ : BufTy).Contents (Elt F) → _),
    StableHlo.nullary main_c_41 (constantI S_ 32 50000#32),
    StableHlo.unary main_c_41 main_v229 (broadcastInDim S800000 ![] bcast_S_S800000 : (⟨S_, .i32⟩ : BufTy).Contents (Elt F) → _),
    StableHlo.binary main_arg4 main_v229 main_v230 (addi : (⟨S800000, .i32⟩ : BufTy).Contents (Elt F) → _),
    StableHlo.ternary main_v228 main_v230 main_arg4 main_v231 (select : (⟨S800000, .i1⟩ : BufTy).Contents (Elt F) → (⟨S800000, .i32⟩ : BufTy).Contents (Elt F) → _),
    StableHlo.unary main_v231 main_v232 (broadcastInDim S800000x1 ![0] bcast_S800000_S800000x1_0 : (⟨S800000, .i32⟩ : BufTy).Contents (Elt F) → _),
    StableHlo.binary main_v226 main_v232 main_v233 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_42 (constant S_ .f32 0x00000000#32),
    StableHlo.unary main_cst_42 main_v234 (broadcastInDim S50000x128 ![] bcast_S_S50000x128 : (⟨S_, .f32⟩ : BufTy).Contents (Elt F) → _),
    StableHlo.unary main_arg5 main_v235 (broadcastInDim S800000x1 ![0] bcast_S800000_S800000x1_0 : (⟨S800000, .i32⟩ : BufTy).Contents (Elt F) → _),
    StableHlo.ternary main_v234 main_v235 main_v233 main_v236 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v236 main_v226 main_v237 (addf : (⟨S50000x128, .f32⟩ : BufTy).Contents (Elt F) → _),
    StableHlo.unary main_v175 main_v238 (broadcastInDim S50000x1 ![0] bcast_S50000_S50000x1_0 : (⟨S50000, .f32⟩ : BufTy).Contents (Elt F) → _),
    StableHlo.unary main_v238 main_v239 (broadcastInDim S50000x128 ![0, 1] bcast_S50000x1_S50000x128_0_1 : (⟨S50000x1, .f32⟩ : BufTy).Contents (Elt F) → _),
    StableHlo.binary main_v237 main_v239 main_v240 (mulf : (⟨S50000x128, .f32⟩ : BufTy).Contents (Elt F) → _),
    StableHlo.unary main_arg12 main_v241 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v241 main_v242 rfl shapeCasts_S1x128x128_S128x128,
    StableHlo.binary main_v240 main_v242 main_v243 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v244 ((extractStridedSlice S1x128 ![1, 0] · slices_S3x128_S1x128_1_0) : (⟨S3x128, .f32⟩ : BufTy).Contents (Elt F) → (⟨S1x128, .f32⟩ : BufTy).Contents (Elt F)),
    StableHlo.reshape main_v244 main_v245 rfl shapeCasts_S1x128_S128,
    StableHlo.unary main_v245 main_v246 (broadcastInDim S1x128 ![1] bcast_S128_S1x128_1 : (⟨S128, .f32⟩ : BufTy).Contents (Elt F) → _),
    StableHlo.unary main_v246 main_v247 (broadcastInDim S50000x128 ![0, 1] bcast_S1x128_S50000x128_0_1 : (⟨S1x128, .f32⟩ : BufTy).Contents (Elt F) → _),
    StableHlo.binary main_v243 main_v247 main_v248 (addf : (⟨S50000x128, .f32⟩ : BufTy).Contents (Elt F) → _),
    StableHlo.unary main_arg14 main_v249 ((extractStridedSlice S1x128 ![1, 0] · slices_S3x128_S1x128_1_0) : (⟨S3x128, .f32⟩ : BufTy).Contents (Elt F) → (⟨S1x128, .f32⟩ : BufTy).Contents (Elt F)),
    StableHlo.reshape main_v249 main_v250 rfl shapeCasts_S1x128_S128,
    StableHlo.unary main_arg15 main_v251 ((extractStridedSlice S1x128 ![1, 0] · slices_S3x128_S1x128_1_0) : (⟨S3x128, .f32⟩ : BufTy).Contents (Elt F) → (⟨S1x128, .f32⟩ : BufTy).Contents (Elt F)),
    StableHlo.reshape main_v251 main_v252 rfl shapeCasts_S1x128_S128,
    StableHlo.nullary main_cst_43 (constant S_ .f32 0x00000000#32),
    StableHlo.binary main_v248 main_cst_43 main_v253 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)) ]

end Cert.Hand.R

end
-- ==== Proof.RefOps5.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP5 : List (HloOp τ sig (Elt F)) :=
  [ StableHlo.unary main_v253 main_v254 (broadcastInDim S50000x1 ![0] bcast_S50000_S50000x1_0 : (⟨S50000, .f32⟩ : BufTy).Contents (Elt F) → _),
    StableHlo.nullary main_cst_44 (constant S_ .f32 0x43000000#32),
    StableHlo.unary main_cst_44 main_v255 (broadcastInDim S50000x1 ![] bcast_S_S50000x1 : (⟨S_, .f32⟩ : BufTy).Contents (Elt F) → _),
    StableHlo.binary main_v254 main_v255 main_v256 (Host.divf : (⟨S50000x1, .f32⟩ : BufTy).Contents (Elt F) → _),
    StableHlo.unary main_v256 main_v257 (broadcastInDim S50000x128 ![0, 1] bcast_S50000x1_S50000x128_0_1 : (⟨S50000x1, .f32⟩ : BufTy).Contents (Elt F) → _),
    StableHlo.binary main_v248 main_v257 main_v258 (subf : (⟨S50000x128, .f32⟩ : BufTy).Contents (Elt F) → _),
    StableHlo.binary main_v258 main_v258 main_v259 (mulf : (⟨S50000x128, .f32⟩ : BufTy).Contents (Elt F) → _),
    StableHlo.nullary main_cst_45 (constant S_ .f32 0x00000000#32),
    StableHlo.binary main_v259 main_cst_45 main_v260 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v260 main_v261 (broadcastInDim S50000x1 ![0] bcast_S50000_S50000x1_0 : (⟨S50000, .f32⟩ : BufTy).Contents (Elt F) → _),
    StableHlo.nullary main_cst_46 (constant S_ .f32 0x43000000#32),
    StableHlo.unary main_cst_46 main_v262 (broadcastInDim S50000x1 ![] bcast_S_S50000x1 : (⟨S_, .f32⟩ : BufTy).Contents (Elt F) → _),
    StableHlo.binary main_v261 main_v262 main_v263 (Host.divf : (⟨S50000x1, .f32⟩ : BufTy).Contents (Elt F) → _),
    StableHlo.unary main_v256 main_v264 (broadcastInDim S50000x128 ![0, 1] bcast_S50000x1_S50000x128_0_1 : (⟨S50000x1, .f32⟩ : BufTy).Contents (Elt F) → _),
    StableHlo.binary main_v248 main_v264 main_v265 (subf : (⟨S50000x128, .f32⟩ : BufTy).Contents (Elt F) → _),
    StableHlo.nullary main_cst_47 (constant S_ .f32 0x3727C5AC#32),
    StableHlo.unary main_cst_47 main_v266 (broadcastInDim S50000x1 ![] bcast_S_S50000x1 : (⟨S_, .f32⟩ : BufTy).Contents (Elt F) → _),
    StableHlo.binary main_v263 main_v266 main_v267 (addf : (⟨S50000x1, .f32⟩ : BufTy).Contents (Elt F) → _),
    StableHlo.unary main_v267 main_v268 (Host.rsqrt : (⟨S50000x1, .f32⟩ : BufTy).Contents (Elt F) → _),
    StableHlo.unary main_v268 main_v269 (broadcastInDim S50000x128 ![0, 1] bcast_S50000x1_S50000x128_0_1 : (⟨S50000x1, .f32⟩ : BufTy).Contents (Elt F) → _),
    StableHlo.binary main_v265 main_v269 main_v270 (mulf : (⟨S50000x128, .f32⟩ : BufTy).Contents (Elt F) → _),
    StableHlo.unary main_v250 main_v271 (broadcastInDim S1x128 ![1] bcast_S128_S1x128_1 : (⟨S128, .f32⟩ : BufTy).Contents (Elt F) → _),
    StableHlo.unary main_v271 main_v272 (broadcastInDim S50000x128 ![0, 1] bcast_S1x128_S50000x128_0_1 : (⟨S1x128, .f32⟩ : BufTy).Contents (Elt F) → _),
    StableHlo.binary main_v270 main_v272 main_v273 (mulf : (⟨S50000x128, .f32⟩ : BufTy).Contents (Elt F) → _),
    StableHlo.unary main_v252 main_v274 (broadcastInDim S1x128 ![1] bcast_S128_S1x128_1 : (⟨S128, .f32⟩ : BufTy).Contents (Elt F) → _),
    StableHlo.unary main_v274 main_v275 (broadcastInDim S50000x128 ![0, 1] bcast_S1x128_S50000x128_0_1 : (⟨S1x128, .f32⟩ : BufTy).Contents (Elt F) → _),
    StableHlo.binary main_v273 main_v275 main_v276 (addf : (⟨S50000x128, .f32⟩ : BufTy).Contents (Elt F) → _),
    StableHlo.nullary main_call4_cst (constant S_ .f32 0x00000000#32),
    StableHlo.unary main_call4_cst main_call4_v0 (broadcastInDim S50000x128 ![] bcast_S_S50000x128 : (⟨S_, .f32⟩ : BufTy).Contents (Elt F) → _),
    StableHlo.binary main_v276 main_call4_v0 main_call4_v1 (cmpf .ogt : (⟨S50000x128, .f32⟩ : BufTy).Contents (Elt F) → _),
    StableHlo.nullary main_call4_cst_0 (constant S_ .f32 0x00000000#32),
    StableHlo.unary main_call4_cst_0 main_call4_v2 (broadcastInDim S50000x128 ![] bcast_S_S50000x128 : (⟨S_, .f32⟩ : BufTy).Contents (Elt F) → _),
    StableHlo.binary main_v276 main_call4_v2 main_call4_v3 (cmpf .ogt : (⟨S50000x128, .f32⟩ : BufTy).Contents (Elt F) → _),
    StableHlo.nullary main_call4_cst_1 (constant S_ .f32 0x00000000#32),
    StableHlo.unary main_call4_cst_1 main_call4_call0_v0 (id : (⟨S_, .f32⟩ : BufTy).Contents (Elt F) → _),
    StableHlo.unary main_call4_call0_v0 main_call4_call0_v1 (broadcastInDim S50000x128 ![] bcast_S_S50000x128 : (⟨S_, .f32⟩ : BufTy).Contents (Elt F) → _),
    StableHlo.ternary main_call4_v3 main_call4_call0_v1 main_v276 main_call4_v4 (select : (⟨S50000x128, .i1⟩ : BufTy).Contents (Elt F) → (⟨S50000x128, .f32⟩ : BufTy).Contents (Elt F) → _),
    StableHlo.unary main_call4_v4 main_call4_v5 (Host.expm1 : (⟨S50000x128, .f32⟩ : BufTy).Contents (Elt F) → _),
    StableHlo.nullary main_call4_cst_2 (constant S_ .f32 0x3F800000#32),
    StableHlo.unary main_call4_cst_2 main_call4_v6 (broadcastInDim S50000x128 ![] bcast_S_S50000x128 : (⟨S_, .f32⟩ : BufTy).Contents (Elt F) → _),
    StableHlo.binary main_call4_v6 main_call4_v5 main_call4_v7 (mulf : (⟨S50000x128, .f32⟩ : BufTy).Contents (Elt F) → _),
    StableHlo.ternary main_call4_v1 main_v276 main_call4_v7 main_v277 (select : (⟨S50000x128, .i1⟩ : BufTy).Contents (Elt F) → (⟨S50000x128, .f32⟩ : BufTy).Contents (Elt F) → _),
    StableHlo.nullary main_c_48 (constantI S_ 32 0#32),
    StableHlo.unary main_c_48 main_v278 (broadcastInDim S800000 ![] bcast_S_S800000 : (⟨S_, .i32⟩ : BufTy).Contents (Elt F) → _),
    StableHlo.binary main_arg4 main_v278 main_v279 (cmpi .slt : (⟨S800000, .i32⟩ : BufTy).Contents (Elt F) → _),
    StableHlo.nullary main_c_49 (constantI S_ 32 50000#32),
    StableHlo.unary main_c_49 main_v280 (broadcastInDim S800000 ![] bcast_S_S800000 : (⟨S_, .i32⟩ : BufTy).Contents (Elt F) → _),
    StableHlo.binary main_arg4 main_v280 main_v281 (addi : (⟨S800000, .i32⟩ : BufTy).Contents (Elt F) → _),
    StableHlo.ternary main_v279 main_v281 main_arg4 main_v282 (select : (⟨S800000, .i1⟩ : BufTy).Contents (Elt F) → (⟨S800000, .i32⟩ : BufTy).Contents (Elt F) → _),
    StableHlo.unary main_v282 main_v283 (broadcastInDim S800000x1 ![0] bcast_S800000_S800000x1_0 : (⟨S800000, .i32⟩ : BufTy).Contents (Elt F) → _),
    StableHlo.binary main_v277 main_v283 main_v284 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_50 (constant S_ .f32 0x00000000#32),
    StableHlo.unary main_cst_50 main_v285 (broadcastInDim S50000x128 ![] bcast_S_S50000x128 : (⟨S_, .f32⟩ : BufTy).Contents (Elt F) → _),
    StableHlo.unary main_arg5 main_v286 (broadcastInDim S800000x1 ![0] bcast_S800000_S800000x1_0 : (⟨S800000, .i32⟩ : BufTy).Contents (Elt F) → _),
    StableHlo.ternary main_v285 main_v286 main_v284 main_v287 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_v287 main_v277 main_v288 (addf : (⟨S50000x128, .f32⟩ : BufTy).Contents (Elt F) → _),
    StableHlo.unary main_v175 main_v289 (broadcastInDim S50000x1 ![0] bcast_S50000_S50000x1_0 : (⟨S50000, .f32⟩ : BufTy).Contents (Elt F) → _),
    StableHlo.unary main_v289 main_v290 (broadcastInDim S50000x128 ![0, 1] bcast_S50000x1_S50000x128_0_1 : (⟨S50000x1, .f32⟩ : BufTy).Contents (Elt F) → _),
    StableHlo.binary main_v288 main_v290 main_v291 (mulf : (⟨S50000x128, .f32⟩ : BufTy).Contents (Elt F) → _),
    StableHlo.unary main_arg12 main_v292 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v292 main_v293 rfl shapeCasts_S1x128x128_S128x128,
    StableHlo.binary main_v291 main_v293 main_v294 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg13 main_v295 ((extractStridedSlice S1x128 ![2, 0] · slices_S3x128_S1x128_2_0) : (⟨S3x128, .f32⟩ : BufTy).Contents (Elt F) → (⟨S1x128, .f32⟩ : BufTy).Contents (Elt F)),
    StableHlo.reshape main_v295 main_v296 rfl shapeCasts_S1x128_S128,
    StableHlo.unary main_v296 main_v297 (broadcastInDim S1x128 ![1] bcast_S128_S1x128_1 : (⟨S128, .f32⟩ : BufTy).Contents (Elt F) → _),
    StableHlo.unary main_v297 main_v298 (broadcastInDim S50000x128 ![0, 1] bcast_S1x128_S50000x128_0_1 : (⟨S1x128, .f32⟩ : BufTy).Contents (Elt F) → _),
    StableHlo.binary main_v294 main_v298 main_v299 (addf : (⟨S50000x128, .f32⟩ : BufTy).Contents (Elt F) → _),
    StableHlo.unary main_arg14 main_v300 ((extractStridedSlice S1x128 ![2, 0] · slices_S3x128_S1x128_2_0) : (⟨S3x128, .f32⟩ : BufTy).Contents (Elt F) → (⟨S1x128, .f32⟩ : BufTy).Contents (Elt F)),
    StableHlo.reshape main_v300 main_v301 rfl shapeCasts_S1x128_S128,
    StableHlo.unary main_arg15 main_v302 ((extractStridedSlice S1x128 ![2, 0] · slices_S3x128_S1x128_2_0) : (⟨S3x128, .f32⟩ : BufTy).Contents (Elt F) → (⟨S1x128, .f32⟩ : BufTy).Contents (Elt F)),
    StableHlo.reshape main_v302 main_v303 rfl shapeCasts_S1x128_S128,
    StableHlo.nullary main_cst_51 (constant S_ .f32 0x00000000#32),
    StableHlo.binary main_v299 main_cst_51 main_v304 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v304 main_v305 (broadcastInDim S50000x1 ![0] bcast_S50000_S50000x1_0 : (⟨S50000, .f32⟩ : BufTy).Contents (Elt F) → _) ]

end Cert.Hand.R

end
-- ==== Proof.RefOps6.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP6 : List (HloOp τ sig (Elt F)) :=
  [ StableHlo.nullary main_cst_52 (constant S_ .f32 0x43000000#32),
    StableHlo.unary main_cst_52 main_v306 (broadcastInDim S50000x1 ![] bcast_S_S50000x1 : (⟨S_, .f32⟩ : BufTy).Contents (Elt F) → _),
    StableHlo.binary main_v305 main_v306 main_v307 (Host.divf : (⟨S50000x1, .f32⟩ : BufTy).Contents (Elt F) → _),
    StableHlo.unary main_v307 main_v308 (broadcastInDim S50000x128 ![0, 1] bcast_S50000x1_S50000x128_0_1 : (⟨S50000x1, .f32⟩ : BufTy).Contents (Elt F) → _),
    StableHlo.binary main_v299 main_v308 main_v309 (subf : (⟨S50000x128, .f32⟩ : BufTy).Contents (Elt F) → _),
    StableHlo.binary main_v309 main_v309 main_v310 (mulf : (⟨S50000x128, .f32⟩ : BufTy).Contents (Elt F) → _),
    StableHlo.nullary main_cst_53 (constant S_ .f32 0x00000000#32),
    StableHlo.binary main_v310 main_cst_53 main_v311 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v311 main_v312 (broadcastInDim S50000x1 ![0] bcast_S50000_S50000x1_0 : (⟨S50000, .f32⟩ : BufTy).Contents (Elt F) → _),
    StableHlo.nullary main_cst_54 (constant S_ .f32 0x43000000#32),
    StableHlo.unary main_cst_54 main_v313 (broadcastInDim S50000x1 ![] bcast_S_S50000x1 : (⟨S_, .f32⟩ : BufTy).Contents (Elt F) → _),
    StableHlo.binary main_v312 main_v313 main_v314 (Host.divf : (⟨S50000x1, .f32⟩ : BufTy).Contents (Elt F) → _),
    StableHlo.unary main_v307 main_v315 (broadcastInDim S50000x128 ![0, 1] bcast_S50000x1_S50000x128_0_1 : (⟨S50000x1, .f32⟩ : BufTy).Contents (Elt F) → _),
    StableHlo.binary main_v299 main_v315 main_v316 (subf : (⟨S50000x128, .f32⟩ : BufTy).Contents (Elt F) → _),
    StableHlo.nullary main_cst_55 (constant S_ .f32 0x3727C5AC#32),
    StableHlo.unary main_cst_55 main_v317 (broadcastInDim S50000x1 ![] bcast_S_S50000x1 : (⟨S_, .f32⟩ : BufTy).Contents (Elt F) → _),
    StableHlo.binary main_v314 main_v317 main_v318 (addf : (⟨S50000x1, .f32⟩ : BufTy).Contents (Elt F) → _),
    StableHlo.unary main_v318 main_v319 (Host.rsqrt : (⟨S50000x1, .f32⟩ : BufTy).Contents (Elt F) → _),
    StableHlo.unary main_v319 main_v320 (broadcastInDim S50000x128 ![0, 1] bcast_S50000x1_S50000x128_0_1 : (⟨S50000x1, .f32⟩ : BufTy).Contents (Elt F) → _),
    StableHlo.binary main_v316 main_v320 main_v321 (mulf : (⟨S50000x128, .f32⟩ : BufTy).Contents (Elt F) → _),
    StableHlo.unary main_v301 main_v322 (broadcastInDim S1x128 ![1] bcast_S128_S1x128_1 : (⟨S128, .f32⟩ : BufTy).Contents (Elt F) → _),
    StableHlo.unary main_v322 main_v323 (broadcastInDim S50000x128 ![0, 1] bcast_S1x128_S50000x128_0_1 : (⟨S1x128, .f32⟩ : BufTy).Contents (Elt F) → _),
    StableHlo.binary main_v321 main_v323 main_v324 (mulf : (⟨S50000x128, .f32⟩ : BufTy).Contents (Elt F) → _),
    StableHlo.unary main_v303 main_v325 (broadcastInDim S1x128 ![1] bcast_S128_S1x128_1 : (⟨S128, .f32⟩ : BufTy).Contents (Elt F) → _),
    StableHlo.unary main_v325 main_v326 (broadcastInDim S50000x128 ![0, 1] bcast_S1x128_S50000x128_0_1 : (⟨S1x128, .f32⟩ : BufTy).Contents (Elt F) → _),
    StableHlo.binary main_v324 main_v326 main_v327 (addf : (⟨S50000x128, .f32⟩ : BufTy).Contents (Elt F) → _),
    StableHlo.nullary main_call5_cst (constant S_ .f32 0x00000000#32),
    StableHlo.unary main_call5_cst main_call5_v0 (broadcastInDim S50000x128 ![] bcast_S_S50000x128 : (⟨S_, .f32⟩ : BufTy).Contents (Elt F) → _),
    StableHlo.binary main_v327 main_call5_v0 main_call5_v1 (cmpf .ogt : (⟨S50000x128, .f32⟩ : BufTy).Contents (Elt F) → _),
    StableHlo.nullary main_call5_cst_0 (constant S_ .f32 0x00000000#32),
    StableHlo.unary main_call5_cst_0 main_call5_v2 (broadcastInDim S50000x128 ![] bcast_S_S50000x128 : (⟨S_, .f32⟩ : BufTy).Contents (Elt F) → _),
    StableHlo.binary main_v327 main_call5_v2 main_call5_v3 (cmpf .ogt : (⟨S50000x128, .f32⟩ : BufTy).Contents (Elt F) → _),
    StableHlo.nullary main_call5_cst_1 (constant S_ .f32 0x00000000#32),
    StableHlo.unary main_call5_cst_1 main_call5_call0_v0 (id : (⟨S_, .f32⟩ : BufTy).Contents (Elt F) → _),
    StableHlo.unary main_call5_call0_v0 main_call5_call0_v1 (broadcastInDim S50000x128 ![] bcast_S_S50000x128 : (⟨S_, .f32⟩ : BufTy).Contents (Elt F) → _),
    StableHlo.ternary main_call5_v3 main_call5_call0_v1 main_v327 main_call5_v4 (select : (⟨S50000x128, .i1⟩ : BufTy).Contents (Elt F) → (⟨S50000x128, .f32⟩ : BufTy).Contents (Elt F) → _),
    StableHlo.unary main_call5_v4 main_call5_v5 (Host.expm1 : (⟨S50000x128, .f32⟩ : BufTy).Contents (Elt F) → _),
    StableHlo.nullary main_call5_cst_2 (constant S_ .f32 0x3F800000#32),
    StableHlo.unary main_call5_cst_2 main_call5_v6 (broadcastInDim S50000x128 ![] bcast_S_S50000x128 : (⟨S_, .f32⟩ : BufTy).Contents (Elt F) → _),
    StableHlo.binary main_call5_v6 main_call5_v5 main_call5_v7 (mulf : (⟨S50000x128, .f32⟩ : BufTy).Contents (Elt F) → _),
    StableHlo.ternary main_call5_v1 main_v327 main_call5_v7 main_v328 (select : (⟨S50000x128, .i1⟩ : BufTy).Contents (Elt F) → (⟨S50000x128, .f32⟩ : BufTy).Contents (Elt F) → _),
    StableHlo.nullary main_c_56 (constantI S_ 32 0#32),
    StableHlo.unary main_c_56 main_v329 (broadcastInDim S16384 ![] bcast_S_S16384 : (⟨S_, .i32⟩ : BufTy).Contents (Elt F) → _),
    StableHlo.binary main_arg1 main_v329 main_v330 (cmpi .slt : (⟨S16384, .i32⟩ : BufTy).Contents (Elt F) → _),
    StableHlo.nullary main_c_57 (constantI S_ 32 50000#32),
    StableHlo.unary main_c_57 main_v331 (broadcastInDim S16384 ![] bcast_S_S16384 : (⟨S_, .i32⟩ : BufTy).Contents (Elt F) → _),
    StableHlo.binary main_arg1 main_v331 main_v332 (addi : (⟨S16384, .i32⟩ : BufTy).Contents (Elt F) → _),
    StableHlo.ternary main_v330 main_v332 main_arg1 main_v333 (select : (⟨S16384, .i1⟩ : BufTy).Contents (Elt F) → (⟨S16384, .i32⟩ : BufTy).Contents (Elt F) → _),
    StableHlo.unary main_v333 main_v334 (broadcastInDim S16384x1 ![0] bcast_S16384_S16384x1_0 : (⟨S16384, .i32⟩ : BufTy).Contents (Elt F) → _),
    StableHlo.binary main_v328 main_v334 main_v335 ((fun x i => Host.gather gather_S50000x128_S16384x1_S16384x128_1_0_n_n_0_1_1128 x i) : (⟨S50000x128, .f32⟩ : BufTy).Contents (Elt F) → (⟨S16384x1, .i32⟩ : BufTy).Contents (Elt F) → (⟨S16384x128, .f32⟩ : BufTy).Contents (Elt F)),
    StableHlo.binary main_v167 main_v335 main_v336 ((fun a b => concatenate S16384x256 1 [⟨S16384x128, a⟩, ⟨S16384x128, b⟩] concatenates_S16384x128_S16384x128_S16384x256_d1) : (⟨S16384x128, .f32⟩ : BufTy).Contents (Elt F) → (⟨S16384x128, .f32⟩ : BufTy).Contents (Elt F) → (⟨S16384x256, .f32⟩ : BufTy).Contents (Elt F)),
    StableHlo.binary main_v336 main_arg16 main_v337 ((fun l r => Host.dotGeneral dot_S16384x256_S256x128_S16384x128_1_0_0_1_n_n none l r) : (⟨S16384x256, .f32⟩ : BufTy).Contents (Elt F) → (⟨S256x128, .f32⟩ : BufTy).Contents (Elt F) → (⟨S16384x128, .f32⟩ : BufTy).Contents (Elt F)),
    StableHlo.unary main_arg17 main_v338 (broadcastInDim S1x128 ![1] bcast_S128_S1x128_1 : (⟨S128, .f32⟩ : BufTy).Contents (Elt F) → _),
    StableHlo.unary main_v338 main_v339 (broadcastInDim S16384x128 ![0, 1] bcast_S1x128_S16384x128_0_1 : (⟨S1x128, .f32⟩ : BufTy).Contents (Elt F) → _),
    StableHlo.binary main_v337 main_v339 main_v340 (addf : (⟨S16384x128, .f32⟩ : BufTy).Contents (Elt F) → _),
    StableHlo.nullary main_cst_58 (constant S_ .f32 0x00000000#32),
    StableHlo.binary main_v340 main_cst_58 main_v341 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v341 main_v342 (broadcastInDim S16384x1 ![0] bcast_S16384_S16384x1_0 : (⟨S16384, .f32⟩ : BufTy).Contents (Elt F) → _),
    StableHlo.nullary main_cst_59 (constant S_ .f32 0x43000000#32),
    StableHlo.unary main_cst_59 main_v343 (broadcastInDim S16384x1 ![] bcast_S_S16384x1 : (⟨S_, .f32⟩ : BufTy).Contents (Elt F) → _),
    StableHlo.binary main_v342 main_v343 main_v344 (Host.divf : (⟨S16384x1, .f32⟩ : BufTy).Contents (Elt F) → _),
    StableHlo.unary main_v344 main_v345 (broadcastInDim S16384x128 ![0, 1] bcast_S16384x1_S16384x128_0_1 : (⟨S16384x1, .f32⟩ : BufTy).Contents (Elt F) → _),
    StableHlo.binary main_v340 main_v345 main_v346 (subf : (⟨S16384x128, .f32⟩ : BufTy).Contents (Elt F) → _),
    StableHlo.binary main_v346 main_v346 main_v347 (mulf : (⟨S16384x128, .f32⟩ : BufTy).Contents (Elt F) → _),
    StableHlo.nullary main_cst_60 (constant S_ .f32 0x00000000#32),
    StableHlo.binary main_v347 main_cst_60 main_v348 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v348 main_v349 (broadcastInDim S16384x1 ![0] bcast_S16384_S16384x1_0 : (⟨S16384, .f32⟩ : BufTy).Contents (Elt F) → _),
    StableHlo.nullary main_cst_61 (constant S_ .f32 0x43000000#32),
    StableHlo.unary main_cst_61 main_v350 (broadcastInDim S16384x1 ![] bcast_S_S16384x1 : (⟨S_, .f32⟩ : BufTy).Contents (Elt F) → _),
    StableHlo.binary main_v349 main_v350 main_v351 (Host.divf : (⟨S16384x1, .f32⟩ : BufTy).Contents (Elt F) → _),
    StableHlo.unary main_v344 main_v352 (broadcastInDim S16384x128 ![0, 1] bcast_S16384x1_S16384x128_0_1 : (⟨S16384x1, .f32⟩ : BufTy).Contents (Elt F) → _),
    StableHlo.binary main_v340 main_v352 main_v353 (subf : (⟨S16384x128, .f32⟩ : BufTy).Contents (Elt F) → _),
    StableHlo.nullary main_cst_62 (constant S_ .f32 0x3727C5AC#32),
    StableHlo.unary main_cst_62 main_v354 (broadcastInDim S16384x1 ![] bcast_S_S16384x1 : (⟨S_, .f32⟩ : BufTy).Contents (Elt F) → _) ]

end Cert.Hand.R

end
-- ==== Proof.RefOps7.lean ====
import proofs.«425409_j25305947308735_1_alg».proof.ReferenceIdeal
import Idealize.ShloMosaic.Lib.StableHlo.Run

noncomputable section

namespace Cert.Hand.R

open Cert.ReferenceIdeal Idealize.ShloMosaic Idealize.SL.Sem
open Cert.ReferenceIdeal.Facts₀ Cert.ReferenceIdeal.Facts

variable {F : FTy → Type} [FloatOps F] [Cert.ReferenceIdeal.Facts]

abbrev opsP7 : List (HloOp τ sig (Elt F)) :=
  [ StableHlo.binary main_v351 main_v354 main_v355 (addf : (⟨S16384x1, .f32⟩ : BufTy).Contents (Elt F) → _),
    StableHlo.unary main_v355 main_v356 (Host.rsqrt : (⟨S16384x1, .f32⟩ : BufTy).Contents (Elt F) → _),
    StableHlo.unary main_v356 main_v357 (broadcastInDim S16384x128 ![0, 1] bcast_S16384x1_S16384x128_0_1 : (⟨S16384x1, .f32⟩ : BufTy).Contents (Elt F) → _),
    StableHlo.binary main_v353 main_v357 main_v358 (mulf : (⟨S16384x128, .f32⟩ : BufTy).Contents (Elt F) → _),
    StableHlo.unary main_arg18 main_v359 (broadcastInDim S1x128 ![1] bcast_S128_S1x128_1 : (⟨S128, .f32⟩ : BufTy).Contents (Elt F) → _),
    StableHlo.unary main_v359 main_v360 (broadcastInDim S16384x128 ![0, 1] bcast_S1x128_S16384x128_0_1 : (⟨S1x128, .f32⟩ : BufTy).Contents (Elt F) → _),
    StableHlo.binary main_v358 main_v360 main_v361 (mulf : (⟨S16384x128, .f32⟩ : BufTy).Contents (Elt F) → _),
    StableHlo.unary main_arg19 main_v362 (broadcastInDim S1x128 ![1] bcast_S128_S1x128_1 : (⟨S128, .f32⟩ : BufTy).Contents (Elt F) → _),
    StableHlo.unary main_v362 main_v363 (broadcastInDim S16384x128 ![0, 1] bcast_S1x128_S16384x128_0_1 : (⟨S1x128, .f32⟩ : BufTy).Contents (Elt F) → _),
    StableHlo.binary main_v361 main_v363 main_v364 (addf : (⟨S16384x128, .f32⟩ : BufTy).Contents (Elt F) → _),
    StableHlo.nullary main_call6_cst (constant S_ .f32 0x00000000#32),
    StableHlo.unary main_call6_cst main_call6_v0 (broadcastInDim S16384x128 ![] bcast_S_S16384x128 : (⟨S_, .f32⟩ : BufTy).Contents (Elt F) → _),
    StableHlo.binary main_v364 main_call6_v0 main_v365 (maximumf : (⟨S16384x128, .f32⟩ : BufTy).Contents (Elt F) → _),
    StableHlo.binary main_v365 main_arg20 main_v366 ((fun l r => Host.dotGeneral dot_S16384x128_S128x128_S16384x128_1_0_0_1_n_n none l r) : (⟨S16384x128, .f32⟩ : BufTy).Contents (Elt F) → (⟨S128x128, .f32⟩ : BufTy).Contents (Elt F) → (⟨S16384x128, .f32⟩ : BufTy).Contents (Elt F)),
    StableHlo.unary main_arg21 main_v367 (broadcastInDim S1x128 ![1] bcast_S128_S1x128_1 : (⟨S128, .f32⟩ : BufTy).Contents (Elt F) → _),
    StableHlo.unary main_v367 main_v368 (broadcastInDim S16384x128 ![0, 1] bcast_S1x128_S16384x128_0_1 : (⟨S1x128, .f32⟩ : BufTy).Contents (Elt F) → _),
    StableHlo.binary main_v366 main_v368 main_v369 (addf : (⟨S16384x128, .f32⟩ : BufTy).Contents (Elt F) → _),
    StableHlo.nullary main_cst_63 (constant S_ .f32 0x00000000#32),
    StableHlo.binary main_v369 main_cst_63 main_v370 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v370 main_v371 (broadcastInDim S16384x1 ![0] bcast_S16384_S16384x1_0 : (⟨S16384, .f32⟩ : BufTy).Contents (Elt F) → _),
    StableHlo.nullary main_cst_64 (constant S_ .f32 0x43000000#32),
    StableHlo.unary main_cst_64 main_v372 (broadcastInDim S16384x1 ![] bcast_S_S16384x1 : (⟨S_, .f32⟩ : BufTy).Contents (Elt F) → _),
    StableHlo.binary main_v371 main_v372 main_v373 (Host.divf : (⟨S16384x1, .f32⟩ : BufTy).Contents (Elt F) → _),
    StableHlo.unary main_v373 main_v374 (broadcastInDim S16384x128 ![0, 1] bcast_S16384x1_S16384x128_0_1 : (⟨S16384x1, .f32⟩ : BufTy).Contents (Elt F) → _),
    StableHlo.binary main_v369 main_v374 main_v375 (subf : (⟨S16384x128, .f32⟩ : BufTy).Contents (Elt F) → _),
    StableHlo.binary main_v375 main_v375 main_v376 (mulf : (⟨S16384x128, .f32⟩ : BufTy).Contents (Elt F) → _),
    StableHlo.nullary main_cst_65 (constant S_ .f32 0x00000000#32),
    StableHlo.binary main_v376 main_cst_65 main_v377 ((fun x v => Host.reduceAdd x v reducesTo_S16384x128_S16384_d1 h_S_) : (⟨S16384x128, .f32⟩ : BufTy).Contents (Elt F) → (⟨S_, .f32⟩ : BufTy).Contents (Elt F) → (⟨S16384, .f32⟩ : BufTy).Contents (Elt F)),
    StableHlo.unary main_v377 main_v378 (broadcastInDim S16384x1 ![0] bcast_S16384_S16384x1_0 : (⟨S16384, .f32⟩ : BufTy).Contents (Elt F) → _),
    StableHlo.nullary main_cst_66 (constant S_ .f32 0x43000000#32),
    StableHlo.unary main_cst_66 main_v379 (broadcastInDim S16384x1 ![] bcast_S_S16384x1 : (⟨S_, .f32⟩ : BufTy).Contents (Elt F) → _),
    StableHlo.binary main_v378 main_v379 main_v380 (Host.divf : (⟨S16384x1, .f32⟩ : BufTy).Contents (Elt F) → _),
    StableHlo.unary main_v373 main_v381 (broadcastInDim S16384x128 ![0, 1] bcast_S16384x1_S16384x128_0_1 : (⟨S16384x1, .f32⟩ : BufTy).Contents (Elt F) → _),
    StableHlo.binary main_v369 main_v381 main_v382 (subf : (⟨S16384x128, .f32⟩ : BufTy).Contents (Elt F) → _),
    StableHlo.nullary main_cst_67 (constant S_ .f32 0x3727C5AC#32),
    StableHlo.unary main_cst_67 main_v383 (broadcastInDim S16384x1 ![] bcast_S_S16384x1 : (⟨S_, .f32⟩ : BufTy).Contents (Elt F) → _),
    StableHlo.binary main_v380 main_v383 main_v384 (addf : (⟨S16384x1, .f32⟩ : BufTy).Contents (Elt F) → _),
    StableHlo.unary main_v384 main_v385 (Host.rsqrt : (⟨S16384x1, .f32⟩ : BufTy).Contents (Elt F) → _),
    StableHlo.unary main_v385 main_v386 (broadcastInDim S16384x128 ![0, 1] bcast_S16384x1_S16384x128_0_1 : (⟨S16384x1, .f32⟩ : BufTy).Contents (Elt F) → _),
    StableHlo.binary main_v382 main_v386 main_v387 (mulf : (⟨S16384x128, .f32⟩ : BufTy).Contents (Elt F) → _),
    StableHlo.unary main_arg22 main_v388 (broadcastInDim S1x128 ![1] bcast_S128_S1x128_1 : (⟨S128, .f32⟩ : BufTy).Contents (Elt F) → _),
    StableHlo.unary main_v388 main_v389 (broadcastInDim S16384x128 ![0, 1] bcast_S1x128_S16384x128_0_1 : (⟨S1x128, .f32⟩ : BufTy).Contents (Elt F) → _),
    StableHlo.binary main_v387 main_v389 main_v390 (mulf : (⟨S16384x128, .f32⟩ : BufTy).Contents (Elt F) → _),
    StableHlo.unary main_arg23 main_v391 (broadcastInDim S1x128 ![1] bcast_S128_S1x128_1 : (⟨S128, .f32⟩ : BufTy).Contents (Elt F) → _),
    StableHlo.unary main_v391 main_v392 (broadcastInDim S16384x128 ![0, 1] bcast_S1x128_S16384x128_0_1 : (⟨S1x128, .f32⟩ : BufTy).Contents (Elt F) → _),
    StableHlo.binary main_v390 main_v392 main_v393 (addf : (⟨S16384x128, .f32⟩ : BufTy).Contents (Elt F) → _),
    StableHlo.nullary main_call7_cst (constant S_ .f32 0x00000000#32),
    StableHlo.unary main_call7_cst main_call7_v0 (broadcastInDim S16384x128 ![] bcast_S_S16384x128 : (⟨S_, .f32⟩ : BufTy).Contents (Elt F) → _),
    StableHlo.binary main_v393 main_call7_v0 main_v394 (maximumf : (⟨S16384x128, .f32⟩ : BufTy).Contents (Elt F) → _),
    StableHlo.binary main_v394 main_arg24 main_v395 ((fun l r => Host.dotGeneral dot_S16384x128_S128x1_S16384x1_1_0_0_1_n_n none l r) : (⟨S16384x128, .f32⟩ : BufTy).Contents (Elt F) → (⟨S128x1, .f32⟩ : BufTy).Contents (Elt F) → (⟨S16384x1, .f32⟩ : BufTy).Contents (Elt F)),
    StableHlo.unary main_arg25 main_v396 (broadcastInDim S1x1 ![1] bcast_S1_S1x1_1 : (⟨S1, .f32⟩ : BufTy).Contents (Elt F) → _),
    StableHlo.unary main_v396 main_v397 (broadcastInDim S16384x1 ![0, 1] bcast_S1x1_S16384x1_0_1 : (⟨S1x1, .f32⟩ : BufTy).Contents (Elt F) → _),
    StableHlo.binary main_v395 main_v397 main_v398 (addf : (⟨S16384x1, .f32⟩ : BufTy).Contents (Elt F) → _),
    StableHlo.unary main_v398 main_v399 (Host.negf : (⟨S16384x1, .f32⟩ : BufTy).Contents (Elt F) → _),
    StableHlo.unary main_v399 main_v400 (Host.exp : (⟨S16384x1, .f32⟩ : BufTy).Contents (Elt F) → _),
    StableHlo.nullary main_cst_68 (constant S_ .f32 0x3F800000#32),
    StableHlo.unary main_cst_68 main_v401 (broadcastInDim S16384x1 ![] bcast_S_S16384x1 : (⟨S_, .f32⟩ : BufTy).Contents (Elt F) → _),
    StableHlo.binary main_v401 main_v400 main_v402 (addf : (⟨S16384x1, .f32⟩ : BufTy).Contents (Elt F) → _),
    StableHlo.nullary main_cst_69 (constant S_ .f32 0x3F800000#32),
    StableHlo.unary main_cst_69 main_v403 (broadcastInDim S16384x1 ![] bcast_S_S16384x1 : (⟨S_, .f32⟩ : BufTy).Contents (Elt F) → _),
    StableHlo.binary main_v403 main_v402 main_v404 (Host.divf : (⟨S16384x1, .f32⟩ : BufTy).Contents (Elt F) → _),
    StableHlo.reshape main_v404 main_v405 rfl shapeCasts_S16384x1_S16384 ]

end Cert.Hand.R

end
-- ==== Proof.RefVals.lean ====
import proofs.«425409_j25305947308735_1_alg».proof.Proof.RefOps0
import proofs.«425409_j25305947308735_1_alg».proof.Proof.RefOps1
import proofs.«425409_j25305947308735_1_alg».proof.Proof.RefOps2
import proofs.«425409_j25305947308735_1_alg».proof.Proof.RefOps3
import proofs.«425409_j25305947308735_1_alg».proof.Proof.RefOps4
import proofs.«425409_j25305947308735_1_alg».proof.Proof.RefOps5
import proofs.«425409_j25305947308735_1_alg».proof.Proof.RefOps6
import proofs.«425409_j25305947308735_1_alg».proof.Proof.RefOps7

noncomputable section

namespace Cert.Hand.R

open Cert.ReferenceIdeal Idealize.ShloMosaic Idealize.ShloMosaic.TcCoe Idealize.SL.Sem Idealize.ShloMosaic.StableHlo

variable {F : FTy → Type} [FloatOps F] [Cert.ReferenceIdeal.Facts]

abbrev RW0 (m : (ℓ : Loc nD τ sig) → Buf (Elt F) ℓ) (d : Dev nD) : Valuation τ sig (Elt F) := launchContents m d

abbrev RW1 (m : (ℓ : Loc nD τ sig) → Buf (Elt F) ℓ) (d : Dev nD) : Valuation τ sig (Elt F) := after opsP0 (RW0 m d)

abbrev RW2 (m : (ℓ : Loc nD τ sig) → Buf (Elt F) ℓ) (d : Dev nD) : Valuation τ sig (Elt F) := after opsP1 (RW1 m d)

abbrev RW3 (m : (ℓ : Loc nD τ sig) → Buf (Elt F) ℓ) (d : Dev nD) : Valuation τ sig (Elt F) := after opsP2 (RW2 m d)

abbrev RW4 (m : (ℓ : Loc nD τ sig) → Buf (Elt F) ℓ) (d : Dev nD) : Valuation τ sig (Elt F) := after opsP3 (RW3 m d)

abbrev RW5 (m : (ℓ : Loc nD τ sig) → Buf (Elt F) ℓ) (d : Dev nD) : Valuation τ sig (Elt F) := after opsP4 (RW4 m d)

abbrev RW6 (m : (ℓ : Loc nD τ sig) → Buf (Elt F) ℓ) (d : Dev nD) : Valuation τ sig (Elt F) := after opsP5 (RW5 m d)

abbrev RW7 (m : (ℓ : Loc nD τ sig) → Buf (Elt F) ℓ) (d : Dev nD) : Valuation τ sig (Elt F) := after opsP6 (RW6 m d)

abbrev RW8 (m : (ℓ : Loc nD τ sig) → Buf (Elt F) ℓ) (d : Dev nD) : Valuation τ sig (Elt F) := after opsP7 (RW7 m d)

end Cert.Hand.R

end
-- ==== Proof.RefRun.lean ====
import Idealize.ShloMosaic.Lib.Pipeline.Frame
import proofs.«425409_j25305947308735_1_alg».proof.Proof.RefVals

noncomputable section

namespace Cert.Hand.R

open Cert.ReferenceIdeal Idealize.ShloMosaic Idealize.ShloMosaic.TcCoe Idealize.SL.Sem Idealize.ShloMosaic.StableHlo

variable {F : FTy → Type} [FloatOps F] [Cert.ReferenceIdeal.Facts]

abbrev ops : List (HloOp τ sig (Elt F)) :=
  opsP0 ++ (opsP1 ++ (opsP2 ++ (opsP3 ++ (opsP4 ++ (opsP5 ++ (opsP6 ++ opsP7))))))

-- both sides are the same chain of steps once the outlined functions and the sequencing are unfolded
theorem main_eq (c : Dev nD) : main (F := F) c = seq ops := rfl

-- every buffer reference of a device lies in tcRefs
theorem all_tc : ∀ b : DevRef τ sig, b ∈ tcRefs τ sig
  | ⟨.hbm, i, _⟩ => Finset.mem_map.2 ⟨⟨.hbm, i, rfl⟩, Finset.mem_univ _, rfl⟩
  | ⟨.host, i, _⟩ => Finset.mem_map.2 ⟨⟨.host, i, rfl⟩, Finset.mem_univ _, rfl⟩
  | ⟨.local .tc cs, i, _⟩ => Finset.mem_map.2 ⟨⟨.core cs, i, by cases cs <;> rfl⟩, Finset.mem_univ _, rfl⟩
  | ⟨.shared, i, _⟩ | ⟨.local .scScalar _, i, _⟩ | ⟨.local .scVector _, i, _⟩ => i.elim0

-- every operation determines what it writes, and writes no argument (the arguments are buffers 0 … 25)
theorem ops_ok : (ops : List (HloOp τ sig (Elt F))).Forall fun op => op.fresh = ∅ ∧ ∀ x ∈ op.writes, 26 ≤ x.idx.val := by
  simp only [ops, List.forall_append, List.Forall]
  and_intros <;> first | rfl | (intro x h; cases Finset.mem_singleton.1 h; decide)

theorem run_after (m : (ℓ : Loc nD τ sig) → Buf (Elt F) ℓ) (ρ : Dev nD → PrngReg) :
    θ_run defs (onTc (τ := τ) (main (F := F))) ⟨m, fun _ => 0, ρ⟩ fun r => ∀ (d : Dev nD) (b : Ref sig .tc),
      r.2.mem ((d.tc : Thread nD τ).loc b) = RW8 m d (Proc.devRef .tc b) :=
  (θ_run defs _ _).mono (fun _ h d b => (h d b).trans (by simp only [ops, StableHlo.after_append]))
    (run_seq (by decide) (by decide) defs main (fun _ => ops) main_eq
      (fun _ => List.forall_iff_forall_mem.2 fun _ _ b _ => all_tc b) m ρ
      fun _ op h => (List.forall_iff_forall_mem.1 ops_ok op h).1)

-- a line of @main's operations leaves the argument buffers as it found them
theorem keep {l : List (HloOp τ sig (Elt F))} (V : Valuation τ sig (Elt F)) {b : DevRef τ sig} (hb : b.idx.val < 26)
    (hl : ∀ op ∈ l, op ∈ ops := by intro _ h; simp only [ops, List.mem_append, h, true_or, or_true]) : after l V b = V b :=
  after_of_forall_not_mem l V fun op ho hw => Nat.not_le.2 hb ((List.forall_iff_forall_mem.1 ops_ok op (hl op ho)).2 b hw)

variable (m : (ℓ : Loc nD τ sig) → Buf (Elt F) ℓ) (d : Dev nD) (V : Valuation τ sig (Elt F)) {b : DevRef τ sig}
  (hb : b.idx.val < 26)
include hb

theorem keepP0 : after opsP0 V b = V b := keep V hb
theorem keepP1 : after opsP1 V b = V b := keep V hb
theorem keepP2 : after opsP2 V b = V b := keep V hb
theorem keepP3 : after opsP3 V b = V b := keep V hb
theorem keepP4 : after opsP4 V b = V b := keep V hb
theorem keepP5 : after opsP5 V b = V b := keep V hb
theorem keepP6 : after opsP6 V b = V b := keep V hb
theorem keepP7 : after opsP7 V b = V b := keep V hb

theorem RW1_arg : RW1 m d b = m (d, b) := keep _ hb
theorem RW2_arg : RW2 m d b = m (d, b) := (keep _ hb).trans (RW1_arg m d hb)
theorem RW3_arg : RW3 m d b = m (d, b) := (keep _ hb).trans (RW2_arg m d hb)
theorem RW4_arg : RW4 m d b = m (d, b) := (keep _ hb).trans (RW3_arg m d hb)
theorem RW5_arg : RW5 m d b = m (d, b) := (keep _ hb).trans (RW4_arg m d hb)
theorem RW6_arg : RW6 m d b = m (d, b) := (keep _ hb).trans (RW5_arg m d hb)
theorem RW7_arg : RW7 m d b = m (d, b) := (keep _ hb).trans (RW6_arg m d hb)
theorem RW8_arg : RW8 m d b = m (d, b) := (keep _ hb).trans (RW7_arg m d hb)

end Cert.Hand.R

end
-- ==== Proof.RefHeadIdx.lean ====
import proofs.«425409_j25305947308735_1_alg».proof.ReferenceIdeal
import Idealize.ShloMosaic.Lib.IdealHost
import Idealize.ShloMosaic.Lib.StackMember
import Idealize.ShloMosaic.Lib.Pipeline.Value
import Idealize.ShloMosaic.PureOps.Ideal.Laws

noncomputable section

namespace Cert.Hand.R

open Idealize.ShloMosaic Idealize.ShloMosaic.ValueIdx Cert.ReferenceIdeal
open scoped BigOperators

variable [hRef : Cert.ReferenceIdeal.Facts]
open Cert.ReferenceIdeal.Facts₀ Cert.ReferenceIdeal.Facts

theorem head_bcastRow_apply (b : FVec Ideal S128 .f32) (n : Fin 16384) (j : Fin 128) :
    broadcastInDim S16384x128 ![0, 1] bcast_S1x128_S16384x128_0_1 (broadcastInDim S1x128 ![1] bcast_S128_S1x128_1 b) (ix2 n j)
      = b (ix1 j) := by
  rw [broadcastInDim_apply _ _ _ _ (ix2 (0 : Fin 1) j) (fun a => match a with | ⟨0, _⟩ => rfl | ⟨1, _⟩ => rfl)]
  rw [broadcastInDim_apply _ _ _ _ (ix1 j) (fun a => match a with | ⟨0, _⟩ => rfl)]

theorem head_bcastCol_apply (c : FVec Ideal S16384x1 .f32) (n : Fin 16384) (j : Fin 128) :
    broadcastInDim S16384x128 ![0, 1] bcast_S16384x1_S16384x128_0_1 c (ix2 n j) = c (ix2 n (0 : Fin 1)) := by
  rw [broadcastInDim_apply _ _ _ _ (ix2 n (0 : Fin 1)) (fun a => match a with | ⟨0, _⟩ => rfl | ⟨1, _⟩ => rfl)]

theorem head_toCol_apply (v : FVec Ideal S16384 .f32) (n : Fin 16384) :
    broadcastInDim S16384x1 ![0] bcast_S16384_S16384x1_0 v (ix2 n (0 : Fin 1)) = v (ix1 n) := by
  rw [broadcastInDim_apply _ _ _ _ (ix1 n) (fun a => match a with | ⟨0, _⟩ => rfl)]

theorem head_splatCol_apply (w : BitVec 32) (i : S16384x1.Idx) :
    broadcastInDim S16384x1 ![] bcast_S_S16384x1 (constant (F := Ideal) S_ .f32 w) i = Ideal.ofBits .f32 w := by
  rw [broadcastInDim_scalar_apply]; rfl

theorem head_splat_apply (w : BitVec 32) (i : S16384x128.Idx) :
    broadcastInDim S16384x128 ![] bcast_S_S16384x128 (constant (F := Ideal) S_ .f32 w) i = Ideal.ofBits .f32 w := by
  rw [broadcastInDim_scalar_apply]; rfl

theorem head_bcastOne_apply (b : FVec Ideal S1 .f32) (n : Fin 16384) :
    broadcastInDim S16384x1 ![0, 1] bcast_S1x1_S16384x1_0_1 (broadcastInDim S1x1 ![1] bcast_S1_S1x1_1 b) (ix2 n (0 : Fin 1))
      = b (ix1 (0 : Fin 1)) := by
  rw [broadcastInDim_apply _ _ _ _ (ix2 (0 : Fin 1) (0 : Fin 1)) (fun a => match a with | ⟨0, _⟩ => rfl | ⟨1, _⟩ => rfl)]
  rw [broadcastInDim_apply _ _ _ _ (ix1 (0 : Fin 1)) (fun a => match a with | ⟨0, _⟩ => rfl)]

theorem head_rowSum_apply (y : FVec Ideal S16384x128 .f32) (n : Fin 16384) :
    Host.reduceAdd y (constant (F := Ideal) S_ .f32 0x00000000#32) reducesTo_S16384x128_S16384_d1 h_S_ (ix1 n)
      = ∑ k : Fin 128, y (ix2 n k) := by
  have hR : S16384x128.Reduces [1] S16384 := by decide
  rw [hostReduceAdd_apply, Ideal.hostReduceAdd_single reducesTo_S16384x128_S16384_d1 hR]
  rw [constant_apply, Ideal.ofBits_zero_f32, zero_add]
  refine Finset.sum_congr rfl fun k _ => congrArg y ?_
  funext a
  match a with
  | ⟨0, _⟩ => rfl
  | ⟨1, _⟩ => rfl

-- The three products of the head are plain products of a matrix by a matrix: sums over the contracted coordinate.
theorem head_dot1_apply (x : FVec Ideal S16384x256 .f32) (W : FVec Ideal S256x128 .f32) (n : Fin 16384) (j : Fin 128) :
    Host.dotGeneral dot_S16384x256_S256x128_S16384x128_1_0_0_1_n_n none x W (ix2 n j) = ∑ k : Fin 256, x (ix2 n k) * W (ix2 k j) :=
  StackMember.dotGeneral_plain_apply none x W n j

theorem head_dot2_apply (x : FVec Ideal S16384x128 .f32) (W : FVec Ideal S128x128 .f32) (n : Fin 16384) (j : Fin 128) :
    Host.dotGeneral dot_S16384x128_S128x128_S16384x128_1_0_0_1_n_n none x W (ix2 n j) = ∑ k : Fin 128, x (ix2 n k) * W (ix2 k j) :=
  StackMember.dotGeneral_plain_apply none x W n j

theorem head_dot3_apply (x : FVec Ideal S16384x128 .f32) (W : FVec Ideal S128x1 .f32) (n : Fin 16384) (j : Fin 1) :
    Host.dotGeneral dot_S16384x128_S128x1_S16384x1_1_0_0_1_n_n none x W (ix2 n j) = ∑ k : Fin 128, x (ix2 n k) * W (ix2 k j) :=
  StackMember.dotGeneral_plain_apply none x W n j

theorem head_concat_apply (A B : FVec Ideal S16384x128 .f32) (n : Fin 16384) (k : Fin 256) :
    concatenate S16384x256 1 [⟨S16384x128, A⟩, ⟨S16384x128, B⟩] concatenates_S16384x128_S16384x128_S16384x256_d1 (ix2 n k)
      = if h : k.val < 128 then A (ix2 n ⟨k.val, h⟩) else B (ix2 n ⟨k.val - 128, by have := k.isLt; omega⟩) := by
  by_cases h : k.val < 128
  · rw [dif_pos h]
    exact concatenate_pair_apply_left 1 A B _ (ix2 n k) rfl (ix2 n ⟨k.val, h⟩)
      (fun b => match b with | ⟨0, _⟩ => rfl | ⟨1, _⟩ => rfl)
  · rw [dif_neg h]
    refine concatenate_pair_apply_right 1 A B _ (ix2 n k) rfl rfl (ix2 n ⟨k.val - 128, by have := k.isLt; omega⟩)
      (fun b hb => match b, hb with | ⟨0, _⟩, _ => rfl | ⟨1, _⟩, hb => absurd rfl hb) ?_
    show k.val - 128 + 128 = k.val
    omega

theorem head_flat_apply (z : FVec Ideal S16384x1 .f32) (n : Fin 16384) :
    shapeCast S16384 z shapeCasts_S16384x1_S16384 (ix1 n) = z (ix2 n (0 : Fin 1)) := by
  refine shapeCast_apply z _ (ix1 n) (ix2 n (0 : Fin 1)) ?_
  rw [Shape.rowMajor_val_two, Shape.rowMajor_val_one]
  show n.val * 1 + 0 = n.val
  omega

theorem head_rsqrt_apply {s : Shape} (x : FVec Ideal s .f32) (i : s.Idx) : Host.rsqrt x i = Ideal.rsqrt (x i) := rfl

theorem head_exp_apply {s : Shape} (x : FVec Ideal s .f32) (i : s.Idx) : Host.exp x i = Ideal.exp (x i) := rfl

theorem head_neg_apply {s : Shape} (x : FVec Ideal s .f32) (i : s.Idx) : Host.negf x i = -(x i) := rfl

end Cert.Hand.R

end
-- ==== Proof.RefHeadMath.lean ====
import proofs.«425409_j25305947308735_1_alg».proof.Proof.Spec
import proofs.«425409_j25305947308735_1_alg».proof.Proof.RefHeadIdx

noncomputable section

namespace Cert.Hand.R

open Idealize.ShloMosaic Idealize.ShloMosaic.ValueIdx Cert.ReferenceIdeal Cert.Hand
open scoped BigOperators

variable [hRef : Cert.ReferenceIdeal.Facts]
open Cert.ReferenceIdeal.Facts₀ Cert.ReferenceIdeal.Facts

def refMean (y : FVec Ideal S16384x128 .f32) : FVec Ideal S16384x1 .f32 :=
  Host.divf (broadcastInDim S16384x1 ![0] bcast_S16384_S16384x1_0 (Host.reduceAdd y (constant (F := Ideal) S_ .f32 0x00000000#32) reducesTo_S16384x128_S16384_d1 h_S_)) (broadcastInDim S16384x1 ![] bcast_S_S16384x1 (constant (F := Ideal) S_ .f32 0x43000000#32))

def refCen (y : FVec Ideal S16384x128 .f32) : FVec Ideal S16384x128 .f32 :=
  subf y (broadcastInDim S16384x128 ![0, 1] bcast_S16384x1_S16384x128_0_1 (refMean y))

def refVar (y : FVec Ideal S16384x128 .f32) : FVec Ideal S16384x1 .f32 :=
  Host.divf (broadcastInDim S16384x1 ![0] bcast_S16384_S16384x1_0 (Host.reduceAdd (mulf (refCen y) (refCen y)) (constant (F := Ideal) S_ .f32 0x00000000#32) reducesTo_S16384x128_S16384_d1 h_S_)) (broadcastInDim S16384x1 ![] bcast_S_S16384x1 (constant (F := Ideal) S_ .f32 0x43000000#32))

-- The normalisation from centred rows, a reciprocal square root column, and scale and shift rows.
def normTail (cen : FVec Ideal S16384x128 .f32) (R : FVec Ideal S16384x1 .f32) (g be : FVec Ideal S128 .f32) :
    FVec Ideal S16384x128 .f32 :=
  addf
    (mulf (mulf cen (broadcastInDim S16384x128 ![0, 1] bcast_S16384x1_S16384x128_0_1 R))
      (broadcastInDim S16384x128 ![0, 1] bcast_S1x128_S16384x128_0_1 (broadcastInDim S1x128 ![1] bcast_S128_S1x128_1 g)))
    (broadcastInDim S16384x128 ![0, 1] bcast_S1x128_S16384x128_0_1 (broadcastInDim S1x128 ![1] bcast_S128_S1x128_1 be))

def refNorm (y : FVec Ideal S16384x128 .f32) (g be : FVec Ideal S128 .f32) : FVec Ideal S16384x128 .f32 :=
  normTail (refCen y) (Host.rsqrt (addf (refVar y) (broadcastInDim S16384x1 ![] bcast_S_S16384x1 (constant (F := Ideal) S_ .f32 0x3727C5AC#32)))) g be

def refRelu (y : FVec Ideal S16384x128 .f32) : FVec Ideal S16384x128 .f32 :=
  maximumf y (broadcastInDim S16384x128 ![] bcast_S_S16384x128 (constant (F := Ideal) S_ .f32 0x00000000#32))

def refIn (U S : FVec Ideal S50000x128 .f32) (uidx iidx : IVec S16384 32) : FVec Ideal S16384x256 .f32 :=
  concatenate S16384x256 1 [⟨S16384x128, Spec.rowsOf U uidx⟩, ⟨S16384x128, Spec.rowsOf S iidx⟩]
    concatenates_S16384x128_S16384x128_S16384x256_d1

def refDense1 (x : FVec Ideal S16384x256 .f32) (W : FVec Ideal S256x128 .f32) (b : FVec Ideal S128 .f32) :
    FVec Ideal S16384x128 .f32 :=
  addf (Host.dotGeneral dot_S16384x256_S256x128_S16384x128_1_0_0_1_n_n none x W) (broadcastInDim S16384x128 ![0, 1] bcast_S1x128_S16384x128_0_1 (broadcastInDim S1x128 ![1] bcast_S128_S1x128_1 b))

def refDense2 (x : FVec Ideal S16384x128 .f32) (W : FVec Ideal S128x128 .f32) (b : FVec Ideal S128 .f32) :
    FVec Ideal S16384x128 .f32 :=
  addf (Host.dotGeneral dot_S16384x128_S128x128_S16384x128_1_0_0_1_n_n none x W) (broadcastInDim S16384x128 ![0, 1] bcast_S1x128_S16384x128_0_1 (broadcastInDim S1x128 ![1] bcast_S128_S1x128_1 b))

def refDense3 (x : FVec Ideal S16384x128 .f32) (W : FVec Ideal S128x1 .f32) (b : FVec Ideal S1 .f32) :
    FVec Ideal S16384x1 .f32 :=
  addf (Host.dotGeneral dot_S16384x128_S128x1_S16384x1_1_0_0_1_n_n none x W)
    (broadcastInDim S16384x1 ![0, 1] bcast_S1x1_S16384x1_0_1 (broadcastInDim S1x1 ![1] bcast_S1_S1x1_1 b))

def refSigm (z : FVec Ideal S16384x1 .f32) : FVec Ideal S16384x1 .f32 :=
  Host.divf (broadcastInDim S16384x1 ![] bcast_S_S16384x1 (constant (F := Ideal) S_ .f32 0x3F800000#32)) (addf (broadcastInDim S16384x1 ![] bcast_S_S16384x1 (constant (F := Ideal) S_ .f32 0x3F800000#32)) (Host.exp (Host.negf z)))

def refHeadTerm (U S : FVec Ideal S50000x128 .f32) (uidx iidx : IVec S16384 32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) : FVec Ideal S16384 .f32 :=
  shapeCast S16384
    (refSigm (refDense3
      (refRelu (refNorm (refDense2
        (refRelu (refNorm (refDense1 (refIn U S uidx iidx) W1 b1) g1 be1))
        W2 b2) g2 be2))
      W3 b3))
    shapeCasts_S16384x1_S16384

theorem refMean_apply (y : FVec Ideal S16384x128 .f32) (n : Fin 16384) :
    refMean y (ix2 n (0 : Fin 1)) = Spec.rowMean (fun k => y (ix2 n k)) := by
  unfold refMean Spec.rowMean Spec.c128
  rw [hostDivf_apply, head_toCol_apply, head_rowSum_apply, head_splatCol_apply]

theorem refCen_apply (y : FVec Ideal S16384x128 .f32) (n : Fin 16384) (j : Fin 128) :
    refCen y (ix2 n j) = y (ix2 n j) - Spec.rowMean (fun k => y (ix2 n k)) := by
  unfold refCen
  rw [subf_apply, head_bcastCol_apply, refMean_apply]

theorem refVar_apply (y : FVec Ideal S16384x128 .f32) (n : Fin 16384) :
    refVar y (ix2 n (0 : Fin 1)) = Spec.rowVar (fun k => y (ix2 n k)) := by
  unfold refVar Spec.rowVar Spec.c128
  rw [hostDivf_apply, head_toCol_apply, head_rowSum_apply, head_splatCol_apply]
  refine congrArg (fun s => Ideal.div s _) (Finset.sum_congr rfl fun k _ => ?_)
  rw [mulf_apply, refCen_apply]

theorem refNorm_apply (y : FVec Ideal S16384x128 .f32) (g be : FVec Ideal S128 .f32) (n : Fin 16384) (j : Fin 128) :
    refNorm y g be (ix2 n j)
      = Spec.lnRow (fun k => y (ix2 n k)) (fun k => g (ix1 k)) (fun k => be (ix1 k)) j := by
  unfold refNorm normTail Spec.lnRow Spec.ceps
  rw [addf_apply, mulf_apply, mulf_apply, refCen_apply, head_bcastCol_apply, head_rsqrt_apply, addf_apply,
    refVar_apply, head_splatCol_apply, head_bcastRow_apply, head_bcastRow_apply]

theorem refRelu_apply (y : FVec Ideal S16384x128 .f32) (i : S16384x128.Idx) : refRelu y i = max (y i) 0 := by
  unfold refRelu
  rw [maximumf_apply, head_splat_apply, Ideal.ofBits_zero_f32]

theorem refIn_row (U S : FVec Ideal S50000x128 .f32) (uidx iidx : IVec S16384 32) (n : Fin 16384) :
    (fun k => refIn U S uidx iidx (ix2 n k)) = Spec.headIn U S uidx iidx n := by
  funext k
  unfold refIn Spec.headIn
  exact head_concat_apply _ _ n k

theorem refDense1_row (x : FVec Ideal S16384x256 .f32) (W : FVec Ideal S256x128 .f32) (b : FVec Ideal S128 .f32)
    (n : Fin 16384) :
    (fun j => refDense1 x W b (ix2 n j))
      = Spec.denseRow (fun k => x (ix2 n k)) (fun k j => W (ix2 k j)) (fun j => b (ix1 j)) := by
  funext j
  unfold refDense1 Spec.denseRow
  rw [addf_apply, head_dot1_apply, head_bcastRow_apply]

theorem refDense2_row (x : FVec Ideal S16384x128 .f32) (W : FVec Ideal S128x128 .f32) (b : FVec Ideal S128 .f32)
    (n : Fin 16384) :
    (fun j => refDense2 x W b (ix2 n j))
      = Spec.denseRow (fun k => x (ix2 n k)) (fun k j => W (ix2 k j)) (fun j => b (ix1 j)) := by
  funext j
  unfold refDense2 Spec.denseRow
  rw [addf_apply, head_dot2_apply, head_bcastRow_apply]

theorem refDense3_apply (x : FVec Ideal S16384x128 .f32) (W : FVec Ideal S128x1 .f32) (b : FVec Ideal S1 .f32)
    (n : Fin 16384) :
    refDense3 x W b (ix2 n (0 : Fin 1)) = (∑ k : Fin 128, x (ix2 n k) * W (ix2 k (0 : Fin 1))) + b (ix1 (0 : Fin 1)) := by
  unfold refDense3
  rw [addf_apply, head_dot3_apply, head_bcastOne_apply]

theorem refSigm_apply (z : FVec Ideal S16384x1 .f32) (i : S16384x1.Idx) : refSigm z i = Ideal.logistic (z i) := by
  unfold refSigm Ideal.logistic
  rw [hostDivf_apply, head_splatCol_apply, addf_apply, head_splatCol_apply, head_exp_apply, head_neg_apply,
    Ideal.ofBits_one_f32]

theorem refHeadTerm_eq (U S : FVec Ideal S50000x128 .f32) (uidx iidx : IVec S16384 32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) :
    refHeadTerm U S uidx iidx W1 b1 g1 be1 W2 b2 g2 be2 W3 b3
      = Spec.unix1 (Spec.headC U S uidx iidx W1 b1 g1 be1 W2 b2 g2 be2 W3 b3) := by
  funext i
  obtain ⟨n, rfl⟩ : ∃ n : Fin 16384, i = ix1 n := ⟨i 0, eq_ix1 i⟩
  rw [Spec.unix1_ix1]
  unfold refHeadTerm Spec.headC Spec.mlpRow
  rw [head_flat_apply, refSigm_apply, refDense3_apply]

  have h1 : (fun k => refRelu (refNorm (refDense1 (refIn U S uidx iidx) W1 b1) g1 be1) (ix2 n k))
      = fun k' => max (Spec.lnRow (Spec.denseRow (Spec.headIn U S uidx iidx n) (fun k j => W1 (ix2 k j))
          (fun j => b1 (ix1 j))) (fun j => g1 (ix1 j)) (fun j => be1 (ix1 j)) k') 0 := by
    funext k
    rw [refRelu_apply, refNorm_apply, refDense1_row, refIn_row]
  refine congrArg (fun s => Ideal.logistic (s + b3 (ix1 (0 : Fin 1)))) (Finset.sum_congr rfl fun k _ => ?_)
  rw [refRelu_apply, refNorm_apply, refDense2_row, h1]

end Cert.Hand.R

end
-- ==== Proof.RefHeadWin.lean ====
import proofs.«425409_j25305947308735_1_alg».proof.Proof.RefRun
import proofs.«425409_j25305947308735_1_alg».proof.Proof.RefHeadMath

noncomputable section

namespace Cert.Hand.R

open Cert.ReferenceIdeal Idealize.ShloMosaic Idealize.ShloMosaic.TcCoe Idealize.SL.Sem Idealize.ShloMosaic.StableHlo
open Idealize.ShloMosaic.ValueIdx Cert.Hand

variable [hRef : Cert.ReferenceIdeal.Facts]
open Cert.ReferenceIdeal.Facts₀ Cert.ReferenceIdeal.Facts

theorem after_take_drop {Val : EltTy → Type} : ∀ (k : Nat) (ops : List (HloOp τ sig Val)) (V : Valuation τ sig Val),
    after ops V = after (ops.drop k) (after (ops.take k) V)
  | 0, _, _ => rfl
  | _ + 1, [], _ => rfl
  | k + 1, op :: ops, V => by
    rw [List.take_succ_cons, List.drop_succ_cons, after_cons, after_cons]
    exact after_take_drop k ops _

variable (m : (ℓ : Loc nD τ sig) → Buf (Elt Ideal) ℓ) (d : Dev nD)

theorem head_userRows :
    RW4 m d (Proc.devRef .tc main_v167) = Spec.rowsOf (RW4 m d (Proc.devRef .tc main_v160)) (RW4 m d (Proc.devRef .tc main_arg0)) := by
  unfold RW4
  rw [after_take_drop 23 opsP3 (RW3 m d)]
  generalize after (List.take 23 opsP3) (RW3 m d) = W
  simp only [opsP3, List.drop_succ_cons, List.drop_zero]
  after_results_simp <;> rfl

theorem head_itemRows :
    RW7 m d (Proc.devRef .tc main_v335) = Spec.rowsOf (RW7 m d (Proc.devRef .tc main_v328)) (RW7 m d (Proc.devRef .tc main_arg1)) := by
  unfold RW7
  rw [after_take_drop 41 opsP6 (RW6 m d)]
  generalize after (List.take 41 opsP6) (RW6 m d) = W
  simp only [opsP6, List.drop_succ_cons, List.drop_zero]
  after_results_simp <;> rfl

def headCat (a b : FVec Ideal S16384x128 .f32) : FVec Ideal S16384x256 .f32 :=
  concatenate S16384x256 1 [⟨S16384x128, a⟩, ⟨S16384x128, b⟩] concatenates_S16384x128_S16384x128_S16384x256_d1

theorem head_input :
    RW7 m d (Proc.devRef .tc main_v336) = headCat (RW7 m d (Proc.devRef .tc main_v167)) (RW7 m d (Proc.devRef .tc main_v335)) := by
  unfold RW7
  rw [after_take_drop 50 opsP6 (RW6 m d)]
  generalize after (List.take 50 opsP6) (RW6 m d) = W
  simp only [opsP6, List.drop_succ_cons, List.drop_zero]
  after_results_simp <;> rfl

abbrev headY1 : FVec Ideal S16384x128 .f32 :=
  refDense1 (RW7 m d (Proc.devRef .tc main_v336)) (RW7 m d (Proc.devRef .tc main_arg16)) (RW7 m d (Proc.devRef .tc main_arg17))

theorem head_w6 :
    RW7 m d (Proc.devRef .tc main_v351) = refVar (headY1 m d) ∧ RW7 m d (Proc.devRef .tc main_v353) = refCen (headY1 m d)
      ∧ RW7 m d (Proc.devRef .tc main_v354)
        = broadcastInDim S16384x1 ![] bcast_S_S16384x1 (constant (F := Ideal) S_ .f32 0x3727C5AC#32) := by
  unfold headY1 RW7
  rw [after_take_drop 51 opsP6 (RW6 m d)]
  generalize after (List.take 51 opsP6) (RW6 m d) = W
  simp only [opsP6, List.drop_succ_cons, List.drop_zero]
  unfold refVar refCen refMean refDense1
  refine ⟨?_, ?_, ?_⟩ <;> (after_results_simp <;> rfl)

def headTail (var : FVec Ideal S16384x1 .f32) (cen : FVec Ideal S16384x128 .f32) (eps : FVec Ideal S16384x1 .f32)
    (g1 be1 : FVec Ideal S128 .f32) (W2 : FVec Ideal S128x128 .f32) (b2 g2 be2 : FVec Ideal S128 .f32)
    (W3 : FVec Ideal S128x1 .f32) (b3 : FVec Ideal S1 .f32) : FVec Ideal S16384 .f32 :=
  shapeCast S16384
    (refSigm (refDense3
      (refRelu (refNorm (refDense2
        (refRelu (normTail cen (Host.rsqrt (addf var eps)) g1 be1))
        W2 b2) g2 be2))
      W3 b3))
    shapeCasts_S16384x1_S16384

theorem head_w7 :
    RW8 m d (Proc.devRef .tc main_v405)
      = headTail (RW7 m d (Proc.devRef .tc main_v351)) (RW7 m d (Proc.devRef .tc main_v353))
          (RW7 m d (Proc.devRef .tc main_v354))
          (RW7 m d (Proc.devRef .tc main_arg18)) (RW7 m d (Proc.devRef .tc main_arg19))
          (RW7 m d (Proc.devRef .tc main_arg20)) (RW7 m d (Proc.devRef .tc main_arg21))
          (RW7 m d (Proc.devRef .tc main_arg22)) (RW7 m d (Proc.devRef .tc main_arg23))
          (RW7 m d (Proc.devRef .tc main_arg24)) (RW7 m d (Proc.devRef .tc main_arg25)) := by
  unfold RW8
  generalize RW7 m d = V
  simp only [opsP7]
  after_results_simp
  rfl

theorem headTail_eq (U S : FVec Ideal S50000x128 .f32) (uidx iidx : IVec S16384 32)
    (W1 : FVec Ideal S256x128 .f32) (b1 g1 be1 : FVec Ideal S128 .f32) (W2 : FVec Ideal S128x128 .f32)
    (b2 g2 be2 : FVec Ideal S128 .f32) (W3 : FVec Ideal S128x1 .f32) (b3 : FVec Ideal S1 .f32) :
    headTail (refVar (refDense1 (headCat (Spec.rowsOf U uidx) (Spec.rowsOf S iidx)) W1 b1))
        (refCen (refDense1 (headCat (Spec.rowsOf U uidx) (Spec.rowsOf S iidx)) W1 b1))
        (broadcastInDim S16384x1 ![] bcast_S_S16384x1 (constant (F := Ideal) S_ .f32 0x3727C5AC#32))
        g1 be1 W2 b2 g2 be2 W3 b3
      = refHeadTerm U S uidx iidx W1 b1 g1 be1 W2 b2 g2 be2 W3 b3 := by
  unfold headTail refHeadTerm refNorm refIn headCat
  rfl

-- The user rows gathered before the service layers are written by none of them.
theorem head_keep_v167 :
    RW7 m d (Proc.devRef .tc main_v167) = RW4 m d (Proc.devRef .tc main_v167) := by
  unfold RW7 RW6 RW5
  generalize RW4 m d = V
  after_results_simp

end Cert.Hand.R

end
-- ==== Proof.RefLayerMath.lean ====
import proofs.«425409_j25305947308735_1_alg».proof.Proof.Spec
import Idealize.ShloMosaic.Lib.IdealHost
import Idealize.ShloMosaic.Lib.StackMember
import Idealize.ShloMosaic.Lib.Pipeline.Value

noncomputable section

namespace Cert.Hand.RefLayer

open Idealize.ShloMosaic Idealize.ShloMosaic.ValueIdx Cert.ReferenceIdeal
open scoped BigOperators

variable [hRef : Cert.ReferenceIdeal.Facts]
open Cert.ReferenceIdeal.Facts₀ Cert.ReferenceIdeal.Facts

abbrev zeroS : FVec Ideal S_ .f32 := constant (F := Ideal) S_ .f32 0x00000000#32

def refScaled (neigh feats : FVec Ideal S50000x128 .f32) (inv : FVec Ideal S50000 .f32) : FVec Ideal S50000x128 .f32 :=
  mulf (addf neigh feats)
    (broadcastInDim S50000x128 ![0, 1] bcast_S50000x1_S50000x128_0_1
      (broadcastInDim S50000x1 ![0] bcast_S50000_S50000x1_0 inv))

def refDense (x : FVec Ideal S50000x128 .f32) (W : FVec Ideal S128x128 .f32) (b : FVec Ideal S128 .f32) :
    FVec Ideal S50000x128 .f32 :=
  addf (Host.dotGeneral dot_S50000x128_S128x128_S50000x128_1_0_0_1_n_n none x W)
    (broadcastInDim S50000x128 ![0, 1] bcast_S1x128_S50000x128_0_1
      (broadcastInDim S1x128 ![1] bcast_S128_S1x128_1 b))

def refAvg (y : FVec Ideal S50000x128 .f32) : FVec Ideal S50000x1 .f32 :=
  Host.divf
    (broadcastInDim S50000x1 ![0] bcast_S50000_S50000x1_0
      (Host.reduceAdd y zeroS reducesTo_S50000x128_S50000_d1 h_S_))
    (broadcastInDim S50000x1 ![] bcast_S_S50000x1 (constant (F := Ideal) S_ .f32 0x43000000#32))

def refCentred (y : FVec Ideal S50000x128 .f32) : FVec Ideal S50000x128 .f32 :=
  subf y (broadcastInDim S50000x128 ![0, 1] bcast_S50000x1_S50000x128_0_1 (refAvg y))

def refScale (y : FVec Ideal S50000x128 .f32) : FVec Ideal S50000x1 .f32 :=
  Host.rsqrt
    (addf (refAvg (mulf (refCentred y) (refCentred y)))
      (broadcastInDim S50000x1 ![] bcast_S_S50000x1 (constant (F := Ideal) S_ .f32 0x3727C5AC#32)))

-- The normalisation from centred rows C and a reciprocal square root column R.
def normFromScale (C : FVec Ideal S50000x128 .f32) (R : FVec Ideal S50000x1 .f32) (g be : FVec Ideal S128 .f32) :
    FVec Ideal S50000x128 .f32 :=
  addf
    (mulf (mulf C (broadcastInDim S50000x128 ![0, 1] bcast_S50000x1_S50000x128_0_1 R))
      (broadcastInDim S50000x128 ![0, 1] bcast_S1x128_S50000x128_0_1
        (broadcastInDim S1x128 ![1] bcast_S128_S1x128_1 g)))
    (broadcastInDim S50000x128 ![0, 1] bcast_S1x128_S50000x128_0_1
      (broadcastInDim S1x128 ![1] bcast_S128_S1x128_1 be))

def refNorm (y : FVec Ideal S50000x128 .f32) (g be : FVec Ideal S128 .f32) : FVec Ideal S50000x128 .f32 :=
  normFromScale (refCentred y) (refScale y) g be

def refPos (x : FVec Ideal S50000x128 .f32) : IVec S50000x128 1 :=
  cmpf .ogt x (broadcastInDim S50000x128 ![] bcast_S_S50000x128 zeroS)

def refElu (x : FVec Ideal S50000x128 .f32) : FVec Ideal S50000x128 .f32 :=
  select (refPos x) x
    (mulf (broadcastInDim S50000x128 ![] bcast_S_S50000x128 (constant (F := Ideal) S_ .f32 0x3F800000#32))
      (Host.expm1 (select (refPos x) (broadcastInDim S50000x128 ![] bcast_S_S50000x128 (id zeroS)) x)))

def refLayerTerm (neigh feats : FVec Ideal S50000x128 .f32) (inv : FVec Ideal S50000 .f32)
    (W : FVec Ideal S128x128 .f32) (b g be : FVec Ideal S128 .f32) : FVec Ideal S50000x128 .f32 :=
  refElu (refNorm (refDense (refScaled neigh feats inv) W b) g be)

section Spread
variable {α : Type}

theorem asColumn_apply (v : S50000.Idx → α) (r : Fin 50000) :
    broadcastInDim S50000x1 ![0] bcast_S50000_S50000x1_0 v (ix2 r (0 : Fin 1)) = v (ix1 r) :=
  broadcastInDim_apply _ _ _ _ (ix1 r) (fun a => match a with | ⟨0, _⟩ => rfl)

theorem alongRow_apply (w : S50000x1.Idx → α) (r : Fin 50000) (j : Fin 128) :
    broadcastInDim S50000x128 ![0, 1] bcast_S50000x1_S50000x128_0_1 w (ix2 r j) = w (ix2 r (0 : Fin 1)) :=
  broadcastInDim_apply _ _ _ _ (ix2 r (0 : Fin 1)) (fun a => match a with | ⟨0, _⟩ => rfl | ⟨1, _⟩ => rfl)

theorem asRow_apply (b : S128.Idx → α) (j : Fin 128) :
    broadcastInDim S1x128 ![1] bcast_S128_S1x128_1 b (ix2 (0 : Fin 1) j) = b (ix1 j) :=
  broadcastInDim_apply _ _ _ _ (ix1 j) (fun a => match a with | ⟨0, _⟩ => rfl)

theorem downColumn_apply (w : S1x128.Idx → α) (r : Fin 50000) (j : Fin 128) :
    broadcastInDim S50000x128 ![0, 1] bcast_S1x128_S50000x128_0_1 w (ix2 r j) = w (ix2 (0 : Fin 1) j) :=
  broadcastInDim_apply _ _ _ _ (ix2 (0 : Fin 1) j) (fun a => match a with | ⟨0, _⟩ => rfl | ⟨1, _⟩ => rfl)

theorem rowVec_apply (b : S128.Idx → α) (r : Fin 50000) (j : Fin 128) :
    broadcastInDim S50000x128 ![0, 1] bcast_S1x128_S50000x128_0_1
      (broadcastInDim S1x128 ![1] bcast_S128_S1x128_1 b) (ix2 r j) = b (ix1 j) :=
  (downColumn_apply _ r j).trans (asRow_apply b j)

end Spread

theorem refScaled_apply (neigh feats : FVec Ideal S50000x128 .f32) (inv : FVec Ideal S50000 .f32)
    (r : Fin 50000) (k : Fin 128) :
    refScaled neigh feats inv (ix2 r k) = (neigh (ix2 r k) + feats (ix2 r k)) * inv (ix1 r) := by
  unfold refScaled
  rw [mulf_apply, addf_apply, alongRow_apply, asColumn_apply]

theorem dot_eq_plain : dot_S50000x128_S128x128_S50000x128_1_0_0_1_n_n = DotDims.plain 50000 128 128 := rfl

theorem refDense_apply (x : FVec Ideal S50000x128 .f32) (W : FVec Ideal S128x128 .f32) (b : FVec Ideal S128 .f32)
    (r : Fin 50000) (j : Fin 128) :
    refDense x W b (ix2 r j)
      = Spec.denseRow (fun k => x (ix2 r k)) (fun k j => W (ix2 k j)) (fun j => b (ix1 j)) j := by
  unfold refDense Spec.denseRow
  rw [addf_apply, rowVec_apply, dot_eq_plain, StackMember.dotGeneral_plain_apply]

theorem rowSum_apply (y : FVec Ideal S50000x128 .f32) (r : Fin 50000) :
    Host.reduceAdd y zeroS reducesTo_S50000x128_S50000_d1 h_S_ (ix1 r) = ∑ k : Fin 128, y (ix2 r k) := by
  have h : S50000x128.Reduces [1] S50000 := by decide
  rw [hostReduceAdd_apply, Ideal.hostReduceAdd_single _ h]
  show Ideal.ofBits .f32 0x00000000#32 + _ = _
  rw [Ideal.ofBits_zero_f32, zero_add]
  refine Finset.sum_congr rfl fun k _ => congrArg y ?_
  funext a
  match a with
  | ⟨0, _⟩ => exact Fin.ext rfl
  | ⟨1, _⟩ => exact Fin.ext rfl

theorem refAvg_apply (y : FVec Ideal S50000x128 .f32) (r : Fin 50000) :
    refAvg y (ix2 r (0 : Fin 1)) = Ideal.div (∑ k : Fin 128, y (ix2 r k)) Spec.c128 := by
  unfold refAvg Spec.c128
  rw [hostDivf_apply, asColumn_apply, rowSum_apply, broadcastInDim_scalar_apply, constant_apply]

theorem refCentred_apply (y : FVec Ideal S50000x128 .f32) (r : Fin 50000) (j : Fin 128) :
    refCentred y (ix2 r j) = y (ix2 r j) - Spec.rowMean (fun k => y (ix2 r k)) := by
  unfold refCentred Spec.rowMean
  rw [subf_apply, alongRow_apply, refAvg_apply]

theorem refScale_apply (y : FVec Ideal S50000x128 .f32) (r : Fin 50000) :
    refScale y (ix2 r (0 : Fin 1)) = Ideal.rsqrt (Spec.rowVar (fun k => y (ix2 r k)) + Spec.ceps) := by
  unfold refScale Spec.rowVar Spec.ceps
  show Ideal.rsqrt _ = _
  rw [addf_apply, refAvg_apply, broadcastInDim_scalar_apply, constant_apply]
  simp only [mulf_apply, refCentred_apply]

theorem refNorm_apply (y : FVec Ideal S50000x128 .f32) (g be : FVec Ideal S128 .f32) (r : Fin 50000) (j : Fin 128) :
    refNorm y g be (ix2 r j)
      = Spec.lnRow (fun k => y (ix2 r k)) (fun j => g (ix1 j)) (fun j => be (ix1 j)) j := by
  unfold refNorm normFromScale Spec.lnRow
  rw [addf_apply, mulf_apply, mulf_apply, rowVec_apply, rowVec_apply, alongRow_apply, refScale_apply,
    refCentred_apply]

theorem refElu_apply (x : FVec Ideal S50000x128 .f32) (i : S50000x128.Idx) : refElu x i = Spec.elu (x i) := by
  have hp : refPos x i = Ideal.cmp .ogt (x i) 0 := by
    unfold refPos
    rw [cmpf_apply, broadcastInDim_scalar_apply]
    show FloatOps.cmpf .ogt (x i) (Ideal.ofBits .f32 0x00000000#32) = _
    rw [Ideal.ofBits_zero_f32]
    rfl
  unfold refElu Spec.elu
  rw [select_apply, hp]
  by_cases h : (0 : EReal) < x i
  · rw [if_pos h, show Ideal.cmp .ogt (x i) 0 = 1#1 by simp [Ideal.cmp, h], select_one]
  · rw [if_neg h, show Ideal.cmp .ogt (x i) 0 = 0#1 by simp [Ideal.cmp, h], select_zero, mulf_apply,
      broadcastInDim_scalar_apply, constant_apply, Ideal.ofBits_one_f32, one_mul]
    show Ideal.exp (select (refPos x) _ x i) - 1 = _
    rw [select_apply, hp, show Ideal.cmp .ogt (x i) 0 = 0#1 by simp [Ideal.cmp, h], select_zero]

theorem refLayerTerm_eq (neigh feats : FVec Ideal S50000x128 .f32) (inv : FVec Ideal S50000 .f32)
    (W : FVec Ideal S128x128 .f32) (b g be : FVec Ideal S128 .f32) :
    refLayerTerm neigh feats inv W b g be
      = Spec.unix2 (fun r => Spec.nodeRow (fun k => neigh (ix2 r k)) (fun k => feats (ix2 r k)) (inv (ix1 r))
          (fun k j => W (ix2 k j)) (fun j => b (ix1 j)) (fun j => g (ix1 j)) (fun j => be (ix1 j))) := by
  funext i
  obtain ⟨r, j, rfl⟩ : ∃ (r : Fin 50000) (j : Fin 128), i = ix2 r j := ⟨i 0, i 1, eq_ix2 i⟩
  rw [Spec.unix2_ix2]
  unfold refLayerTerm Spec.nodeRow
  rw [refElu_apply, refNorm_apply]
  simp only [refDense_apply, refScaled_apply]

theorem sliceMat_apply {α : Type} (X : S3x128x128.Idx → α) (o : Nat) (h : S3x128x128.Slices ![o, 0, 0] S1x128x128)
    (hc : S1x128x128.ShapeCasts S128x128) (l : Fin 3) (hl : l.val = o) (k j : Fin 128) :
    shapeCast S128x128 (extractStridedSlice S1x128x128 ![o, 0, 0] X h) hc (ix2 k j) = X (ix3 l k j) := by
  refine (shapeCast_apply _ hc (ix2 k j) (ix3 (0 : Fin 1) k j) ?_).trans ?_
  · rw [Shape.rowMajor_val_three, Shape.rowMajor_val_two]
    show ((0 : Nat) * 128 + k.val) * 128 + j.val = k.val * 128 + j.val
    omega
  · exact extractStridedSlice_apply _ X h _ (ix3 l k j) (fun a => match a with
      | ⟨0, _⟩ => by show l.val = o + 0; omega
      | ⟨1, _⟩ => by show k.val = 0 + k.val; omega
      | ⟨2, _⟩ => by show j.val = 0 + j.val; omega)

theorem sliceRow_apply {α : Type} (X : S3x128.Idx → α) (o : Nat) (h : S3x128.Slices ![o, 0] S1x128)
    (hc : S1x128.ShapeCasts S128) (l : Fin 3) (hl : l.val = o) (j : Fin 128) :
    shapeCast S128 (extractStridedSlice S1x128 ![o, 0] X h) hc (ix1 j) = X (ix2 l j) := by
  refine (shapeCast_apply _ hc (ix1 j) (ix2 (0 : Fin 1) j) ?_).trans ?_
  · rw [Shape.rowMajor_val_two, Shape.rowMajor_val_one]
    show (0 : Nat) * 128 + j.val = j.val
    omega
  · exact extractStridedSlice_apply _ X h _ (ix2 l j) (fun a => match a with
      | ⟨0, _⟩ => by show l.val = o + 0; omega
      | ⟨1, _⟩ => by show j.val = 0 + j.val; omega)

end Cert.Hand.RefLayer

end
-- ==== Proof.RefLayerForms.lean ====
import proofs.«425409_j25305947308735_1_alg».proof.Proof.RefLayerMath
import proofs.«425409_j25305947308735_1_alg».proof.Proof.RefVals

noncomputable section

namespace Cert.Hand.RefLayer

open Cert.ReferenceIdeal Idealize.ShloMosaic Idealize.ShloMosaic.TcCoe Idealize.SL.Sem Idealize.ShloMosaic.StableHlo
open Idealize.ShloMosaic.ValueIdx Cert.Hand.R

variable [hRef : Cert.ReferenceIdeal.Facts]
open Cert.ReferenceIdeal.Facts₀ Cert.ReferenceIdeal.Facts

theorem matSlices : ∀ l : Fin 3, S3x128x128.Slices ![l.val, 0, 0] S1x128x128 := by decide
theorem rowSlices : ∀ l : Fin 3, S3x128.Slices ![l.val, 0] S1x128 := by decide

-- Member l of a stack of three matrices: the slice at offset l with its leading axis dropped.
def matOf (l : Fin 3) (X : FVec Ideal S3x128x128 .f32) : FVec Ideal S128x128 .f32 :=
  shapeCast S128x128 (extractStridedSlice S1x128x128 ![l.val, 0, 0] X (matSlices l)) shapeCasts_S1x128x128_S128x128

-- Member l of a stack of three rows.
def rowOf (l : Fin 3) (X : FVec Ideal S3x128 .f32) : FVec Ideal S128 .f32 :=
  shapeCast S128 (extractStridedSlice S1x128 ![l.val, 0] X (rowSlices l)) shapeCasts_S1x128_S128

def epsCol : FVec Ideal S50000x1 .f32 :=
  broadcastInDim S50000x1 ![] bcast_S_S50000x1 (constant (F := Ideal) S_ .f32 0x3727C5AC#32)

def c128Col : FVec Ideal S50000x1 .f32 :=
  broadcastInDim S50000x1 ![] bcast_S_S50000x1 (constant (F := Ideal) S_ .f32 0x43000000#32)

-- The dense output of a layer: (neighbours + rows) scaled by the inverse degrees, times the matrix, plus the bias.
def denseOf (feats : FVec Ideal S50000x128 .f32) (src dst : IVec S800000 32) (inv : FVec Ideal S50000 .f32)
    (W : FVec Ideal S128x128 .f32) (b : FVec Ideal S128 .f32) : FVec Ideal S50000x128 .f32 :=
  refDense (refScaled (Spec.neighOf feats src dst) feats inv) W b

def varCol (Y : FVec Ideal S50000x128 .f32) : FVec Ideal S50000x1 .f32 :=
  refAvg (mulf (refCentred Y) (refCentred Y))

def avgFromSum (s : FVec Ideal S50000 .f32) : FVec Ideal S50000x1 .f32 :=
  Host.divf (broadcastInDim S50000x1 ![0] bcast_S50000_S50000x1_0 s) c128Col

-- Rows minus a column M spread along them.
def cen (Y : FVec Ideal S50000x128 .f32) (M : FVec Ideal S50000x1 .f32) : FVec Ideal S50000x128 .f32 :=
  subf Y (broadcastInDim S50000x128 ![0, 1] bcast_S50000x1_S50000x128_0_1 M)

-- The normalisation of Y from its mean column M.
def normFromAvg (Y : FVec Ideal S50000x128 .f32) (M : FVec Ideal S50000x1 .f32) (g be : FVec Ideal S128 .f32) :
    FVec Ideal S50000x128 .f32 :=
  normFromScale (cen Y M) (Host.rsqrt (addf (refAvg (mulf (cen Y M) (cen Y M))) epsCol)) g be

-- Read row by row, a layer built on member l of the stacks is the specification's layer l.
theorem layerForm (l : Fin 3) (feats : FVec Ideal S50000x128 .f32) (src dst : IVec S800000 32)
    (W : FVec Ideal S3x128x128 .f32) (b g be : FVec Ideal S3x128 .f32) :
    refElu (refNorm (denseOf feats src dst (Spec.invOf dst) (matOf l W) (rowOf l b)) (rowOf l g) (rowOf l be))
      = Spec.layerA feats src dst W b g be l := by
  unfold Spec.layerA Spec.layerC
  refine (refLayerTerm_eq _ _ _ _ _ _ _).trans ?_
  simp only [matOf, rowOf, sliceMat_apply _ _ _ _ l rfl, sliceRow_apply _ _ _ _ l rfl]

abbrev rd (V : Valuation τ sig (Elt Ideal)) (b : Ref sig .tc) := V (Proc.devRef .tc b)

variable (V : Valuation τ sig (Elt Ideal))

def out0 :=
  refElu (normFromScale (rd V main_v46) (Host.rsqrt (addf (rd V main_v44) (rd V main_v47))) (rd V main_v31) (rd V main_v33))

def out1 :=
  refElu (normFromScale (rd V main_v97) (Host.rsqrt (rd V main_v99)) (rd V main_v82) (rd V main_v84))

def out2 :=
  refElu (normFromScale (rd V main_v148) (rd V main_v151) (rd V main_v133) (rd V main_v135))

def out3 :=
  refElu (normFromAvg (rd V main_v197)
    (avgFromSum (Host.reduceAdd (rd V main_v197) (rd V main_cst_35) reducesTo_S50000x128_S50000_d1 h_S_))
    (rd V main_v199) (rd V main_v201))

def out4 :=
  refElu (normFromAvg (rd V main_v248) (avgFromSum (rd V main_v253)) (rd V main_v250) (rd V main_v252))

def out5 :=
  refElu (normFromAvg (rd V main_v299) (Host.divf (rd V main_v305) c128Col) (rd V main_v301) (rd V main_v303))

end Cert.Hand.RefLayer

end
-- ==== Proof.RefUserStack.lean ====
import proofs.«425409_j25305947308735_1_alg».proof.Proof.RefLayerForms
import proofs.«425409_j25305947308735_1_alg».proof.Proof.RefRun

noncomputable section

namespace Cert.Hand.RefLayer

open Cert.ReferenceIdeal Idealize.ShloMosaic Idealize.ShloMosaic.TcCoe Idealize.SL.Sem Idealize.ShloMosaic.StableHlo
open Idealize.ShloMosaic.ValueIdx Cert.Hand.R

variable [hRef : Cert.ReferenceIdeal.Facts]
open Cert.ReferenceIdeal.Facts₀ Cert.ReferenceIdeal.Facts

variable (V : Valuation τ sig (Elt Ideal))

def dense0 :=
  denseOf (rd V main_arg6) (rd V main_arg2) (rd V main_arg3) (Spec.invOf (rd V main_arg3)) (matOf 0 (rd V main_arg8))
    (rowOf 0 (rd V main_arg9))

theorem p0_v7 : rd (after opsP0 V) main_v7 = Spec.invOf (rd V main_arg3) := by
  after_results_simp
  rfl

theorem p0_v46 : rd (after opsP0 V) main_v46 = refCentred (dense0 V) := by
  after_results_simp
  rfl

theorem p0_v44 : rd (after opsP0 V) main_v44 = varCol (dense0 V) := by
  after_results_simp
  rfl

theorem p0_v47 : rd (after opsP0 V) main_v47 = epsCol := by
  after_results_simp
  rfl

theorem p0_v31 : rd (after opsP0 V) main_v31 = rowOf 0 (rd V main_arg10) := by
  after_results_simp
  rfl

theorem p0_v33 : rd (after opsP0 V) main_v33 = rowOf 0 (rd V main_arg11) := by
  after_results_simp
  rfl

theorem p1_v58 : rd (after opsP1 V) main_v58 = out0 V := by
  after_results_simp
  rfl

-- User layer 0, finished from centred rows, variance column and the small constant, is the specification's layer 0.
theorem layer0 : out0 (after opsP0 V) = Spec.layerA (rd V main_arg6) (rd V main_arg2) (rd V main_arg3) (rd V main_arg8)
    (rd V main_arg9) (rd V main_arg10) (rd V main_arg11) 0 := by
  unfold out0
  rw [p0_v46, p0_v44, p0_v47, p0_v31, p0_v33]
  exact layerForm 0 ..

def dense1 :=
  denseOf (out0 V) (rd V main_arg2) (rd V main_arg3) (rd V main_v7) (matOf 1 (rd V main_arg8)) (rowOf 1 (rd V main_arg9))

theorem p1_v97 : rd (after opsP1 V) main_v97 = refCentred (dense1 V) := by
  after_results_simp
  rfl

theorem p1_v99 : rd (after opsP1 V) main_v99 = addf (varCol (dense1 V)) epsCol := by
  after_results_simp
  rfl

theorem p1_v82 : rd (after opsP1 V) main_v82 = rowOf 1 (rd V main_arg10) := by
  after_results_simp
  rfl

theorem p1_v84 : rd (after opsP1 V) main_v84 = rowOf 1 (rd V main_arg11) := by
  after_results_simp
  rfl

theorem p1_v7 : rd (after opsP1 V) main_v7 = rd V main_v7 := by
  after_results_simp

theorem p2_v109 : rd (after opsP2 V) main_v109 = out1 V := by
  after_results_simp
  rfl

-- User layer 1 on layer 0's result, finished from centred rows and variance plus the small constant.
theorem layer1 (hi : rd V main_v7 = Spec.invOf (rd V main_arg3)) :
    out1 (after opsP1 V) = Spec.layerA (out0 V) (rd V main_arg2) (rd V main_arg3) (rd V main_arg8) (rd V main_arg9)
      (rd V main_arg10) (rd V main_arg11) 1 := by
  unfold out1
  rw [p1_v97, p1_v99, p1_v82, p1_v84]
  unfold dense1
  rw [hi]
  exact layerForm 1 ..

def dense2 :=
  denseOf (out1 V) (rd V main_arg2) (rd V main_arg3) (rd V main_v7) (matOf 2 (rd V main_arg8)) (rowOf 2 (rd V main_arg9))

theorem p2_v148 : rd (after opsP2 V) main_v148 = refCentred (dense2 V) := by
  after_results_simp
  rfl

theorem p2_v151 : rd (after opsP2 V) main_v151 = refScale (dense2 V) := by
  after_results_simp
  rfl

theorem p2_v133 : rd (after opsP2 V) main_v133 = rowOf 2 (rd V main_arg10) := by
  after_results_simp
  rfl

theorem p2_v135 : rd (after opsP2 V) main_v135 = rowOf 2 (rd V main_arg11) := by
  after_results_simp
  rfl

theorem p3_v160 : rd (after opsP3 V) main_v160 = out2 V := by
  after_results_simp
  rfl

-- User layer 2 on layer 1's result, finished from centred rows and the reciprocal square root column.
theorem layer2 (hi : rd V main_v7 = Spec.invOf (rd V main_arg3)) :
    out2 (after opsP2 V) = Spec.layerA (out1 V) (rd V main_arg2) (rd V main_arg3) (rd V main_arg8) (rd V main_arg9)
      (rd V main_arg10) (rd V main_arg11) 2 := by
  unfold out2
  rw [p2_v148, p2_v151, p2_v133, p2_v135]
  unfold dense2
  rw [hi]
  exact layerForm 2 ..

variable (m : (ℓ : Loc nD τ sig) → Buf (Elt Ideal) ℓ) (d : Dev nD)

-- The three user layers compose to the specification's stack; the argument arrays are never written.
theorem userStack : RW4 (F := Ideal) m d (Proc.devRef .tc main_v160) = Spec.stack (m (d, Proc.devRef .tc main_arg6)) (m (d, Proc.devRef .tc main_arg2)) (m (d, Proc.devRef .tc main_arg3)) (m (d, Proc.devRef .tc main_arg8)) (m (d, Proc.devRef .tc main_arg9)) (m (d, Proc.devRef .tc main_arg10)) (m (d, Proc.devRef .tc main_arg11)) := by
  have h1 : rd (RW1 m d) main_v7 = Spec.invOf (rd (RW1 m d) main_arg3) :=
    (p0_v7 _).trans (congrArg Spec.invOf (keepP0 _ (by decide)).symm)
  have h2 : rd (RW2 m d) main_v7 = Spec.invOf (rd (RW2 m d) main_arg3) :=
    (p1_v7 _).trans (h1.trans (congrArg Spec.invOf (keepP1 _ (by decide)).symm))
  refine (p3_v160 _).trans ?_
  rw [layer2 _ h2, layer1 _ h1, layer0]
  simp (disch := decide) only [rd, RW1_arg, RW2_arg]
  rfl

end Cert.Hand.RefLayer

end
-- ==== Proof.RefSvcStack.lean ====
import proofs.«425409_j25305947308735_1_alg».proof.Proof.RefLayerForms
import proofs.«425409_j25305947308735_1_alg».proof.Proof.RefRun

noncomputable section

namespace Cert.Hand.RefLayer

open Cert.ReferenceIdeal Idealize.ShloMosaic Idealize.ShloMosaic.TcCoe Idealize.SL.Sem Idealize.ShloMosaic.StableHlo
open Idealize.ShloMosaic.ValueIdx Cert.Hand.R

variable [hRef : Cert.ReferenceIdeal.Facts]
open Cert.ReferenceIdeal.Facts₀ Cert.ReferenceIdeal.Facts

variable (V : Valuation τ sig (Elt Ideal))

def dense3 :=
  denseOf (rd V main_arg7) (rd V main_arg4) (rd V main_arg5) (Spec.invOf (rd V main_arg5)) (matOf 0 (rd V main_arg12))
    (rowOf 0 (rd V main_arg13))

theorem p3_v175 : rd (after opsP3 V) main_v175 = Spec.invOf (rd V main_arg5) := by
  after_results_simp
  rfl

theorem p3_v197 : rd (after opsP3 V) main_v197 = dense3 V := by
  after_results_simp
  rfl

theorem p3_cst35 : rd (after opsP3 V) main_cst_35 = zeroS := by
  after_results_simp

theorem p3_v199 : rd (after opsP3 V) main_v199 = rowOf 0 (rd V main_arg14) := by
  after_results_simp
  rfl

theorem p3_v201 : rd (after opsP3 V) main_v201 = rowOf 0 (rd V main_arg15) := by
  after_results_simp
  rfl

theorem p4_v226 : rd (after opsP4 V) main_v226 = out3 V := by
  after_results_simp
  rfl

-- Service layer 0, normalised from its dense output and the zero scalar, is the specification's layer 0.
theorem layer3 : out3 (after opsP3 V) = Spec.layerA (rd V main_arg7) (rd V main_arg4) (rd V main_arg5) (rd V main_arg12)
    (rd V main_arg13) (rd V main_arg14) (rd V main_arg15) 0 := by
  unfold out3
  rw [p3_v197, p3_cst35, p3_v199, p3_v201]
  exact layerForm 0 ..

def dense4 :=
  denseOf (out3 V) (rd V main_arg4) (rd V main_arg5) (rd V main_v175) (matOf 1 (rd V main_arg12)) (rowOf 1 (rd V main_arg13))

set_option maxHeartbeats 4000000 in
theorem p4_v248 : rd (after opsP4 V) main_v248 = dense4 V := by
  after_results_simp
  rfl

set_option maxHeartbeats 4000000 in
theorem p4_v253 : rd (after opsP4 V) main_v253 = Host.reduceAdd (dense4 V) zeroS reducesTo_S50000x128_S50000_d1 h_S_ := by
  after_results_simp
  rfl

theorem p4_v250 : rd (after opsP4 V) main_v250 = rowOf 1 (rd V main_arg14) := by
  after_results_simp
  rfl

theorem p4_v252 : rd (after opsP4 V) main_v252 = rowOf 1 (rd V main_arg15) := by
  after_results_simp
  rfl

theorem p4_v175 : rd (after opsP4 V) main_v175 = rd V main_v175 := by
  after_results_simp

theorem p5_v277 : rd (after opsP5 V) main_v277 = out4 V := by
  after_results_simp
  rfl

-- Service layer 1 on layer 0's result, normalised from its dense output and that output's row sums.
theorem layer4 (hi : rd V main_v175 = Spec.invOf (rd V main_arg5)) :
    out4 (after opsP4 V) = Spec.layerA (out3 V) (rd V main_arg4) (rd V main_arg5) (rd V main_arg12) (rd V main_arg13)
      (rd V main_arg14) (rd V main_arg15) 1 := by
  unfold out4
  rw [p4_v248, p4_v253, p4_v250, p4_v252]
  unfold dense4
  rw [hi]
  exact layerForm 1 ..

def dense5 :=
  denseOf (out4 V) (rd V main_arg4) (rd V main_arg5) (rd V main_v175) (matOf 2 (rd V main_arg12)) (rowOf 2 (rd V main_arg13))

theorem p5_v299 : rd (after opsP5 V) main_v299 = dense5 V := by
  after_results_simp
  rfl

theorem p5_v305 : rd (after opsP5 V) main_v305 = broadcastInDim S50000x1 ![0] bcast_S50000_S50000x1_0
      (Host.reduceAdd (dense5 V) zeroS reducesTo_S50000x128_S50000_d1 h_S_) := by
  after_results_simp
  rfl

theorem p5_v301 : rd (after opsP5 V) main_v301 = rowOf 2 (rd V main_arg14) := by
  after_results_simp
  rfl

theorem p5_v303 : rd (after opsP5 V) main_v303 = rowOf 2 (rd V main_arg15) := by
  after_results_simp
  rfl

theorem p6_v328 : rd (after opsP6 V) main_v328 = out5 V := by
  after_results_simp
  rfl

-- Service layer 2 on layer 1's result, normalised from its dense output and its row sums as a column.
theorem layer5 (hi : rd V main_v175 = Spec.invOf (rd V main_arg5)) :
    out5 (after opsP5 V) = Spec.layerA (out4 V) (rd V main_arg4) (rd V main_arg5) (rd V main_arg12) (rd V main_arg13)
      (rd V main_arg14) (rd V main_arg15) 2 := by
  unfold out5
  rw [p5_v299, p5_v305, p5_v301, p5_v303]
  unfold dense5
  rw [hi]
  exact layerForm 2 ..

variable (m : (ℓ : Loc nD τ sig) → Buf (Elt Ideal) ℓ) (d : Dev nD)

-- The three service layers compose to the specification's stack; the argument arrays are never written.
theorem servStack : RW7 (F := Ideal) m d (Proc.devRef .tc main_v328)
    = Spec.stack (m (d, Proc.devRef .tc main_arg7)) (m (d, Proc.devRef .tc main_arg4)) (m (d, Proc.devRef .tc main_arg5)) (m (d, Proc.devRef .tc main_arg12))
        (m (d, Proc.devRef .tc main_arg13)) (m (d, Proc.devRef .tc main_arg14)) (m (d, Proc.devRef .tc main_arg15)) := by
  have h4 : rd (RW4 m d) main_v175 = Spec.invOf (rd (RW4 m d) main_arg5) :=
    (p3_v175 _).trans (congrArg Spec.invOf (keepP3 _ (by decide)).symm)
  have h5 : rd (RW5 m d) main_v175 = Spec.invOf (rd (RW5 m d) main_arg5) :=
    (p4_v175 _).trans (h4.trans (congrArg Spec.invOf (keepP4 _ (by decide)).symm))
  refine (p6_v328 _).trans ?_
  rw [layer5 _ h5, layer4 _ h4, layer3]
  simp (disch := decide) only [rd, RW3_arg, RW4_arg, RW5_arg]
  rfl

end Cert.Hand.RefLayer

end
-- ==== Proof.RFinal.lean ====
import proofs.«425409_j25305947308735_1_alg».proof.Proof.RefHeadWin
import proofs.«425409_j25305947308735_1_alg».proof.Proof.RefUserStack
import proofs.«425409_j25305947308735_1_alg».proof.Proof.RefSvcStack

noncomputable section

namespace Cert.Hand.R

open Cert.ReferenceIdeal Idealize.ShloMosaic Idealize.ShloMosaic.TcCoe Idealize.SL.Sem Idealize.ShloMosaic.StableHlo
open Cert.Hand

-- The result buffer holds the head applied to the two stacks of the argument arrays; no argument array is written.
theorem run [Cert.ReferenceIdeal.Facts] (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v405) = Spec.resultA (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun _ h c => by
    refine ⟨(h c main_v405).trans ?_, ?_⟩
    · rw [head_w7, (head_w6 m c).1, (head_w6 m c).2.1, (head_w6 m c).2.2]
      unfold headY1
      rw [head_input, head_itemRows, head_keep_v167, head_userRows, RefLayer.userStack, RefLayer.servStack]
      simp (disch := decide) only [RW7_arg, RW4_arg]
      rw [headTail_eq, refHeadTerm_eq]
      rfl
    · repeat' apply And.intro
      all_goals exact (h c _).trans (RW8_arg m c (by decide)))
    (run_after m ρ)

end Cert.Hand.R

end
-- ==== Proof.PreIdxCore.lean ====
import proofs.«425409_j25305947308735_1_alg».proof.Pre_finite_inputs
import Idealize.ShloMosaic.Lib.ReduceAll
import Idealize.ShloMosaic.Lib.ValueIdx

noncomputable section

namespace Cert.Hand.Pre

open Idealize.ShloMosaic Idealize.ShloMosaic.ValueIdx Cert.Pre_finite_inputs

variable [hPre : Cert.Pre_finite_inputs.Facts]

instance subsingleton_scalarIdx : Subsingleton S_.Idx := ⟨fun _ _ => funext fun d => d.elim0⟩

omit hPre in

theorem and_split (x y : IVec S_ 1) (h : andi x y ix0 = 1#1) : x ix0 = 1#1 ∧ y ix0 = 1#1 :=
  IntOp.andi_eq_one.1 h

theorem lt_of_all (a : IVec S16384 32) (c : BitVec 32) (k : Int) (hc : c.toInt = k) (init : IVec S_ 1)
    (h : Host.reduce IntOp.andi (cmpi .slt a (broadcastInDim S16384 ![] Facts.bcast_S_S16384 (constantI S_ 32 c))) init
      Facts.reducesTo_S16384_S_d0 Facts.h_S_ ix0 = 1#1)
    (n : Fin 16384) : (a (ix1 n)).toInt < k := by
  have e : cmpi .slt a (broadcastInDim S16384 ![] Facts.bcast_S_S16384 (constantI S_ 32 c)) (ix1 n) = 1#1 :=
    Host.reduce_andi_all _ _ _ _ _ h (ix1 n)
  have e' : IntOp.cmpi .slt (a (ix1 n)) c = 1#1 := e
  rw [← hc]
  exact IntOp.cmpi_slt.1 e'

theorem ge_of_all (a : IVec S16384 32) (c : BitVec 32) (k : Int) (hc : c.toInt = k) (init : IVec S_ 1)
    (h : Host.reduce IntOp.andi (cmpi .sge a (broadcastInDim S16384 ![] Facts.bcast_S_S16384 (constantI S_ 32 c))) init
      Facts.reducesTo_S16384_S_d0 Facts.h_S_ ix0 = 1#1)
    (n : Fin 16384) : k ≤ (a (ix1 n)).toInt := by
  have e : cmpi .sge a (broadcastInDim S16384 ![] Facts.bcast_S_S16384 (constantI S_ 32 c)) (ix1 n) = 1#1 :=
    Host.reduce_andi_all _ _ _ _ _ h (ix1 n)
  have e' : IntOp.cmpi .sge (a (ix1 n)) c = 1#1 := e
  rw [← hc]
  exact IntOp.cmpi_sge.1 e'

theorem range_of_pre (a0 a1 : IVec S16384 32) (a2 a3 a4 a5 : IVec S800000 32)
    (a6 a7 : FVec Ideal S50000x128 .f32) (a8 : FVec Ideal S3x128x128 .f32) (a9 a10 a11 : FVec Ideal S3x128 .f32)
    (a12 : FVec Ideal S3x128x128 .f32) (a13 a14 a15 : FVec Ideal S3x128 .f32) (a16 : FVec Ideal S256x128 .f32)
    (a17 a18 a19 : FVec Ideal S128 .f32) (a20 : FVec Ideal S128x128 .f32) (a21 a22 a23 : FVec Ideal S128 .f32)
    (a24 : FVec Ideal S128x1 .f32) (a25 : FVec Ideal S1 .f32)
    (h : fn (F := Ideal) a0 a1 a2 a3 a4 a5 a6 a7 a8 a9 a10 a11 a12 a13 a14 a15 a16 a17 a18 a19 a20 a21 a22 a23 a24 a25
      = fun _ => 1#1) :
    (∀ n : Fin 16384, 0 ≤ (a0 (ix1 n)).toInt ∧ (a0 (ix1 n)).toInt < 50000)
      ∧ (∀ n : Fin 16384, 0 ≤ (a1 (ix1 n)).toInt ∧ (a1 (ix1 n)).toInt < 50000) := by
  have h0 := congrFun h ix0
  dsimp only [fn, fn_part1, fn_part2, fn_part3, fn_part4, fn_part5, fn_part6] at h0
  obtain ⟨h110, h113⟩ := and_split _ _ h0
  obtain ⟨h106, h109⟩ := and_split _ _ h110
  obtain ⟨h102, h105⟩ := and_split _ _ h106
  obtain ⟨-, h101⟩ := and_split _ _ h102
  exact ⟨fun n => ⟨ge_of_all a0 0#32 0 (by decide) _ h101 n, lt_of_all a0 50000#32 50000 (by decide) _ h105 n⟩,
    fun n => ⟨ge_of_all a1 0#32 0 (by decide) _ h109 n, lt_of_all a1 50000#32 50000 (by decide) _ h113 n⟩⟩

end Cert.Hand.Pre

end
-- ==== Proof.PreIdx.lean ====
import proofs.«425409_j25305947308735_1_alg».proof.Proof.Spec
import proofs.«425409_j25305947308735_1_alg».proof.Proof.PreIdxCore

noncomputable section

namespace Cert.Hand.Pre

open Idealize.ShloMosaic Idealize.ShloMosaic.ValueIdx Cert.Pre_finite_inputs

variable [hPre : Cert.Pre_finite_inputs.Facts]

theorem idxOk_of_pre (a0 a1 : IVec S16384 32) (a2 a3 a4 a5 : IVec S800000 32)
    (a6 a7 : FVec Ideal S50000x128 .f32) (a8 : FVec Ideal S3x128x128 .f32) (a9 a10 a11 : FVec Ideal S3x128 .f32)
    (a12 : FVec Ideal S3x128x128 .f32) (a13 a14 a15 : FVec Ideal S3x128 .f32) (a16 : FVec Ideal S256x128 .f32)
    (a17 a18 a19 : FVec Ideal S128 .f32) (a20 : FVec Ideal S128x128 .f32) (a21 a22 a23 : FVec Ideal S128 .f32)
    (a24 : FVec Ideal S128x1 .f32) (a25 : FVec Ideal S1 .f32) :
    fn (F := Ideal) a0 a1 a2 a3 a4 a5 a6 a7 a8 a9 a10 a11 a12 a13 a14 a15 a16 a17 a18 a19 a20 a21 a22 a23 a24 a25
      = (fun _ => 1#1) → Cert.Hand.Spec.IdxOk a0 ∧ Cert.Hand.Spec.IdxOk a1 :=
  fun h => range_of_pre a0 a1 a2 a3 a4 a5 a6 a7 a8 a9 a10 a11 a12 a13 a14 a15 a16 a17 a18 a19 a20 a21 a22 a23 a24 a25 h

end Cert.Hand.Pre

end
-- ==== Proof.lean ====
import proofs.«425409_j25305947308735_1_alg».proof.Defs
import proofs.«425409_j25305947308735_1_alg».proof.Proof.Gen.Kernel
import proofs.«425409_j25305947308735_1_alg».proof.Proof.Gen.Kernel.Skeleton
import proofs.«425409_j25305947308735_1_alg».proof.Proof.Gen.Kernel.Launch
import proofs.«425409_j25305947308735_1_alg».proof.Proof.Gen.Kernel.Points
import proofs.«425409_j25305947308735_1_alg».proof.Proof.Gen.Kernel.Frame
import proofs.«425409_j25305947308735_1_alg».proof.Proof.Gen.KernelIdeal
import proofs.«425409_j25305947308735_1_alg».proof.Proof.Gen.KernelIdeal.Skeleton
import proofs.«425409_j25305947308735_1_alg».proof.Proof.Gen.KernelIdeal.Launch
import proofs.«425409_j25305947308735_1_alg».proof.Proof.Gen.KernelIdeal.Points
import proofs.«425409_j25305947308735_1_alg».proof.Proof.Gen.KernelIdeal.Frame
import proofs.«425409_j25305947308735_1_alg».proof.Proof.Gen.ReferenceIdeal
import proofs.«425409_j25305947308735_1_alg».proof.Proof.Gen.Pre_finite_inputs
import proofs.«425409_j25305947308735_1_alg».proof.Proof.KFinal
import proofs.«425409_j25305947308735_1_alg».proof.Proof.RFinal
import proofs.«425409_j25305947308735_1_alg».proof.Proof.PreIdx
import Idealize.ShloMosaic.Adequacy
import Idealize.ShloMosaic.Init

noncomputable section

namespace Cert.Proof

open Idealize.ShloMosaic Idealize.SL.Sem

/-- The reference's run, with its result forgotten, is its frame. -/
theorem frame_ri : Cert.frame_ReferenceIdeal (hReferenceIdeal := Cert.ReferenceIdeal.Gen.facts)
    (hPre_finite_inputs := Cert.Pre_finite_inputs.Gen.facts) := by
  haveI := Cert.ReferenceIdeal.Gen.facts
  intro m ρ _
  exact (θ_run Cert.ReferenceIdeal.defs _ _).mono (fun _ h c => (h c).2) (Cert.Hand.R.run m ρ)

/-- Both programs end at one function of the arguments; the precondition puts the two batch columns in range. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  haveI := Cert.KernelIdeal.Gen.facts
  haveI := Cert.ReferenceIdeal.Gen.facts
  haveI := Cert.Pre_finite_inputs.Gen.facts
  intro m ρ m' ρ' hpre hagree
  have hidx := fun c => Cert.Hand.Pre.idxOk_of_pre _ _ _ _ _ _ _ _ _ _ _ _ _ _ _ _ _ _ _ _ _ _ _ _ _ _ (hpre c)
  refine ⟨_, Cert.Hand.K.run m ρ (fun c => (hidx c).1) (fun c => (hidx c).2), ?_⟩
  refine (θ_run Cert.ReferenceIdeal.defs _ _).mono (fun _ h c => ⟨(h c).1.trans ?_, (h c).2⟩) (Cert.Hand.R.run m' ρ')
  obtain ⟨h0, h1, h2, h3, h4, h5, h6, h7, h8, h9, h10, h11, h12, h13, h14, h15, h16, h17, h18, h19, h20, h21, h22, h23, h24, h25⟩ := hagree c
  rw [h0, h1, h2, h3, h4, h5, h6, h7, h8, h9, h10, h11, h12, h13, h14, h15, h16, h17, h18, h19, h20, h21, h22, h23, h24, h25]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ, fun m ρ _ => Cert.KernelIdeal.Gen.frame m ρ, frame_ri, trivial, algebraic⟩

end Cert.Proof

end
